-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v191)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v271) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S4 : Shape := ⟨1, ![4]⟩
abbrev S64x1 : Shape := ⟨2, ![64, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S4x64x128 : S_.BroadcastsInDim S4x64x128 (![] : Fin 0 → Fin S4x64x128.rank)
  reducesTo_S4x64x128_S_d0_1_2 : S4x64x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_
  bcast_S_S4 : S_.BroadcastsInDim S4 (![] : Fin 0 → Fin S4.rank)
  reducesTo_S4_S_d0 : S4.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S4x128x64 .f32) (main_arg10 : FVec F S4x64 .f32) (main_arg11 : FVec F S4 .f32) (main_arg12 : FVec F S64x1 .f32) (main_arg13 : FVec F S1 .f32) (main_v33 : IVec S_ 1) : IVec S_ 1 :=
  let main_v34 : FVec F S4x128x64 .f32 := Host.absf main_arg9
  let main_cst_12 : FVec F S_ .f32 := constant S_ .f32 0x7F800000#32
  let main_v35 : FVec F S4x128x64 .f32 := broadcastInDim S4x128x64 ![] bcast_S_S4x128x64 main_cst_12
  let main_v36 : IVec S4x128x64 1 := cmpf .olt main_v34 main_v35
  let main_c_13 : IVec S_ 1 := constantI S_ 1 1#1
  let main_v37 : IVec S_ 1 := (fun x v => Host.reduce IntOp.andi x v reducesTo_S4x128x64_S_d0_1_2 h_S_) main_v36 main_c_13
  let main_v38 : IVec S_ 1 := andi main_v33 main_v37
  let main_v39 : FVec F S4x64 .f32 := Host.absf main_arg10
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  let main_v44 : FVec F S4 .f32 := Host.absf main_arg11
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg13 main_v48 main_v49 main_v50

def fn_part1 {F : FTy → Type} [FloatOps F] (main_arg6 : FVec F S4x128 .f32) (main_arg7 : FVec F S4x128 .f32) (main_arg8 : FVec F S4x128 .f32) (main_arg9 : FVec F S4x128x64 .f32) (main_arg10 : FVec F S4x64 .f32) (main_arg11 : FVec F S4 .f32) (main_arg12 : FVec F S64x1 .f32) (main_arg13 : FVec F S1 .f32) (main_v13 : IVec S_ 1) (main_v16 : IVec S4x64x128 1) : IVec S_ 1 :=
  let main_c_5 : IVec S_ 1 := constantI S_ 1 1#1
  let main_v17 : IVec S_ 1 := (fun x v => Host.reduce IntOp.andi x v reducesTo_S4x64x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x32 .f32) (main_arg1 : IVec S2x1600000 32) (main_arg2 : IVec S100000 32) (main_arg3 : FVec F S32x64 .f32) (main_arg4 : FVec F S64 .f32) (main_arg5 : FVec F S4x64x128 .f32) (main_arg6 : FVec F S4x128 .f32) (main_arg7 : FVec F S4x128 .f32) (main_arg8 : FVec F S4x128 .f32) (main_arg9 : FVec F S4x128x64 .f32) (main_arg10 : FVec F S4x64 .f32) (main_arg11 : FVec F S4 .f32) (main_arg12 : FVec F S64x1 .f32) (main_arg13 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x64x128 .f32 := Host.absf main_arg5
  let main_cst_4 : FVec F S_ .f32 := constant S_ .f32 0x7F800000#32
  let main_v15 : FVec F S4x64x128 .f32 := broadcastInDim S4x64x128 ![] bcast_S_S4x64x128 main_cst_4
  let main_v16 : IVec S4x64x128 1 := cmpf .olt main_v14 main_v15
  fn_part1 (F := F) main_arg6 main_arg7 main_arg8 main_arg9 main_arg10 main_arg11 main_arg12 main_arg13 main_v13 main_v16
-- ==== Kernel.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S4 : Shape := ⟨1, ![4]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S5000x32 : Shape := ⟨2, ![5000, 32]⟩
abbrev S5000x64 : Shape := ⟨2, ![5000, 64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S1x1 : Shape := ⟨2, ![1, 1]⟩
abbrev S100000x128 : Shape := ⟨2, ![100000, 128]⟩
abbrev S8x128 : Shape := ⟨2, ![8, 128]⟩
abbrev S5000x128 : Shape := ⟨2, ![5000, 128]⟩
abbrev S1x128x64 : Shape := ⟨3, ![1, 128, 64]⟩
abbrev S128x64 : Shape := ⟨2, ![128, 64]⟩
abbrev S100000x1 : Shape := ⟨2, ![100000, 1]⟩
abbrev S64x64 : Shape := ⟨2, ![64, 64]⟩
abbrev S5000x1 : Shape := ⟨2, ![5000, 1]⟩

abbrev nBuf : Space → Nat
  | .hbm => 250
  | .vmem => 95
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S32x64, .f32⟩
  | 4 => ⟨S64, .f32⟩
  | 5 => ⟨S4x64x128, .f32⟩
  | 6 => ⟨S4x128, .f32⟩
  | 7 => ⟨S4x128, .f32⟩
  | 8 => ⟨S4x128, .f32⟩
  | 9 => ⟨S4x128x64, .f32⟩
  | 10 => ⟨S4x64, .f32⟩
  | 11 => ⟨S4, .f32⟩
  | 12 => ⟨S64x1, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S100000x64, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S_, .f32⟩
  | 29 => ⟨S1600000x64, .f32⟩
  | 30 => ⟨S1600000x64, .f32⟩
  | 31 => ⟨S_, .f32⟩
  | 32 => ⟨S100000x64, .f32⟩
  | 33 => ⟨S1600000x1, .i32⟩
  | 34 => ⟨S100000x64, .f32⟩
  | 35 => ⟨S1, .f32⟩
  | 36 => ⟨S_, .f32⟩
  | 37 => ⟨S_, .f32⟩
  | 38 => ⟨S_, .f32⟩
  | 39 => ⟨S1x64x128, .f32⟩
  | 40 => ⟨S64x128, .f32⟩
  | 41 => ⟨S1x128, .f32⟩
  | 42 => ⟨S128, .f32⟩
  | 43 => ⟨S1x1, .f32⟩
  | 44 => ⟨S100000x128, .f32⟩
  | 45 => ⟨S8x128, .f32⟩
  | 46 => ⟨S8x128, .f32⟩
  | 47 => ⟨S1x128, .f32⟩
  | 48 => ⟨S128, .f32⟩
  | 49 => ⟨S_, .f32⟩
  | 50 => ⟨S128, .f32⟩
  | 51 => ⟨S128, .f32⟩
  | 52 => ⟨S1x128, .f32⟩
  | 53 => ⟨S128, .f32⟩
  | 54 => ⟨S_, .f32⟩
  | 55 => ⟨S128, .f32⟩
  | 56 => ⟨S128, .f32⟩
  | 57 => ⟨S128, .f32⟩
  | 58 => ⟨S128, .f32⟩
  | 59 => ⟨S_, .f32⟩
  | 60 => ⟨S128, .f32⟩
  | 61 => ⟨S128, .f32⟩
  | 62 => ⟨S128, .f32⟩
  | 63 => ⟨S1x128, .f32⟩
  | 64 => ⟨S128, .f32⟩
  | 65 => ⟨S128, .f32⟩
  | 66 => ⟨S1x128, .f32⟩
  | 67 => ⟨S128, .f32⟩
  | 68 => ⟨S128, .f32⟩
  | 69 => ⟨S128, .f32⟩
  | 70 => ⟨S1x128x64, .f32⟩
  | 71 => ⟨S128x64, .f32⟩
  | 72 => ⟨S1x64, .f32⟩
  | 73 => ⟨S64, .f32⟩
  | 74 => ⟨S100000x64, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x64, .f32⟩
  | 84 => ⟨S_, .f32⟩
  | 85 => ⟨S1600000x64, .f32⟩
  | 86 => ⟨S1600000x64, .f32⟩
  | 87 => ⟨S_, .f32⟩
  | 88 => ⟨S100000x64, .f32⟩
  | 89 => ⟨S1600000x1, .i32⟩
  | 90 => ⟨S100000x64, .f32⟩
  | 91 => ⟨S1, .f32⟩
  | 92 => ⟨S_, .f32⟩
  | 93 => ⟨S_, .f32⟩
  | 94 => ⟨S_, .f32⟩
  | 95 => ⟨S1x64x128, .f32⟩
  | 96 => ⟨S64x128, .f32⟩
  | 97 => ⟨S1x128, .f32⟩
  | 98 => ⟨S128, .f32⟩
  | 99 => ⟨S1x1, .f32⟩
  | 100 => ⟨S100000x128, .f32⟩
  | 101 => ⟨S8x128, .f32⟩
  | 102 => ⟨S8x128, .f32⟩
  | 103 => ⟨S1x128, .f32⟩
  | 104 => ⟨S128, .f32⟩
  | 105 => ⟨S_, .f32⟩
  | 106 => ⟨S128, .f32⟩
  | 107 => ⟨S128, .f32⟩
  | 108 => ⟨S1x128, .f32⟩
  | 109 => ⟨S128, .f32⟩
  | 110 => ⟨S_, .f32⟩
  | 111 => ⟨S128, .f32⟩
  | 112 => ⟨S128, .f32⟩
  | 113 => ⟨S128, .f32⟩
  | 114 => ⟨S128, .f32⟩
  | 115 => ⟨S_, .f32⟩
  | 116 => ⟨S128, .f32⟩
  | 117 => ⟨S128, .f32⟩
  | 118 => ⟨S128, .f32⟩
  | 119 => ⟨S1x128, .f32⟩
  | 120 => ⟨S128, .f32⟩
  | 121 => ⟨S128, .f32⟩
  | 122 => ⟨S1x128, .f32⟩
  | 123 => ⟨S128, .f32⟩
  | 124 => ⟨S128, .f32⟩
  | 125 => ⟨S128, .f32⟩
  | 126 => ⟨S1x128x64, .f32⟩
  | 127 => ⟨S128x64, .f32⟩
  | _ => ⟨S100000x32, .f32⟩

abbrev hbmTy0_1 (i : Nat) : BufTy := match i % 128 with
  | 0 => ⟨S1x64, .f32⟩
  | 1 => ⟨S64, .f32⟩
  | 2 => ⟨S100000x64, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x64, .f32⟩
  | 12 => ⟨S_, .f32⟩
  | 13 => ⟨S1600000x64, .f32⟩
  | 14 => ⟨S1600000x64, .f32⟩
  | 15 => ⟨S_, .f32⟩
  | 16 => ⟨S100000x64, .f32⟩
  | 17 => ⟨S1600000x1, .i32⟩
  | 18 => ⟨S100000x64, .f32⟩
  | 19 => ⟨S1, .f32⟩
  | 20 => ⟨S_, .f32⟩
  | 21 => ⟨S_, .f32⟩
  | 22 => ⟨S_, .f32⟩
  | 23 => ⟨S1x64x128, .f32⟩
  | 24 => ⟨S64x128, .f32⟩
  | 25 => ⟨S1x128, .f32⟩
  | 26 => ⟨S128, .f32⟩
  | 27 => ⟨S1x1, .f32⟩
  | 28 => ⟨S100000x128, .f32⟩
  | 29 => ⟨S8x128, .f32⟩
  | 30 => ⟨S8x128, .f32⟩
  | 31 => ⟨S1x128, .f32⟩
  | 32 => ⟨S128, .f32⟩
  | 33 => ⟨S_, .f32⟩
  | 34 => ⟨S128, .f32⟩
  | 35 => ⟨S128, .f32⟩
  | 36 => ⟨S1x128, .f32⟩
  | 37 => ⟨S128, .f32⟩
  | 38 => ⟨S_, .f32⟩
  | 39 => ⟨S128, .f32⟩
  | 40 => ⟨S128, .f32⟩
  | 41 => ⟨S128, .f32⟩
  | 42 => ⟨S128, .f32⟩
  | 43 => ⟨S_, .f32⟩
  | 44 => ⟨S128, .f32⟩
  | 45 => ⟨S128, .f32⟩
  | 46 => ⟨S128, .f32⟩
  | 47 => ⟨S1x128, .f32⟩
  | 48 => ⟨S128, .f32⟩
  | 49 => ⟨S128, .f32⟩
  | 50 => ⟨S1x128, .f32⟩
  | 51 => ⟨S128, .f32⟩
  | 52 => ⟨S128, .f32⟩
  | 53 => ⟨S128, .f32⟩
  | 54 => ⟨S1x128x64, .f32⟩
  | 55 => ⟨S128x64, .f32⟩
  | 56 => ⟨S1x64, .f32⟩
  | 57 => ⟨S64, .f32⟩
  | 58 => ⟨S100000x64, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x64, .f32⟩
  | 68 => ⟨S_, .f32⟩
  | 69 => ⟨S1600000x64, .f32⟩
  | 70 => ⟨S1600000x64, .f32⟩
  | 71 => ⟨S_, .f32⟩
  | 72 => ⟨S100000x64, .f32⟩
  | 73 => ⟨S1600000x1, .i32⟩
  | 74 => ⟨S100000x64, .f32⟩
  | 75 => ⟨S1, .f32⟩
  | 76 => ⟨S_, .f32⟩
  | 77 => ⟨S_, .f32⟩
  | 78 => ⟨S_, .f32⟩
  | 79 => ⟨S1x64x128, .f32⟩
  | 80 => ⟨S64x128, .f32⟩
  | 81 => ⟨S1x128, .f32⟩
  | 82 => ⟨S128, .f32⟩
  | 83 => ⟨S1x1, .f32⟩
  | 84 => ⟨S100000x128, .f32⟩
  | 85 => ⟨S8x128, .f32⟩
  | 86 => ⟨S8x128, .f32⟩
  | 87 => ⟨S1x128, .f32⟩
  | 88 => ⟨S128, .f32⟩
  | 89 => ⟨S_, .f32⟩
  | 90 => ⟨S128, .f32⟩
  | 91 => ⟨S128, .f32⟩
  | 92 => ⟨S1x128, .f32⟩
  | 93 => ⟨S128, .f32⟩
  | 94 => ⟨S_, .f32⟩
  | 95 => ⟨S128, .f32⟩
  | 96 => ⟨S128, .f32⟩
  | 97 => ⟨S128, .f32⟩
  | 98 => ⟨S128, .f32⟩
  | 99 => ⟨S_, .f32⟩
  | 100 => ⟨S128, .f32⟩
  | 101 => ⟨S128, .f32⟩
  | 102 => ⟨S128, .f32⟩
  | 103 => ⟨S1x128, .f32⟩
  | 104 => ⟨S128, .f32⟩
  | 105 => ⟨S128, .f32⟩
  | 106 => ⟨S1x128, .f32⟩
  | 107 => ⟨S128, .f32⟩
  | 108 => ⟨S128, .f32⟩
  | 109 => ⟨S128, .f32⟩
  | 110 => ⟨S1x128x64, .f32⟩
  | 111 => ⟨S128x64, .f32⟩
  | 112 => ⟨S1x64, .f32⟩
  | 113 => ⟨S64, .f32⟩
  | 114 => ⟨S100000x64, .f32⟩
  | 115 => ⟨S100000x1, .i32⟩
  | 116 => ⟨S64x64, .f32⟩
  | 117 => ⟨S64x1, .f32⟩
  | 118 => ⟨S1x1, .f32⟩
  | 119 => ⟨S64x1, .f32⟩
  | 120 => ⟨S64x1, .f32⟩
  | 121 => ⟨S64, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S1x1, .f32⟩
  | .local _ .vmem, ⟨11, _⟩ => ⟨S64x128, .f32⟩
  | .local _ .vmem, ⟨12, _⟩ => ⟨S128, .f32⟩
  | .local _ .vmem, ⟨13, _⟩ => ⟨S5000x128, .f32⟩
  | .local _ .vmem, ⟨14, _⟩ => ⟨S5000x128, .f32⟩
  | .local _ .vmem, ⟨15, _⟩ => ⟨S8x128, .f32⟩
  | .local _ .vmem, ⟨16, _⟩ => ⟨S8x128, .f32⟩
  | .local _ .vmem, ⟨17, _⟩ => ⟨S5000x128, .f32⟩
  | .local _ .vmem, ⟨18, _⟩ => ⟨S5000x128, .f32⟩
  | .local _ .vmem, ⟨19, _⟩ => ⟨S128, .f32⟩
  | .local _ .vmem, ⟨20, _⟩ => ⟨S128, .f32⟩
  | .local _ .vmem, ⟨21, _⟩ => ⟨S128x64, .f32⟩
  | .local _ .vmem, ⟨22, _⟩ => ⟨S64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S1x1, .f32⟩
  | .local _ .vmem, ⟨32, _⟩ => ⟨S64x128, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S8x128, .f32⟩
  | .local _ .vmem, ⟨37, _⟩ => ⟨S8x128, .f32⟩
  | .local _ .vmem, ⟨38, _⟩ => ⟨S5000x128, .f32⟩
  | .local _ .vmem, ⟨39, _⟩ => ⟨S5000x128, .f32⟩
  | .local _ .vmem, ⟨40, _⟩ => ⟨S128, .f32⟩
  | .local _ .vmem, ⟨41, _⟩ => ⟨S128, .f32⟩
  | .local _ .vmem, ⟨42, _⟩ => ⟨S128x64, .f32⟩
  | .local _ .vmem, ⟨43, _⟩ => ⟨S64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S1x1, .f32⟩
  | .local _ .vmem, ⟨53, _⟩ => ⟨S64x128, .f32⟩
  | .local _ .vmem, ⟨54, _⟩ => ⟨S128, .f32⟩
  | .local _ .vmem, ⟨55, _⟩ => ⟨S5000x128, .f32⟩
  | .local _ .vmem, ⟨56, _⟩ => ⟨S5000x128, .f32⟩
  | .local _ .vmem, ⟨57, _⟩ => ⟨S8x128, .f32⟩
  | .local _ .vmem, ⟨58, _⟩ => ⟨S8x128, .f32⟩
  | .local _ .vmem, ⟨59, _⟩ => ⟨S5000x128, .f32⟩
  | .local _ .vmem, ⟨60, _⟩ => ⟨S5000x128, .f32⟩
  | .local _ .vmem, ⟨61, _⟩ => ⟨S128, .f32⟩
  | .local _ .vmem, ⟨62, _⟩ => ⟨S128, .f32⟩
  | .local _ .vmem, ⟨63, _⟩ => ⟨S128x64, .f32⟩
  | .local _ .vmem, ⟨64, _⟩ => ⟨S64, .f32⟩
  | .local _ .vmem, ⟨65, _⟩ => ⟨S5000x64, .f32⟩
  | .local _ .vmem, ⟨66, _⟩ => ⟨S5000x64, .f32⟩
  | .local _ .vmem, ⟨67, _⟩ => ⟨S5000x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S1x1, .f32⟩
  | .local _ .vmem, ⟨74, _⟩ => ⟨S64x128, .f32⟩
  | .local _ .vmem, ⟨75, _⟩ => ⟨S128, .f32⟩
  | .local _ .vmem, ⟨76, _⟩ => ⟨S5000x128, .f32⟩
  | .local _ .vmem, ⟨77, _⟩ => ⟨S5000x128, .f32⟩
  | .local _ .vmem, ⟨78, _⟩ => ⟨S8x128, .f32⟩
  | .local _ .vmem, ⟨79, _⟩ => ⟨S8x128, .f32⟩
  | .local _ .vmem, ⟨80, _⟩ => ⟨S5000x128, .f32⟩
  | .local _ .vmem, ⟨81, _⟩ => ⟨S5000x128, .f32⟩
  | .local _ .vmem, ⟨82, _⟩ => ⟨S128, .f32⟩
  | .local _ .vmem, ⟨83, _⟩ => ⟨S128, .f32⟩
  | .local _ .vmem, ⟨84, _⟩ => ⟨S128x64, .f32⟩
  | .local _ .vmem, ⟨85, _⟩ => ⟨S64, .f32⟩
  | .local _ .vmem, ⟨86, _⟩ => ⟨S5000x64, .f32⟩
  | .local _ .vmem, ⟨87, _⟩ => ⟨S5000x64, .f32⟩
  | .local _ .vmem, ⟨88, _⟩ => ⟨S5000x64, .f32⟩
  | .local _ .vmem, ⟨89, _⟩ => ⟨S5000x64, .f32⟩
  | .local _ .vmem, ⟨90, _⟩ => ⟨S5000x64, .f32⟩
  | .local _ .vmem, ⟨91, _⟩ => ⟨S5000x64, .f32⟩
  | .local _ .vmem, ⟨92, _⟩ => ⟨S5000x1, .i32⟩
  | .local _ .vmem, ⟨93, _⟩ => ⟨S5000x1, .i32⟩
  | .local _ .vmem, ⟨94, _⟩ => ⟨S64x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | _, _ => false

abbrev semScoped : Fin 0 → Bool
  | ⟨_, h⟩ => absurd h (Nat.not_lt_zero _)

abbrev dmaSemScoped : Fin 95 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | _ => false

abbrev sig : RefSig :=
  ofTc nBuf bufTy 0 95 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call0_cst : Ref sig .tc := ⟨.hbm, 28, rfl⟩
abbrev main_call0_v0 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_v24_2 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_5 : Ref sig .tc := ⟨.hbm, 75, rfl⟩
abbrev main_v50 : Ref sig .tc := ⟨.hbm, 76, rfl⟩
abbrev main_v51 : Ref sig .tc := ⟨.hbm, 77, rfl⟩
abbrev main_c_6 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_cst : Ref sig .tc := ⟨.hbm, 84, rfl⟩
abbrev main_call1_v0 : Ref sig .tc := ⟨.hbm, 85, rfl⟩
abbrev main_v57 : Ref sig .tc := ⟨.hbm, 86, rfl⟩
abbrev main_cst_7 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_8 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69_0 : Ref sig .tc := ⟨.hbm, 100, rfl⟩
abbrev main_v69_1 : Ref sig .tc := ⟨.hbm, 101, rfl⟩
abbrev main_v69_2 : Ref sig .tc := ⟨.hbm, 102, rfl⟩
abbrev main_v70 : Ref sig .tc := ⟨.hbm, 103, rfl⟩
abbrev main_v71 : Ref sig .tc := ⟨.hbm, 104, rfl⟩
abbrev main_cst_9 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_10 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_11 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_12 : Ref sig .tc := ⟨.hbm, 131, rfl⟩
abbrev main_v95 : Ref sig .tc := ⟨.hbm, 132, rfl⟩
abbrev main_v96 : Ref sig .tc := ⟨.hbm, 133, rfl⟩
abbrev main_c_13 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_call2_cst : Ref sig .tc := ⟨.hbm, 140, rfl⟩
abbrev main_call2_v0 : Ref sig .tc := ⟨.hbm, 141, rfl⟩
abbrev main_v102 : Ref sig .tc := ⟨.hbm, 142, rfl⟩
abbrev main_cst_14 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_15 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114_0 : Ref sig .tc := ⟨.hbm, 156, rfl⟩
abbrev main_v114_1 : Ref sig .tc := ⟨.hbm, 157, rfl⟩
abbrev main_v114_2 : Ref sig .tc := ⟨.hbm, 158, rfl⟩
abbrev main_v115 : Ref sig .tc := ⟨.hbm, 159, rfl⟩
abbrev main_v116 : Ref sig .tc := ⟨.hbm, 160, rfl⟩
abbrev main_cst_16 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_17 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_18 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_c_19 : Ref sig .tc := ⟨.hbm, 187, rfl⟩
abbrev main_v140 : Ref sig .tc := ⟨.hbm, 188, rfl⟩
abbrev main_v141 : Ref sig .tc := ⟨.hbm, 189, rfl⟩
abbrev main_c_20 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_call3_cst : Ref sig .tc := ⟨.hbm, 196, rfl⟩
abbrev main_call3_v0 : Ref sig .tc := ⟨.hbm, 197, rfl⟩
abbrev main_v147 : Ref sig .tc := ⟨.hbm, 198, rfl⟩
abbrev main_cst_21 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_cst_22 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159_0 : Ref sig .tc := ⟨.hbm, 212, rfl⟩
abbrev main_v159_1 : Ref sig .tc := ⟨.hbm, 213, rfl⟩
abbrev main_v159_2 : Ref sig .tc := ⟨.hbm, 214, rfl⟩
abbrev main_v160 : Ref sig .tc := ⟨.hbm, 215, rfl⟩
abbrev main_v161 : Ref sig .tc := ⟨.hbm, 216, rfl⟩
abbrev main_cst_23 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_cst_24 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_cst_25 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg7_0 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg5_1 : Ref sig .tc := ⟨.vmem, 45, rfl⟩
abbrev cc4_stg6_0 : Ref sig .tc := ⟨.vmem, 46, rfl⟩
abbrev cc4_stg6_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg5_1 : Ref sig .tc := ⟨.vmem, 56, rfl⟩
abbrev cc5_stg6_0 : Ref sig .tc := ⟨.vmem, 57, rfl⟩
abbrev cc5_stg7_0 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg5_0 : Ref sig .tc := ⟨.vmem, 65, rfl⟩
abbrev cc6_stg5_1 : Ref sig .tc := ⟨.vmem, 66, rfl⟩
abbrev cc6_stg6_0 : Ref sig .tc := ⟨.vmem, 67, rfl⟩
abbrev cc6_stg6_1 : Ref sig .tc := ⟨.vmem, 68, rfl⟩
abbrev cc7_stg0_0 : Ref sig .tc := ⟨.vmem, 69, rfl⟩
abbrev cc7_stg0_1 : Ref sig .tc := ⟨.vmem, 70, rfl⟩
abbrev cc7_stg1_0 : Ref sig .tc := ⟨.vmem, 71, rfl⟩
abbrev cc7_stg1_1 : Ref sig .tc := ⟨.vmem, 72, rfl⟩
abbrev cc7_stg2_0 : Ref sig .tc := ⟨.vmem, 73, rfl⟩
abbrev cc7_stg3_0 : Ref sig .tc := ⟨.vmem, 74, rfl⟩
abbrev cc7_stg4_0 : Ref sig .tc := ⟨.vmem, 75, rfl⟩
abbrev cc7_stg5_0 : Ref sig .tc := ⟨.vmem, 76, rfl⟩
abbrev cc7_stg5_1 : Ref sig .tc := ⟨.vmem, 77, rfl⟩
abbrev cc7_stg6_0 : Ref sig .tc := ⟨.vmem, 78, rfl⟩
abbrev cc7_stg7_0 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg2_0 : Ref sig .tc := ⟨.vmem, 83, rfl⟩
abbrev cc8_stg3_0 : Ref sig .tc := ⟨.vmem, 84, rfl⟩
abbrev cc8_stg4_0 : Ref sig .tc := ⟨.vmem, 85, rfl⟩
abbrev cc8_stg5_0 : Ref sig .tc := ⟨.vmem, 86, rfl⟩
abbrev cc8_stg5_1 : Ref sig .tc := ⟨.vmem, 87, rfl⟩
abbrev cc8_stg6_0 : Ref sig .tc := ⟨.vmem, 88, rfl⟩
abbrev cc8_stg6_1 : Ref sig .tc := ⟨.vmem, 89, rfl⟩
abbrev cc9_stg0_0 : Ref sig .tc := ⟨.vmem, 90, rfl⟩
abbrev cc9_stg0_1 : Ref sig .tc := ⟨.vmem, 91, rfl⟩
abbrev cc9_stg1_0 : Ref sig .tc := ⟨.vmem, 92, rfl⟩
abbrev cc9_stg1_1 : Ref sig .tc := ⟨.vmem, 93, rfl⟩
abbrev cc9_stg2_0 : Ref sig .tc := ⟨.vmem, 94, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem7_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc3_sem6_0 : DmaSem sig := 36
abbrev cc3_sem7_0 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem5_1 : DmaSem sig := 45
abbrev cc4_sem6_0 : DmaSem sig := 46
abbrev cc4_sem6_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc5_sem6_0 : DmaSem sig := 57
abbrev cc5_sem7_0 : DmaSem sig := 58
abbrev cc6_sem0_0 : DmaSem sig := 59
abbrev cc6_sem0_1 : DmaSem sig := 60
abbrev cc6_sem1_0 : DmaSem sig := 61
abbrev cc6_sem2_0 : DmaSem sig := 62
abbrev cc6_sem3_0 : DmaSem sig := 63
abbrev cc6_sem4_0 : DmaSem sig := 64
abbrev cc6_sem5_0 : DmaSem sig := 65
abbrev cc6_sem5_1 : DmaSem sig := 66
abbrev cc6_sem6_0 : DmaSem sig := 67
abbrev cc6_sem6_1 : DmaSem sig := 68
abbrev cc7_sem0_0 : DmaSem sig := 69
abbrev cc7_sem0_1 : DmaSem sig := 70
abbrev cc7_sem1_0 : DmaSem sig := 71
abbrev cc7_sem1_1 : DmaSem sig := 72
abbrev cc7_sem2_0 : DmaSem sig := 73
abbrev cc7_sem3_0 : DmaSem sig := 74
abbrev cc7_sem4_0 : DmaSem sig := 75
abbrev cc7_sem5_0 : DmaSem sig := 76
abbrev cc7_sem5_1 : DmaSem sig := 77
abbrev cc7_sem6_0 : DmaSem sig := 78
abbrev cc7_sem7_0 : DmaSem sig := 79
abbrev cc8_sem0_0 : DmaSem sig := 80
abbrev cc8_sem0_1 : DmaSem sig := 81
abbrev cc8_sem1_0 : DmaSem sig := 82
abbrev cc8_sem2_0 : DmaSem sig := 83
abbrev cc8_sem3_0 : DmaSem sig := 84
abbrev cc8_sem4_0 : DmaSem sig := 85
abbrev cc8_sem5_0 : DmaSem sig := 86
abbrev cc8_sem5_1 : DmaSem sig := 87
abbrev cc8_sem6_0 : DmaSem sig := 88
abbrev cc8_sem6_1 : DmaSem sig := 89
abbrev cc9_sem0_0 : DmaSem sig := 90
abbrev cc9_sem0_1 : DmaSem sig := 91
abbrev cc9_sem1_0 : DmaSem sig := 92
abbrev cc9_sem1_1 : DmaSem sig := 93
abbrev cc9_sem2_0 : DmaSem sig := 94

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S8x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S8x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S8x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S8x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S8x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S8x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S5000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S100000x64 : S_.BroadcastsInDim S100000x64 (![] : Fin 0 → Fin S100000x64.rank)
  slices_S4_S1_0 : S4.Slices ![0] S1
  shapeCasts_S1_S_ : S1.ShapeCasts S_
  slices_S4x64x128_S1x64x128_0_0_0 : S4x64x128.Slices ![0, 0, 0] S1x64x128
  shapeCasts_S1x64x128_S64x128 : S1x64x128.ShapeCasts S64x128
  slices_S4x128_S1x128_0_0 : S4x128.Slices ![0, 0] S1x128
  shapeCasts_S1x128_S128 : S1x128.ShapeCasts S128
  shapeCasts_S_S1x1 : S_.ShapeCasts S1x1
  inb_S8x128_S8x128_0_0 : ∀ a, (![0, 0] : Fin 2 → Nat) a + S8x128.size a ≤ S8x128.size a
  h_S8x128 : 0 < S8x128.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  slices_S8x128_S1x128_0_0 : S8x128.Slices ![0, 0] S1x128
  bcast_S_S128 : S_.BroadcastsInDim S128 (![] : Fin 0 → Fin S128.rank)
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S64_S64 : S64.ShapeCasts S64
  slices_S4_S1_1 : S4.Slices ![1] S1
  slices_S4x64x128_S1x64x128_1_0_0 : S4x64x128.Slices ![1, 0, 0] S1x64x128
  slices_S4x128_S1x128_1_0 : S4x128.Slices ![1, 0] S1x128
  slices_S4x128x64_S1x128x64_1_0_0 : S4x128x64.Slices ![1, 0, 0] S1x128x64
  slices_S4x64_S1x64_1_0 : S4x64.Slices ![1, 0] S1x64
  slices_S4_S1_2 : S4.Slices ![2] S1
  slices_S4x64x128_S1x64x128_2_0_0 : S4x64x128.Slices ![2, 0, 0] S1x64x128
  slices_S4x128_S1x128_2_0 : S4x128.Slices ![2, 0] S1x128
  slices_S4x128x64_S1x128x64_2_0_0 : S4x128x64.Slices ![2, 0, 0] S1x128x64
  slices_S4x64_S1x64_2_0 : S4x64.Slices ![2, 0] S1x64
  slices_S4_S1_3 : S4.Slices ![3] S1
  slices_S4x64x128_S1x64x128_3_0_0 : S4x64x128.Slices ![3, 0, 0] S1x64x128
  slices_S4x128_S1x128_3_0 : S4x128.Slices ![3, 0] S1x128
  slices_S4x128x64_S1x128x64_3_0_0 : S4x128x64.Slices ![3, 0, 0] S1x128x64
  slices_S4x64_S1x64_3_0 : S4x64.Slices ![3, 0] S1x64
  shapeCasts_S100000_S100000x1 : S100000.ShapeCasts S100000x1
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  shapeCasts_S64x64_S64x64 : S64x64.ShapeCasts S64x64
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  dot_S5000x64_S5000x64_S64x64_0_0_1_1_n_n_wf : DotDims.WF S5000x64 S5000x64 S64x64 [0] [0] [1] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S8x128.size a
  hwx1_6 : ∀ i : grid1.Coords, EltTy.bits .f32 = 32 ∨ (Rect.block (s := S8x128) S8x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8x128.size a ≤ S8x128.size a
  hwx1_7 : ∀ i : grid1.Coords, EltTy.bits .f32 = 32 ∨ (Rect.block (s := S8x128) S8x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S8x128.size a ≤ S8x128.size a
  hwx3_6 : ∀ i : grid3.Coords, EltTy.bits .f32 = 32 ∨ (Rect.block (s := S8x128) S8x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S8x128.size a ≤ S8x128.size a
  hwx3_7 : ∀ i : grid3.Coords, EltTy.bits .f32 = 32 ∨ (Rect.block (s := S8x128) S8x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S100000x64.size a
  hwx4_6 : ∀ i : grid4.Coords, EltTy.bits .f32 = 32 ∨ (Rect.block (s := S100000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x128.size a ≤ S64x128.size a
  hwx5_3 : ∀ i : grid5.Coords, EltTy.bits .f32 = 32 ∨ (Rect.block (s := S64x128) S64x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S8x128.size a ≤ S8x128.size a
  hwx5_6 : ∀ i : grid5.Coords, EltTy.bits .f32 = 32 ∨ (Rect.block (s := S8x128) S8x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S8x128.size a ≤ S8x128.size a
  hwx5_7 : ∀ i : grid5.Coords, EltTy.bits .f32 = 32 ∨ (Rect.block (s := S8x128) S8x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128.size a ≤ S128.size a
  hwx6_1 : ∀ i : grid6.Coords, EltTy.bits .f32 = 32 ∨ (Rect.block (s := S128) S128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64.size a ≤ S64.size a
  hwx6_4 : ∀ i : grid6.Coords, EltTy.bits .f32 = 32 ∨ (Rect.block (s := S64) S64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S100000x64.size a
  hwx6_5 : ∀ i : grid6.Coords, EltTy.bits .f32 = 32 ∨ (Rect.block (s := S100000x64) S5000x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S100000x64.size a
  hwx6_6 : ∀ i : grid6.Coords, EltTy.bits .f32 = 32 ∨ (Rect.block (s := S100000x64) S5000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x128.size a ≤ S64x128.size a
  hwx7_3 : ∀ i : grid7.Coords, EltTy.bits .f32 = 32 ∨ (Rect.block (s := S64x128) S64x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128.size a ≤ S128.size a
  hwx7_4 : ∀ i : grid7.Coords, EltTy.bits .f32 = 32 ∨ (Rect.block (s := S128) S128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S8x128.size a ≤ S8x128.size a
  hwx7_6 : ∀ i : grid7.Coords, EltTy.bits .f32 = 32 ∨ (Rect.block (s := S8x128) S8x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S8x128.size a ≤ S8x128.size a
  hwx7_7 : ∀ i : grid7.Coords, EltTy.bits .f32 = 32 ∨ (Rect.block (s := S8x128) S8x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128.size a ≤ S128.size a
  hwx8_1 : ∀ i : grid8.Coords, EltTy.bits .f32 = 32 ∨ (Rect.block (s := S128) S128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128.size a ≤ S128.size a
  hwx8_2 : ∀ i : grid8.Coords, EltTy.bits .f32 = 32 ∨ (Rect.block (s := S128) S128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x64.size a ≤ S128x64.size a
  hwx8_3 : ∀ i : grid8.Coords, EltTy.bits .f32 = 32 ∨ (Rect.block (s := S128x64) S128x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64.size a ≤ S64.size a
  hwx8_4 : ∀ i : grid8.Coords, EltTy.bits .f32 = 32 ∨ (Rect.block (s := S64) S64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S100000x64.size a
  hwx8_5 : ∀ i : grid8.Coords, EltTy.bits .f32 = 32 ∨ (Rect.block (s := S100000x64) S5000x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x64.size a ≤ S100000x64.size a
  hwx8_6 : ∀ i : grid8.Coords, EltTy.bits .f32 = 32 ∨ (Rect.block (s := S100000x64) S5000x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S100000x1.size a
  hwx9_1 : ∀ i : grid9.Coords, EltTy.bits .i32 = 32 ∨ (Rect.block (s := S100000x1) S5000x1.size (cc9_transform_1 i) (hinb9_1 i)).WholeWords (EltTy.packing .i32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x64.size a ≤ S64x64.size a
  hwx9_2 : ∀ i : grid9.Coords, EltTy.bits .f32 = 32 ∨ (Rect.block (s := S64x64) S64x64.size (cc9_transform_2 i) (hinb9_2 i)).WholeWords (EltTy.packing .f32)

variable [Facts₀]

def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v24_1) S8x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24_2) S8x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v24_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S5000x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v49) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v49) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69_0) S5000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v69_1) S8x128.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v69_2) S8x128.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v69_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v89) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v91) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v93) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v49) S5000x64.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v94) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v94) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v105) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v113) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v110) S64x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v112) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v114_0) S5000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v114_1) S8x128.size cc5_transform_6 reads5_6 true true 1 stage5_6 sem5_6
    hrank5 hreads5_6 hinb5_6 nbuf5_6 (Memref.isWhole_whole _) hwx5_6 hstage5_6

abbrev win5_7 : Pipeline.Window sig grid5 :=
  Pipeline.Window.ofSpec (Memref.whole main_v114_2) S8x128.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v114_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v130) S128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v134) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v136) S128x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v138) S64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v94) S5000x64.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v139) S5000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v139) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v150) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v158) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v155) S64x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v157) S128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v159_0) S5000x128.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v159_1) S8x128.size cc7_transform_6 reads7_6 true true 1 stage7_6 sem7_6
    hrank7 hreads7_6 hinb7_6 nbuf7_6 (Memref.isWhole_whole _) hwx7_6 hstage7_6

abbrev win7_7 : Pipeline.Window sig grid7 :=
  Pipeline.Window.ofSpec (Memref.whole main_v159_2) S8x128.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v159_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v175) S128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v179) S128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v181) S128x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v183) S64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v139) S5000x64.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v184) S5000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v184) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v185) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v186) S64x64.size cc9_transform_2 reads9_2 true true 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S4 : Shape := ⟨1, ![4]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S64x64 : Shape := ⟨2, ![64, 64]⟩
abbrev S100000x1 : Shape := ⟨2, ![100000, 1]⟩
abbrev S1x1 : Shape := ⟨2, ![1, 1]⟩

abbrev nBuf : Space → Nat
  | .hbm => 339
  | .vmem => 0
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S32x64, .f32⟩
  | 4 => ⟨S64, .f32⟩
  | 5 => ⟨S4x64x128, .f32⟩
  | 6 => ⟨S4x128, .f32⟩
  | 7 => ⟨S4x128, .f32⟩
  | 8 => ⟨S4x128, .f32⟩
  | 9 => ⟨S4x128x64, .f32⟩
  | 10 => ⟨S4x64, .f32⟩
  | 11 => ⟨S4, .f32⟩
  | 12 => ⟨S64x1, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S100000x64, .f32⟩
  | 19 => ⟨S1x64, .f32⟩
  | 20 => ⟨S100000x64, .f32⟩
  | 21 => ⟨S100000x64, .f32⟩
  | 22 => ⟨S1x64x128, .f32⟩
  | 23 => ⟨S64x128, .f32⟩
  | 24 => ⟨S1x128, .f32⟩
  | 25 => ⟨S128, .f32⟩
  | 26 => ⟨S1x128, .f32⟩
  | 27 => ⟨S128, .f32⟩
  | 28 => ⟨S1x128, .f32⟩
  | 29 => ⟨S128, .f32⟩
  | 30 => ⟨S1x128x64, .f32⟩
  | 31 => ⟨S128x64, .f32⟩
  | 32 => ⟨S1x64, .f32⟩
  | 33 => ⟨S64, .f32⟩
  | 34 => ⟨S1, .f32⟩
  | 35 => ⟨S_, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S_, .f32⟩
  | 46 => ⟨S1600000x64, .f32⟩
  | 47 => ⟨S1600000x64, .f32⟩
  | 48 => ⟨S_, .f32⟩
  | 49 => ⟨S100000x64, .f32⟩
  | 50 => ⟨S1600000x1, .i32⟩
  | 51 => ⟨S100000x64, .f32⟩
  | 52 => ⟨S_, .f32⟩
  | 53 => ⟨S_, .f32⟩
  | 54 => ⟨S100000x64, .f32⟩
  | 55 => ⟨S100000x64, .f32⟩
  | 56 => ⟨S100000x64, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S128, .f32⟩
  | 63 => ⟨S_, .f32⟩
  | 64 => ⟨S128, .f32⟩
  | 65 => ⟨S128, .f32⟩
  | 66 => ⟨S1x128, .f32⟩
  | 67 => ⟨S100000x128, .f32⟩
  | 68 => ⟨S100000x128, .f32⟩
  | 69 => ⟨S100000x128, .f32⟩
  | 70 => ⟨S_, .f32⟩
  | 71 => ⟨S128, .f32⟩
  | 72 => ⟨S_, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S_, .f32⟩
  | 79 => ⟨S128, .f32⟩
  | 80 => ⟨S128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x64, .f32⟩
  | 95 => ⟨S1x64, .f32⟩
  | 96 => ⟨S100000x64, .f32⟩
  | 97 => ⟨S100000x64, .f32⟩
  | 98 => ⟨S100000x64, .f32⟩
  | 99 => ⟨S1x64x128, .f32⟩
  | 100 => ⟨S64x128, .f32⟩
  | 101 => ⟨S1x128, .f32⟩
  | 102 => ⟨S128, .f32⟩
  | 103 => ⟨S1x128, .f32⟩
  | 104 => ⟨S128, .f32⟩
  | 105 => ⟨S1x128, .f32⟩
  | 106 => ⟨S128, .f32⟩
  | 107 => ⟨S1x128x64, .f32⟩
  | 108 => ⟨S128x64, .f32⟩
  | 109 => ⟨S1x64, .f32⟩
  | 110 => ⟨S64, .f32⟩
  | 111 => ⟨S1, .f32⟩
  | 112 => ⟨S_, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x64, .f32⟩
  | 122 => ⟨S_, .f32⟩
  | 123 => ⟨S1600000x64, .f32⟩
  | 124 => ⟨S1600000x64, .f32⟩
  | 125 => ⟨S_, .f32⟩
  | 126 => ⟨S100000x64, .f32⟩
  | 127 => ⟨S1600000x1, .i32⟩
  | _ => ⟨S100000x32, .f32⟩

abbrev hbmTy0_1 (i : Nat) : BufTy := match i % 128 with
  | 0 => ⟨S100000x64, .f32⟩
  | 1 => ⟨S_, .f32⟩
  | 2 => ⟨S_, .f32⟩
  | 3 => ⟨S100000x64, .f32⟩
  | 4 => ⟨S100000x64, .f32⟩
  | 5 => ⟨S100000x64, .f32⟩
  | 6 => ⟨S100000x128, .f32⟩
  | 7 => ⟨S1x128, .f32⟩
  | 8 => ⟨S100000x128, .f32⟩
  | 9 => ⟨S100000x128, .f32⟩
  | 10 => ⟨S_, .f32⟩
  | 11 => ⟨S128, .f32⟩
  | 12 => ⟨S_, .f32⟩
  | 13 => ⟨S128, .f32⟩
  | 14 => ⟨S128, .f32⟩
  | 15 => ⟨S1x128, .f32⟩
  | 16 => ⟨S100000x128, .f32⟩
  | 17 => ⟨S100000x128, .f32⟩
  | 18 => ⟨S100000x128, .f32⟩
  | 19 => ⟨S_, .f32⟩
  | 20 => ⟨S128, .f32⟩
  | 21 => ⟨S_, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S_, .f32⟩
  | 28 => ⟨S128, .f32⟩
  | 29 => ⟨S128, .f32⟩
  | 30 => ⟨S128, .f32⟩
  | 31 => ⟨S1x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S100000x64, .f32⟩
  | 44 => ⟨S1x64, .f32⟩
  | 45 => ⟨S100000x64, .f32⟩
  | 46 => ⟨S100000x64, .f32⟩
  | 47 => ⟨S100000x64, .f32⟩
  | 48 => ⟨S1x64x128, .f32⟩
  | 49 => ⟨S64x128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S1x128x64, .f32⟩
  | 57 => ⟨S128x64, .f32⟩
  | 58 => ⟨S1x64, .f32⟩
  | 59 => ⟨S64, .f32⟩
  | 60 => ⟨S1, .f32⟩
  | 61 => ⟨S_, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x64, .f32⟩
  | 71 => ⟨S_, .f32⟩
  | 72 => ⟨S1600000x64, .f32⟩
  | 73 => ⟨S1600000x64, .f32⟩
  | 74 => ⟨S_, .f32⟩
  | 75 => ⟨S100000x64, .f32⟩
  | 76 => ⟨S1600000x1, .i32⟩
  | 77 => ⟨S100000x64, .f32⟩
  | 78 => ⟨S_, .f32⟩
  | 79 => ⟨S_, .f32⟩
  | 80 => ⟨S100000x64, .f32⟩
  | 81 => ⟨S100000x64, .f32⟩
  | 82 => ⟨S100000x64, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S100000x128, .f32⟩
  | 96 => ⟨S_, .f32⟩
  | 97 => ⟨S128, .f32⟩
  | 98 => ⟨S_, .f32⟩
  | 99 => ⟨S128, .f32⟩
  | 100 => ⟨S128, .f32⟩
  | 101 => ⟨S1x128, .f32⟩
  | 102 => ⟨S100000x128, .f32⟩
  | 103 => ⟨S100000x128, .f32⟩
  | 104 => ⟨S_, .f32⟩
  | 105 => ⟨S128, .f32⟩
  | 106 => ⟨S128, .f32⟩
  | 107 => ⟨S128, .f32⟩
  | 108 => ⟨S1x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S100000x64, .f32⟩
  | 121 => ⟨S1x64, .f32⟩
  | 122 => ⟨S100000x64, .f32⟩
  | 123 => ⟨S100000x64, .f32⟩
  | 124 => ⟨S100000x64, .f32⟩
  | 125 => ⟨S1x64x128, .f32⟩
  | 126 => ⟨S64x128, .f32⟩
  | 127 => ⟨S1x128, .f32⟩
  | _ => ⟨S100000x32, .f32⟩

abbrev hbmTy0_2 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S1x128x64, .f32⟩
  | 6 => ⟨S128x64, .f32⟩
  | 7 => ⟨S1x64, .f32⟩
  | 8 => ⟨S64, .f32⟩
  | 9 => ⟨S1, .f32⟩
  | 10 => ⟨S_, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x64, .f32⟩
  | 20 => ⟨S_, .f32⟩
  | 21 => ⟨S1600000x64, .f32⟩
  | 22 => ⟨S1600000x64, .f32⟩
  | 23 => ⟨S_, .f32⟩
  | 24 => ⟨S100000x64, .f32⟩
  | 25 => ⟨S1600000x1, .i32⟩
  | 26 => ⟨S100000x64, .f32⟩
  | 27 => ⟨S_, .f32⟩
  | 28 => ⟨S_, .f32⟩
  | 29 => ⟨S100000x64, .f32⟩
  | 30 => ⟨S100000x64, .f32⟩
  | 31 => ⟨S100000x64, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S128, .f32⟩
  | 38 => ⟨S_, .f32⟩
  | 39 => ⟨S128, .f32⟩
  | 40 => ⟨S128, .f32⟩
  | 41 => ⟨S1x128, .f32⟩
  | 42 => ⟨S100000x128, .f32⟩
  | 43 => ⟨S100000x128, .f32⟩
  | 44 => ⟨S100000x128, .f32⟩
  | 45 => ⟨S_, .f32⟩
  | 46 => ⟨S128, .f32⟩
  | 47 => ⟨S_, .f32⟩
  | 48 => ⟨S128, .f32⟩
  | 49 => ⟨S128, .f32⟩
  | 50 => ⟨S1x128, .f32⟩
  | 51 => ⟨S100000x128, .f32⟩
  | 52 => ⟨S100000x128, .f32⟩
  | 53 => ⟨S_, .f32⟩
  | 54 => ⟨S128, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x64, .f32⟩
  | 70 => ⟨S1x64, .f32⟩
  | 71 => ⟨S100000x64, .f32⟩
  | 72 => ⟨S100000x64, .f32⟩
  | 73 => ⟨S100000x64, .f32⟩
  | 74 => ⟨S_, .f32⟩
  | 75 => ⟨S64x64, .f32⟩
  | 76 => ⟨S100000x1, .i32⟩
  | 77 => ⟨S64x64, .f32⟩
  | 78 => ⟨S64x1, .f32⟩
  | 79 => ⟨S1x1, .f32⟩
  | 80 => ⟨S64x1, .f32⟩
  | 81 => ⟨S64x1, .f32⟩
  | 82 => ⟨S64, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_c_0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_cst : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_1 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_cst_5 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call1_cst : Ref sig .tc := ⟨.hbm, 91, rfl⟩
abbrev main_call1_v0 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_7 : Ref sig .tc := ⟨.hbm, 113, rfl⟩
abbrev main_v86 : Ref sig .tc := ⟨.hbm, 114, rfl⟩
abbrev main_v87 : Ref sig .tc := ⟨.hbm, 115, rfl⟩
abbrev main_c_8 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_call2_cst : Ref sig .tc := ⟨.hbm, 122, rfl⟩
abbrev main_call2_v0 : Ref sig .tc := ⟨.hbm, 123, rfl⟩
abbrev main_v93 : Ref sig .tc := ⟨.hbm, 124, rfl⟩
abbrev main_cst_9 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_10 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_11 : Ref sig .tc := ⟨.hbm, 138, rfl⟩
abbrev main_v105 : Ref sig .tc := ⟨.hbm, 139, rfl⟩
abbrev main_cst_12 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_13 : Ref sig .tc := ⟨.hbm, 147, rfl⟩
abbrev main_v112 : Ref sig .tc := ⟨.hbm, 148, rfl⟩
abbrev main_cst_14 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_15 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_call3_cst : Ref sig .tc := ⟨.hbm, 168, rfl⟩
abbrev main_call3_v0 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_c_16 : Ref sig .tc := ⟨.hbm, 190, rfl⟩
abbrev main_v150 : Ref sig .tc := ⟨.hbm, 191, rfl⟩
abbrev main_v151 : Ref sig .tc := ⟨.hbm, 192, rfl⟩
abbrev main_c_17 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_call4_cst : Ref sig .tc := ⟨.hbm, 199, rfl⟩
abbrev main_call4_v0 : Ref sig .tc := ⟨.hbm, 200, rfl⟩
abbrev main_v157 : Ref sig .tc := ⟨.hbm, 201, rfl⟩
abbrev main_cst_18 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_cst_19 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_20 : Ref sig .tc := ⟨.hbm, 215, rfl⟩
abbrev main_v169 : Ref sig .tc := ⟨.hbm, 216, rfl⟩
abbrev main_cst_21 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_22 : Ref sig .tc := ⟨.hbm, 224, rfl⟩
abbrev main_v176 : Ref sig .tc := ⟨.hbm, 225, rfl⟩
abbrev main_cst_23 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_24 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_call5_cst : Ref sig .tc := ⟨.hbm, 245, rfl⟩
abbrev main_call5_v0 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_c_25 : Ref sig .tc := ⟨.hbm, 267, rfl⟩
abbrev main_v214 : Ref sig .tc := ⟨.hbm, 268, rfl⟩
abbrev main_v215 : Ref sig .tc := ⟨.hbm, 269, rfl⟩
abbrev main_c_26 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_call6_cst : Ref sig .tc := ⟨.hbm, 276, rfl⟩
abbrev main_call6_v0 : Ref sig .tc := ⟨.hbm, 277, rfl⟩
abbrev main_v221 : Ref sig .tc := ⟨.hbm, 278, rfl⟩
abbrev main_cst_27 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_cst_28 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_cst_29 : Ref sig .tc := ⟨.hbm, 292, rfl⟩
abbrev main_v233 : Ref sig .tc := ⟨.hbm, 293, rfl⟩
abbrev main_cst_30 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_cst_31 : Ref sig .tc := ⟨.hbm, 301, rfl⟩
abbrev main_v240 : Ref sig .tc := ⟨.hbm, 302, rfl⟩
abbrev main_cst_32 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_cst_33 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_call7_cst : Ref sig .tc := ⟨.hbm, 322, rfl⟩
abbrev main_call7_v0 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_cst_34 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64x128_S1x64x128_0_0_0 : S4x64x128.Slices ![0, 0, 0] S1x64x128
  shapeCasts_S1x64x128_S64x128 : S1x64x128.ShapeCasts S64x128
  slices_S4x128_S1x128_0_0 : S4x128.Slices ![0, 0] S1x128
  shapeCasts_S1x128_S128 : S1x128.ShapeCasts S128
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  slices_S4_S1_0 : S4.Slices ![0] S1
  shapeCasts_S1_S_ : S1.ShapeCasts S_
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x128 : S_.BroadcastsInDim S100000x128 (![] : Fin 0 → Fin S100000x128.rank)
  slices_S4x64x128_S1x64x128_1_0_0 : S4x64x128.Slices ![1, 0, 0] S1x64x128
  slices_S4x128_S1x128_1_0 : S4x128.Slices ![1, 0] S1x128
  slices_S4x128x64_S1x128x64_1_0_0 : S4x128x64.Slices ![1, 0, 0] S1x128x64
  slices_S4x64_S1x64_1_0 : S4x64.Slices ![1, 0] S1x64
  slices_S4_S1_1 : S4.Slices ![1] S1
  slices_S4x64x128_S1x64x128_2_0_0 : S4x64x128.Slices ![2, 0, 0] S1x64x128
  slices_S4x128_S1x128_2_0 : S4x128.Slices ![2, 0] S1x128
  slices_S4x128x64_S1x128x64_2_0_0 : S4x128x64.Slices ![2, 0, 0] S1x128x64
  slices_S4x64_S1x64_2_0 : S4x64.Slices ![2, 0] S1x64
  slices_S4_S1_2 : S4.Slices ![2] S1
  slices_S4x64x128_S1x64x128_3_0_0 : S4x64x128.Slices ![3, 0, 0] S1x64x128
  slices_S4x128_S1x128_3_0 : S4x128.Slices ![3, 0] S1x128
  slices_S4x128x64_S1x128x64_3_0_0 : S4x128x64.Slices ![3, 0, 0] S1x128x64
  slices_S4x64_S1x64_3_0 : S4x64.Slices ![3, 0] S1x64
  slices_S4_S1_3 : S4.Slices ![3] S1
  bcast_S_S64x64 : S_.BroadcastsInDim S64x64 (![] : Fin 0 → Fin S64x64.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []
  scatter_S64x64_S100000x1_S100000x64_1_0_0_1_wf : ScatterDims.WF S64x64 S100000x1 S100000x64 [1] [0] [0] 1
  dot_S64x64_S64x1_S64x1_1_0_0_1_n_n_wf : DotDims.WF S64x64 S64x1 S64x1 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.Spec.lean ====
import proofs.«426483_j67748814127260_1_alg».proof.Proof.Gen.KernelIdeal
import Idealize.ShloMosaic.PureOps.Ideal
import Idealize.ShloMosaic.Lib.ValueIdx

noncomputable section

namespace Cert.Spec
open Idealize.ShloMosaic Idealize.ShloMosaic.ValueIdx Cert.KernelIdeal Cert.KernelIdeal.Facts₀

abbrev z : EReal := Ideal.ofBits .f32 0x00000000#32

abbrev rowsC : EReal := Ideal.ofBits .f32 0x47C35000#32

abbrev epsC : EReal := Ideal.ofBits .f32 0x3727C5AC#32

abbrev oneC : EReal := Ideal.ofBits .f32 0x3F800000#32

def proj (x : FVec Ideal S100000x32 .f32) (w : FVec Ideal S32x64 .f32) (b : FVec Ideal S64 .f32) : FVec Ideal S100000x64 .f32 :=
  fun i => (∑ k : Fin 32, x (ix2 (i 0) k) * w (ix2 k (i 1))) + b (ix1 (i 1))

def pre (coef : EReal) (x agg : FVec Ideal S100000x64 .f32) (w : FVec Ideal S64x128 .f32) (b : FVec Ideal S128 .f32) :
    FVec Ideal S100000x128 .f32 :=
  fun i => (∑ k : Fin 64, (coef * x (ix2 (i 0) k) + agg (ix2 (i 0) k)) * w (ix2 k (i 1))) + b (ix1 (i 1))

def colSum (h : FVec Ideal S100000x128 .f32) : FVec Ideal S128 .f32 := fun j => ∑ n : Fin 100000, h (ix2 n (j 0))

def colSumSq (h : FVec Ideal S100000x128 .f32) : FVec Ideal S128 .f32 := fun j => ∑ n : Fin 100000, h (ix2 n (j 0)) * h (ix2 n (j 0))

def post (h : FVec Ideal S100000x128 .f32) (a b : FVec Ideal S128 .f32) (w : FVec Ideal S128x64 .f32) (b2 : FVec Ideal S64 .f32)
    (x : FVec Ideal S100000x64 .f32) : FVec Ideal S100000x64 .f32 :=
  fun i => x i + ((∑ k : Fin 128, max (h (ix2 (i 0) k) * a (ix1 k) + b (ix1 k)) z * w (ix2 k (i 1))) + b2 (ix1 (i 1)))

def meanOf (s : FVec Ideal S128 .f32) : FVec Ideal S128 .f32 := fun j => Ideal.div (s j) rowsC

def scaleOf (s ss g : FVec Ideal S128 .f32) : FVec Ideal S128 .f32 :=
  fun j => g j * Ideal.rsqrt ((Ideal.div (ss j) rowsC - meanOf s j * meanOf s j) + epsC)

def shiftOf (s ss g bt : FVec Ideal S128 .f32) : FVec Ideal S128 .f32 :=
  fun j => bt j - meanOf s j * scaleOf s ss g j

def layerMoment (coef : EReal) (x agg : FVec Ideal S100000x64 .f32) (w1 : FVec Ideal S64x128 .f32) (b1 g bt : FVec Ideal S128 .f32)
    (w2 : FVec Ideal S128x64 .f32) (b2 : FVec Ideal S64 .f32) : FVec Ideal S100000x64 .f32 :=
  post (pre coef x agg w1 b1) (scaleOf (colSum (pre coef x agg w1 b1)) (colSumSq (pre coef x agg w1 b1)) g)
    (shiftOf (colSum (pre coef x agg w1 b1)) (colSumSq (pre coef x agg w1 b1)) g bt) w2 b2 x

def meanC (h : FVec Ideal S100000x128 .f32) : FVec Ideal S128 .f32 := fun j => Ideal.div (z + ∑ n : Fin 100000, h (ix2 n (j 0))) rowsC

def rstdC (h : FVec Ideal S100000x128 .f32) : FVec Ideal S128 .f32 :=
  fun j => Ideal.rsqrt (Ideal.div (z + ∑ n : Fin 100000, (h (ix2 n (j 0)) - meanC h j) * (h (ix2 n (j 0)) - meanC h j)) rowsC + epsC)

def layerCentred (coef : EReal) (x agg : FVec Ideal S100000x64 .f32) (w1 : FVec Ideal S64x128 .f32) (b1 g bt : FVec Ideal S128 .f32)
    (w2 : FVec Ideal S128x64 .f32) (b2 : FVec Ideal S64 .f32) : FVec Ideal S100000x64 .f32 :=
  fun i => x i + ((∑ k : Fin 128,
      max ((pre coef x agg w1 b1 (ix2 (i 0) k) - meanC (pre coef x agg w1 b1) (ix1 k)) * rstdC (pre coef x agg w1 b1) (ix1 k) * g (ix1 k) + bt (ix1 k)) z
        * w2 (ix2 k (i 1))) + b2 (ix1 (i 1)))

def w1Of (o : Nat) (h : S4x64x128.Slices ![o, 0, 0] S1x64x128) (a : FVec Ideal S4x64x128 .f32) : FVec Ideal S64x128 .f32 :=
  shapeCast S64x128 (extractStridedSlice S1x64x128 ![o, 0, 0] a h) shapeCasts_S1x64x128_S64x128

def row128Of (o : Nat) (h : S4x128.Slices ![o, 0] S1x128) (a : FVec Ideal S4x128 .f32) : FVec Ideal S128 .f32 :=
  shapeCast S128 (extractStridedSlice S1x128 ![o, 0] a h) shapeCasts_S1x128_S128

def w2Of (o : Nat) (h : S4x128x64.Slices ![o, 0, 0] S1x128x64) (a : FVec Ideal S4x128x64 .f32) : FVec Ideal S128x64 .f32 :=
  shapeCast S128x64 (extractStridedSlice S1x128x64 ![o, 0, 0] a h) shapeCasts_S1x128x64_S128x64

def row64Of (o : Nat) (h : S4x64.Slices ![o, 0] S1x64) (a : FVec Ideal S4x64 .f32) : FVec Ideal S64 .f32 :=
  shapeCast S64 (extractStridedSlice S1x64 ![o, 0] a h) shapeCasts_S1x64_S64

def coefOf (o : Nat) (h : S4.Slices ![o] S1) (a : FVec Ideal S4 .f32) : EReal :=
  (addf (constant (F := Ideal) S_ .f32 0x3F800000#32) (shapeCast S_ (extractStridedSlice S1 ![o] a h) shapeCasts_S1_S_)) ix0

def srcIdx (e : IVec S2x1600000 32) : IVec S1600000x1 32 :=
  let s : IVec S1600000 32 := shapeCast S1600000 (extractStridedSlice S1x1600000 ![0, 0] e slices_S2x1600000_S1x1600000_0_0) shapeCasts_S1x1600000_S1600000
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

def dstIdx (e : IVec S2x1600000 32) : IVec S1600000x1 32 :=
  broadcastInDim S1600000x1 ![0] bcast_S1600000_S1600000x1_0
    (shapeCast S1600000 (extractStridedSlice S1x1600000 ![1, 0] e slices_S2x1600000_S1x1600000_1_0) shapeCasts_S1x1600000_S1600000)

def aggOf (x : FVec Ideal S100000x64 .f32) (e : IVec S2x1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (dstIdx e)
    (maximumf (Host.gather gather_S100000x64_S1600000x1_S1600000x64_1_0_n_n_0_1_164 x (srcIdx e))
      (broadcastInDim S1600000x64 ![] bcast_S_S1600000x64 (constant (F := Ideal) S_ .f32 0x00000000#32)))

def headOf (p : FVec Ideal S64x64 .f32) (w : FVec Ideal S64x1 .f32) (b : FVec Ideal S1 .f32) : FVec Ideal S64 .f32 :=
  shapeCast S64 (addf (Host.dotGeneral (F := Ideal) dot_S64x64_S64x1_S64x1_1_0_0_1_n_n none p w)
    (broadcastInDim S64x1 ![0, 1] bcast_S1x1_S64x1_0_1 (broadcastInDim S1x1 ![1] bcast_S1_S1x1_1 b))) shapeCasts_S64x1_S64

def poolIndicator (x : FVec Ideal S100000x64 .f32) (bt : IVec S100000x1 32) : FVec Ideal S64x64 .f32 :=
  fun i => ∑ n : Fin 100000,
    (FloatOps.sitofp (F := Ideal) .f32 ((IntOp.cmpi .eq (bt (ix2 n 0)) (BitVec.ofNat 32 (i 0).val)).setWidth 32)) * x (ix2 n (i 1))

end Cert.Spec

end
-- ==== Proof.KCarry.lean ====
import proofs.«426483_j67748814127260_1_alg».proof.Proof.Gen.KernelIdeal.Frame
set_option maxRecDepth 16384
noncomputable section
namespace Cert.KernelIdeal.Carry
open Cert.KernelIdeal Cert.KernelIdeal.Gen Idealize.ShloMosaic Idealize.ShloMosaic.TcCoe
variable {F : FTy → Type} [FloatOps F]
variable (m : (ℓ : Loc nD τ sig) → Buf (Elt F) ℓ) (ρ : Dev nD → PrngReg)
def Off (lo hi : Nat) (b : Ref sig .tc) : Prop := b.space = .hbm → b.idx.val < lo ∨ hi < b.idx.val
instance (lo hi : Nat) (b : Ref sig .tc) : Decidable (Off lo hi b) :=
  inferInstanceAs (Decidable (b.space = .hbm → b.idx.val < lo ∨ hi < b.idx.val))
theorem Off.mono {lo hi lo' hi' : Nat} {b : Ref sig .tc} (h : Off lo hi b) (h₁ : lo ≤ lo') (h₂ : hi' ≤ hi) :
    Off lo' hi' b := fun hs => (h hs).imp (fun h => Nat.lt_of_lt_of_le h h₁) (fun h => Nat.lt_of_le_of_lt h₂ h)
theorem ne_of_off {lo hi : Nat} {b x : Ref sig .tc} (hb : Off lo hi b) (hs : x.space = .hbm)
    (hl : lo ≤ x.idx.val) (hh : x.idx.val ≤ hi) : b ≠ x := by
  rintro rfl
  rcases hb hs with h | h <;> omega
def IsArg (b : Ref sig .tc) : Prop := b.space = .hbm ∧ b.idx.val < 14
instance (b : Ref sig .tc) : Decidable (IsArg b) :=
  inferInstanceAs (Decidable (b.space = .hbm ∧ b.idx.val < 14))
theorem IsArg.off {b : Ref sig .tc} (h : IsArg b) {lo hi : Nat} (hlo : 14 ≤ lo) : Off lo hi b :=
  fun _ => Or.inl (Nat.lt_of_lt_of_le h.2 hlo)
macro "host_keep " ops:ident " with " hb:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (ne_of_off $hb rfl (by decide) (by decide)))))
macro "region_keep " b:ident " with " hb:ident " outs " outs:ident " of " cfg:ident spec:ident
    " by " arr:term:max ne:term:max dat:term:max aeq:term:max : tactic => `(tactic| (
  by_cases h : ∃ w, Pipeline.arrRef $spec w = $b
  · obtain ⟨w, hw⟩ := h
    subst hw
    have hin : (($cfg).win w).isOut = false := by
      cases hio : (($cfg).win w).isOut
      · rfl
      · exact absurd $hb ($outs w hio)
    exact ($arr w).trans ((($dat).arrAt_in w hin _).trans ($aeq w))
  · exact $ne $b (fun w e => h ⟨w, e⟩)))
section Host
variable (V : Valuation τ sig (Elt F)) {b : Ref sig .tc}
theorem keep0 (hb : Off 14 17 b) : StableHlo.after hostOps0 V (Proc.devRef .tc b) = V (Proc.devRef .tc b) := by
  host_keep hostOps0 with hb
theorem keep1 (hb : Off 19 27 b) : StableHlo.after hostOps1 V (Proc.devRef .tc b) = V (Proc.devRef .tc b) := by
  host_keep hostOps1 with hb
theorem keep1_1 (hb : Off 28 30 b) : StableHlo.after hostOps1_1 V (Proc.devRef .tc b) = V (Proc.devRef .tc b) := by
  host_keep hostOps1_1 with hb
theorem keep1_2 (hb : Off 31 43 b) : StableHlo.after hostOps1_2 V (Proc.devRef .tc b) = V (Proc.devRef .tc b) := by
  host_keep hostOps1_2 with hb
theorem keep2 (hb : Off 47 73 b) : StableHlo.after hostOps2 V (Proc.devRef .tc b) = V (Proc.devRef .tc b) := by
  host_keep hostOps2 with hb
theorem keep3 (hb : Off 75 83 b) : StableHlo.after hostOps3 V (Proc.devRef .tc b) = V (Proc.devRef .tc b) := by
  host_keep hostOps3 with hb
theorem keep3_1 (hb : Off 84 86 b) : StableHlo.after hostOps3_1 V (Proc.devRef .tc b) = V (Proc.devRef .tc b) := by
  host_keep hostOps3_1 with hb
theorem keep3_2 (hb : Off 87 99 b) : StableHlo.after hostOps3_2 V (Proc.devRef .tc b) = V (Proc.devRef .tc b) := by
  host_keep hostOps3_2 with hb
theorem keep4 (hb : Off 103 129 b) : StableHlo.after hostOps4 V (Proc.devRef .tc b) = V (Proc.devRef .tc b) := by
  host_keep hostOps4 with hb
theorem keep5 (hb : Off 131 139 b) : StableHlo.after hostOps5 V (Proc.devRef .tc b) = V (Proc.devRef .tc b) := by
  host_keep hostOps5 with hb
theorem keep5_1 (hb : Off 140 142 b) : StableHlo.after hostOps5_1 V (Proc.devRef .tc b) = V (Proc.devRef .tc b) := by
  host_keep hostOps5_1 with hb
theorem keep5_2 (hb : Off 143 155 b) : StableHlo.after hostOps5_2 V (Proc.devRef .tc b) = V (Proc.devRef .tc b) := by
  host_keep hostOps5_2 with hb
theorem keep6 (hb : Off 159 185 b) : StableHlo.after hostOps6 V (Proc.devRef .tc b) = V (Proc.devRef .tc b) := by
  host_keep hostOps6 with hb
theorem keep7 (hb : Off 187 195 b) : StableHlo.after hostOps7 V (Proc.devRef .tc b) = V (Proc.devRef .tc b) := by
  host_keep hostOps7 with hb
theorem keep7_1 (hb : Off 196 198 b) : StableHlo.after hostOps7_1 V (Proc.devRef .tc b) = V (Proc.devRef .tc b) := by
  host_keep hostOps7_1 with hb
theorem keep7_2 (hb : Off 199 211 b) : StableHlo.after hostOps7_2 V (Proc.devRef .tc b) = V (Proc.devRef .tc b) := by
  host_keep hostOps7_2 with hb
theorem keep8 (hb : Off 215 241 b) : StableHlo.after hostOps8 V (Proc.devRef .tc b) = V (Proc.devRef .tc b) := by
  host_keep hostOps8 with hb
theorem keep9 (hb : Off 243 243 b) : StableHlo.after hostOps9 V (Proc.devRef .tc b) = V (Proc.devRef .tc b) := by
  host_keep hostOps9 with hb
end Host
theorem outs0 : ∀ w : Fin cfg0.W, (cfg0.win w).isOut = true → ¬ Off 18 18 (Pipeline.arrRef spec0 w) := by decide
theorem outs1 : ∀ w : Fin cfg1.W, (cfg1.win w).isOut = true → ¬ Off 44 46 (Pipeline.arrRef spec1 w) := by decide
theorem outs2 : ∀ w : Fin cfg2.W, (cfg2.win w).isOut = true → ¬ Off 74 74 (Pipeline.arrRef spec2 w) := by decide
theorem outs3 : ∀ w : Fin cfg3.W, (cfg3.win w).isOut = true → ¬ Off 100 102 (Pipeline.arrRef spec3 w) := by decide
theorem outs4 : ∀ w : Fin cfg4.W, (cfg4.win w).isOut = true → ¬ Off 130 130 (Pipeline.arrRef spec4 w) := by decide
theorem outs5 : ∀ w : Fin cfg5.W, (cfg5.win w).isOut = true → ¬ Off 156 158 (Pipeline.arrRef spec5 w) := by decide
theorem outs6 : ∀ w : Fin cfg6.W, (cfg6.win w).isOut = true → ¬ Off 186 186 (Pipeline.arrRef spec6 w) := by decide
theorem outs7 : ∀ w : Fin cfg7.W, (cfg7.win w).isOut = true → ¬ Off 212 214 (Pipeline.arrRef spec7 w) := by decide
theorem outs8 : ∀ w : Fin cfg8.W, (cfg8.win w).isOut = true → ¬ Off 242 242 (Pipeline.arrRef spec8 w) := by decide
theorem outs9 : ∀ w : Fin cfg9.W, (cfg9.win w).isOut = true → ¬ Off 244 244 (Pipeline.arrRef spec9 w) := by decide
section Steps
variable (c : Dev nD) (b : Ref sig .tc)
theorem step1 (hb : Off 14 17 b) : W1 m ρ c (Proc.devRef .tc b) = W0 m ρ c (Proc.devRef .tc b) := keep0 _ hb
theorem step2 (hb : Off 18 18 b) : W2 m ρ c (Proc.devRef .tc b) = W1 m ρ c (Proc.devRef .tc b) := by
  region_keep b with hb outs outs0 of cfg0 spec0 by (W2_arr m ρ c) (W2_of_ne m ρ c) (dat0 (V1 m ρ) c) (A_eq0 (V1 m ρ) c)
theorem step3 (hb : Off 19 27 b) : W3 m ρ c (Proc.devRef .tc b) = W2 m ρ c (Proc.devRef .tc b) := keep1 _ hb
theorem step4 (hb : Off 28 30 b) : W4 m ρ c (Proc.devRef .tc b) = W3 m ρ c (Proc.devRef .tc b) := keep1_1 _ hb
theorem step5 (hb : Off 31 43 b) : W5 m ρ c (Proc.devRef .tc b) = W4 m ρ c (Proc.devRef .tc b) := keep1_2 _ hb
theorem step6 (hb : Off 44 46 b) : W6 m ρ c (Proc.devRef .tc b) = W5 m ρ c (Proc.devRef .tc b) := by
  region_keep b with hb outs outs1 of cfg1 spec1 by (W6_arr m ρ c) (W6_of_ne m ρ c) (dat1 (V5 m ρ) c) (A_eq1 (V5 m ρ) c)
theorem step7 (hb : Off 47 73 b) : W7 m ρ c (Proc.devRef .tc b) = W6 m ρ c (Proc.devRef .tc b) := keep2 _ hb
theorem step8 (hb : Off 74 74 b) : W8 m ρ c (Proc.devRef .tc b) = W7 m ρ c (Proc.devRef .tc b) := by
  region_keep b with hb outs outs2 of cfg2 spec2 by (W8_arr m ρ c) (W8_of_ne m ρ c) (dat2 (V7 m ρ) c) (A_eq2 (V7 m ρ) c)
theorem step9 (hb : Off 75 83 b) : W9 m ρ c (Proc.devRef .tc b) = W8 m ρ c (Proc.devRef .tc b) := keep3 _ hb
theorem step10 (hb : Off 84 86 b) : W10 m ρ c (Proc.devRef .tc b) = W9 m ρ c (Proc.devRef .tc b) := keep3_1 _ hb
theorem step11 (hb : Off 87 99 b) : W11 m ρ c (Proc.devRef .tc b) = W10 m ρ c (Proc.devRef .tc b) := keep3_2 _ hb
theorem step12 (hb : Off 100 102 b) : W12 m ρ c (Proc.devRef .tc b) = W11 m ρ c (Proc.devRef .tc b) := by
  region_keep b with hb outs outs3 of cfg3 spec3 by (W12_arr m ρ c) (W12_of_ne m ρ c) (dat3 (V11 m ρ) c) (A_eq3 (V11 m ρ) c)
theorem step13 (hb : Off 103 129 b) : W13 m ρ c (Proc.devRef .tc b) = W12 m ρ c (Proc.devRef .tc b) := keep4 _ hb
theorem step14 (hb : Off 130 130 b) : W14 m ρ c (Proc.devRef .tc b) = W13 m ρ c (Proc.devRef .tc b) := by
  region_keep b with hb outs outs4 of cfg4 spec4 by (W14_arr m ρ c) (W14_of_ne m ρ c) (dat4 (V13 m ρ) c) (A_eq4 (V13 m ρ) c)
theorem step15 (hb : Off 131 139 b) : W15 m ρ c (Proc.devRef .tc b) = W14 m ρ c (Proc.devRef .tc b) := keep5 _ hb
theorem step16 (hb : Off 140 142 b) : W16 m ρ c (Proc.devRef .tc b) = W15 m ρ c (Proc.devRef .tc b) := keep5_1 _ hb
theorem step17 (hb : Off 143 155 b) : W17 m ρ c (Proc.devRef .tc b) = W16 m ρ c (Proc.devRef .tc b) := keep5_2 _ hb
theorem step18 (hb : Off 156 158 b) : W18 m ρ c (Proc.devRef .tc b) = W17 m ρ c (Proc.devRef .tc b) := by
  region_keep b with hb outs outs5 of cfg5 spec5 by (W18_arr m ρ c) (W18_of_ne m ρ c) (dat5 (V17 m ρ) c) (A_eq5 (V17 m ρ) c)
theorem step19 (hb : Off 159 185 b) : W19 m ρ c (Proc.devRef .tc b) = W18 m ρ c (Proc.devRef .tc b) := keep6 _ hb
theorem step20 (hb : Off 186 186 b) : W20 m ρ c (Proc.devRef .tc b) = W19 m ρ c (Proc.devRef .tc b) := by
  region_keep b with hb outs outs6 of cfg6 spec6 by (W20_arr m ρ c) (W20_of_ne m ρ c) (dat6 (V19 m ρ) c) (A_eq6 (V19 m ρ) c)
theorem step21 (hb : Off 187 195 b) : W21 m ρ c (Proc.devRef .tc b) = W20 m ρ c (Proc.devRef .tc b) := keep7 _ hb
theorem step22 (hb : Off 196 198 b) : W22 m ρ c (Proc.devRef .tc b) = W21 m ρ c (Proc.devRef .tc b) := keep7_1 _ hb
theorem step23 (hb : Off 199 211 b) : W23 m ρ c (Proc.devRef .tc b) = W22 m ρ c (Proc.devRef .tc b) := keep7_2 _ hb
theorem step24 (hb : Off 212 214 b) : W24 m ρ c (Proc.devRef .tc b) = W23 m ρ c (Proc.devRef .tc b) := by
  region_keep b with hb outs outs7 of cfg7 spec7 by (W24_arr m ρ c) (W24_of_ne m ρ c) (dat7 (V23 m ρ) c) (A_eq7 (V23 m ρ) c)
theorem step25 (hb : Off 215 241 b) : W25 m ρ c (Proc.devRef .tc b) = W24 m ρ c (Proc.devRef .tc b) := keep8 _ hb
theorem step26 (hb : Off 242 242 b) : W26 m ρ c (Proc.devRef .tc b) = W25 m ρ c (Proc.devRef .tc b) := by
  region_keep b with hb outs outs8 of cfg8 spec8 by (W26_arr m ρ c) (W26_of_ne m ρ c) (dat8 (V25 m ρ) c) (A_eq8 (V25 m ρ) c)
theorem step27 (hb : Off 243 243 b) : W27 m ρ c (Proc.devRef .tc b) = W26 m ρ c (Proc.devRef .tc b) := keep9 _ hb
theorem step28 (hb : Off 244 244 b) : W28 m ρ c (Proc.devRef .tc b) = W27 m ρ c (Proc.devRef .tc b) := by
  region_keep b with hb outs outs9 of cfg9 spec9 by (W28_arr m ρ c) (W28_of_ne m ρ c) (dat9 (V27 m ρ) c) (A_eq9 (V27 m ρ) c)
end Steps
section Runs
variable (c : Dev nD) (b : Ref sig .tc)
theorem from1_2 (hb : Off 18 18 b) : W2 m ρ c (Proc.devRef .tc b) = W1 m ρ c (Proc.devRef .tc b) := step2 m ρ c b hb
theorem from1_3 (hb : Off 18 27 b) : W3 m ρ c (Proc.devRef .tc b) = W1 m ρ c (Proc.devRef .tc b) :=
  (step3 m ρ c b (hb.mono (by omega) (by omega))).trans (from1_2 m ρ c b (hb.mono (by omega) (by omega)))
theorem from1_4 (hb : Off 18 30 b) : W4 m ρ c (Proc.devRef .tc b) = W1 m ρ c (Proc.devRef .tc b) :=
  (step4 m ρ c b (hb.mono (by omega) (by omega))).trans (from1_3 m ρ c b (hb.mono (by omega) (by omega)))
theorem from1_5 (hb : Off 18 43 b) : W5 m ρ c (Proc.devRef .tc b) = W1 m ρ c (Proc.devRef .tc b) :=
  (step5 m ρ c b (hb.mono (by omega) (by omega))).trans (from1_4 m ρ c b (hb.mono (by omega) (by omega)))
theorem from1_6 (hb : Off 18 46 b) : W6 m ρ c (Proc.devRef .tc b) = W1 m ρ c (Proc.devRef .tc b) :=
  (step6 m ρ c b (hb.mono (by omega) (by omega))).trans (from1_5 m ρ c b (hb.mono (by omega) (by omega)))
theorem from1_7 (hb : Off 18 73 b) : W7 m ρ c (Proc.devRef .tc b) = W1 m ρ c (Proc.devRef .tc b) :=
  (step7 m ρ c b (hb.mono (by omega) (by omega))).trans (from1_6 m ρ c b (hb.mono (by omega) (by omega)))
theorem from1_8 (hb : Off 18 74 b) : W8 m ρ c (Proc.devRef .tc b) = W1 m ρ c (Proc.devRef .tc b) :=
  (step8 m ρ c b (hb.mono (by omega) (by omega))).trans (from1_7 m ρ c b (hb.mono (by omega) (by omega)))
theorem from1_9 (hb : Off 18 83 b) : W9 m ρ c (Proc.devRef .tc b) = W1 m ρ c (Proc.devRef .tc b) :=
  (step9 m ρ c b (hb.mono (by omega) (by omega))).trans (from1_8 m ρ c b (hb.mono (by omega) (by omega)))
theorem from1_10 (hb : Off 18 86 b) : W10 m ρ c (Proc.devRef .tc b) = W1 m ρ c (Proc.devRef .tc b) :=
  (step10 m ρ c b (hb.mono (by omega) (by omega))).trans (from1_9 m ρ c b (hb.mono (by omega) (by omega)))
theorem from1_11 (hb : Off 18 99 b) : W11 m ρ c (Proc.devRef .tc b) = W1 m ρ c (Proc.devRef .tc b) :=
  (step11 m ρ c b (hb.mono (by omega) (by omega))).trans (from1_10 m ρ c b (hb.mono (by omega) (by omega)))
theorem from1_12 (hb : Off 18 102 b) : W12 m ρ c (Proc.devRef .tc b) = W1 m ρ c (Proc.devRef .tc b) :=
  (step12 m ρ c b (hb.mono (by omega) (by omega))).trans (from1_11 m ρ c b (hb.mono (by omega) (by omega)))
theorem from1_13 (hb : Off 18 129 b) : W13 m ρ c (Proc.devRef .tc b) = W1 m ρ c (Proc.devRef .tc b) :=
  (step13 m ρ c b (hb.mono (by omega) (by omega))).trans (from1_12 m ρ c b (hb.mono (by omega) (by omega)))
theorem from1_14 (hb : Off 18 130 b) : W14 m ρ c (Proc.devRef .tc b) = W1 m ρ c (Proc.devRef .tc b) :=
  (step14 m ρ c b (hb.mono (by omega) (by omega))).trans (from1_13 m ρ c b (hb.mono (by omega) (by omega)))
theorem from1_15 (hb : Off 18 139 b) : W15 m ρ c (Proc.devRef .tc b) = W1 m ρ c (Proc.devRef .tc b) :=
  (step15 m ρ c b (hb.mono (by omega) (by omega))).trans (from1_14 m ρ c b (hb.mono (by omega) (by omega)))
theorem from1_16 (hb : Off 18 142 b) : W16 m ρ c (Proc.devRef .tc b) = W1 m ρ c (Proc.devRef .tc b) :=
  (step16 m ρ c b (hb.mono (by omega) (by omega))).trans (from1_15 m ρ c b (hb.mono (by omega) (by omega)))
theorem from1_17 (hb : Off 18 155 b) : W17 m ρ c (Proc.devRef .tc b) = W1 m ρ c (Proc.devRef .tc b) :=
  (step17 m ρ c b (hb.mono (by omega) (by omega))).trans (from1_16 m ρ c b (hb.mono (by omega) (by omega)))
theorem from1_18 (hb : Off 18 158 b) : W18 m ρ c (Proc.devRef .tc b) = W1 m ρ c (Proc.devRef .tc b) :=
  (step18 m ρ c b (hb.mono (by omega) (by omega))).trans (from1_17 m ρ c b (hb.mono (by omega) (by omega)))
theorem from1_19 (hb : Off 18 185 b) : W19 m ρ c (Proc.devRef .tc b) = W1 m ρ c (Proc.devRef .tc b) :=
  (step19 m ρ c b (hb.mono (by omega) (by omega))).trans (from1_18 m ρ c b (hb.mono (by omega) (by omega)))
theorem from1_20 (hb : Off 18 186 b) : W20 m ρ c (Proc.devRef .tc b) = W1 m ρ c (Proc.devRef .tc b) :=
  (step20 m ρ c b (hb.mono (by omega) (by omega))).trans (from1_19 m ρ c b (hb.mono (by omega) (by omega)))
theorem from1_21 (hb : Off 18 195 b) : W21 m ρ c (Proc.devRef .tc b) = W1 m ρ c (Proc.devRef .tc b) :=
  (step21 m ρ c b (hb.mono (by omega) (by omega))).trans (from1_20 m ρ c b (hb.mono (by omega) (by omega)))
theorem from1_22 (hb : Off 18 198 b) : W22 m ρ c (Proc.devRef .tc b) = W1 m ρ c (Proc.devRef .tc b) :=
  (step22 m ρ c b (hb.mono (by omega) (by omega))).trans (from1_21 m ρ c b (hb.mono (by omega) (by omega)))
theorem from1_23 (hb : Off 18 211 b) : W23 m ρ c (Proc.devRef .tc b) = W1 m ρ c (Proc.devRef .tc b) :=
  (step23 m ρ c b (hb.mono (by omega) (by omega))).trans (from1_22 m ρ c b (hb.mono (by omega) (by omega)))
theorem from1_24 (hb : Off 18 214 b) : W24 m ρ c (Proc.devRef .tc b) = W1 m ρ c (Proc.devRef .tc b) :=
  (step24 m ρ c b (hb.mono (by omega) (by omega))).trans (from1_23 m ρ c b (hb.mono (by omega) (by omega)))
theorem from1_25 (hb : Off 18 241 b) : W25 m ρ c (Proc.devRef .tc b) = W1 m ρ c (Proc.devRef .tc b) :=
  (step25 m ρ c b (hb.mono (by omega) (by omega))).trans (from1_24 m ρ c b (hb.mono (by omega) (by omega)))
theorem from1_26 (hb : Off 18 242 b) : W26 m ρ c (Proc.devRef .tc b) = W1 m ρ c (Proc.devRef .tc b) :=
  (step26 m ρ c b (hb.mono (by omega) (by omega))).trans (from1_25 m ρ c b (hb.mono (by omega) (by omega)))
theorem from1_27 (hb : Off 18 243 b) : W27 m ρ c (Proc.devRef .tc b) = W1 m ρ c (Proc.devRef .tc b) :=
  (step27 m ρ c b (hb.mono (by omega) (by omega))).trans (from1_26 m ρ c b (hb.mono (by omega) (by omega)))
theorem from1_28 (hb : Off 18 244 b) : W28 m ρ c (Proc.devRef .tc b) = W1 m ρ c (Proc.devRef .tc b) :=
  (step28 m ρ c b (hb.mono (by omega) (by omega))).trans (from1_27 m ρ c b (hb.mono (by omega) (by omega)))
end Runs
section Args
variable (c : Dev nD) (b : Ref sig .tc)
theorem W1_arg (hb : IsArg b) : W1 m ρ c (Proc.devRef .tc b) = m ((c : Thread nD τ).loc b) :=
  (step1 m ρ c b (hb.off (by omega))).trans rfl
theorem W4_arg (hb : IsArg b) : W4 m ρ c (Proc.devRef .tc b) = m ((c : Thread nD τ).loc b) :=
  (from1_4 m ρ c b (hb.off (by omega))).trans (W1_arg m ρ c b hb)
theorem W6_arg (hb : IsArg b) : W6 m ρ c (Proc.devRef .tc b) = m ((c : Thread nD τ).loc b) :=
  (from1_6 m ρ c b (hb.off (by omega))).trans (W1_arg m ρ c b hb)
theorem W10_arg (hb : IsArg b) : W10 m ρ c (Proc.devRef .tc b) = m ((c : Thread nD τ).loc b) :=
  (from1_10 m ρ c b (hb.off (by omega))).trans (W1_arg m ρ c b hb)
theorem W12_arg (hb : IsArg b) : W12 m ρ c (Proc.devRef .tc b) = m ((c : Thread nD τ).loc b) :=
  (from1_12 m ρ c b (hb.off (by omega))).trans (W1_arg m ρ c b hb)
theorem W16_arg (hb : IsArg b) : W16 m ρ c (Proc.devRef .tc b) = m ((c : Thread nD τ).loc b) :=
  (from1_16 m ρ c b (hb.off (by omega))).trans (W1_arg m ρ c b hb)
theorem W18_arg (hb : IsArg b) : W18 m ρ c (Proc.devRef .tc b) = m ((c : Thread nD τ).loc b) :=
  (from1_18 m ρ c b (hb.off (by omega))).trans (W1_arg m ρ c b hb)
theorem W22_arg (hb : IsArg b) : W22 m ρ c (Proc.devRef .tc b) = m ((c : Thread nD τ).loc b) :=
  (from1_22 m ρ c b (hb.off (by omega))).trans (W1_arg m ρ c b hb)
theorem W24_arg (hb : IsArg b) : W24 m ρ c (Proc.devRef .tc b) = m ((c : Thread nD τ).loc b) :=
  (from1_24 m ρ c b (hb.off (by omega))).trans (W1_arg m ρ c b hb)
theorem W26_arg (hb : IsArg b) : W26 m ρ c (Proc.devRef .tc b) = m ((c : Thread nD τ).loc b) :=
  (from1_26 m ρ c b (hb.off (by omega))).trans (W1_arg m ρ c b hb)
theorem W28_arg (hb : IsArg b) : W28 m ρ c (Proc.devRef .tc b) = m ((c : Thread nD τ).loc b) :=
  (from1_28 m ρ c b (hb.off (by omega))).trans (W1_arg m ρ c b hb)
end Args
section Named
variable (c : Dev nD)
theorem W2_src : W2 m ρ c (Proc.devRef .tc main_v1) = W1 m ρ c (Proc.devRef .tc main_v1) := from1_2 m ρ c main_v1 (by decide)
theorem W8_src : W8 m ρ c (Proc.devRef .tc main_v1) = W1 m ρ c (Proc.devRef .tc main_v1) := from1_8 m ρ c main_v1 (by decide)
theorem W14_src : W14 m ρ c (Proc.devRef .tc main_v1) = W1 m ρ c (Proc.devRef .tc main_v1) := from1_14 m ρ c main_v1 (by decide)
theorem W20_src : W20 m ρ c (Proc.devRef .tc main_v1) = W1 m ρ c (Proc.devRef .tc main_v1) := from1_20 m ρ c main_v1 (by decide)
theorem W5_x : W5 m ρ c (Proc.devRef .tc main_v4) = W2 m ρ c (Proc.devRef .tc main_v4) :=
  (step5 m ρ c main_v4 (by decide)).trans ((step4 m ρ c main_v4 (by decide)).trans (step3 m ρ c main_v4 (by decide)))
theorem W7_x : W7 m ρ c (Proc.devRef .tc main_v4) = W2 m ρ c (Proc.devRef .tc main_v4) :=
  (step7 m ρ c main_v4 (by decide)).trans ((step6 m ρ c main_v4 (by decide)).trans (W5_x m ρ c))
theorem W11_x : W11 m ρ c (Proc.devRef .tc main_v49) = W8 m ρ c (Proc.devRef .tc main_v49) :=
  (step11 m ρ c main_v49 (by decide)).trans ((step10 m ρ c main_v49 (by decide)).trans (step9 m ρ c main_v49 (by decide)))
theorem W13_x : W13 m ρ c (Proc.devRef .tc main_v49) = W8 m ρ c (Proc.devRef .tc main_v49) :=
  (step13 m ρ c main_v49 (by decide)).trans ((step12 m ρ c main_v49 (by decide)).trans (W11_x m ρ c))
theorem W17_x : W17 m ρ c (Proc.devRef .tc main_v94) = W14 m ρ c (Proc.devRef .tc main_v94) :=
  (step17 m ρ c main_v94 (by decide)).trans ((step16 m ρ c main_v94 (by decide)).trans (step15 m ρ c main_v94 (by decide)))
theorem W19_x : W19 m ρ c (Proc.devRef .tc main_v94) = W14 m ρ c (Proc.devRef .tc main_v94) :=
  (step19 m ρ c main_v94 (by decide)).trans ((step18 m ρ c main_v94 (by decide)).trans (W17_x m ρ c))
theorem W23_x : W23 m ρ c (Proc.devRef .tc main_v139) = W20 m ρ c (Proc.devRef .tc main_v139) :=
  (step23 m ρ c main_v139 (by decide)).trans ((step22 m ρ c main_v139 (by decide)).trans (step21 m ρ c main_v139 (by decide)))
theorem W25_x : W25 m ρ c (Proc.devRef .tc main_v139) = W20 m ρ c (Proc.devRef .tc main_v139) :=
  (step25 m ρ c main_v139 (by decide)).trans ((step24 m ρ c main_v139 (by decide)).trans (W23_x m ρ c))
theorem W27_x : W27 m ρ c (Proc.devRef .tc main_v184) = W26 m ρ c (Proc.devRef .tc main_v184) :=
  step27 m ρ c main_v184 (by decide)
theorem W7_h : W7 m ρ c (Proc.devRef .tc main_v24_0) = W6 m ρ c (Proc.devRef .tc main_v24_0) :=
  step7 m ρ c main_v24_0 (by decide)
theorem W13_h : W13 m ρ c (Proc.devRef .tc main_v69_0) = W12 m ρ c (Proc.devRef .tc main_v69_0) :=
  step13 m ρ c main_v69_0 (by decide)
theorem W19_h : W19 m ρ c (Proc.devRef .tc main_v114_0) = W18 m ρ c (Proc.devRef .tc main_v114_0) :=
  step19 m ρ c main_v114_0 (by decide)
theorem W25_h : W25 m ρ c (Proc.devRef .tc main_v159_0) = W24 m ρ c (Proc.devRef .tc main_v159_0) :=
  step25 m ρ c main_v159_0 (by decide)
end Named
end Cert.KernelIdeal.Carry
-- ==== Proof.KRowBlock.lean ====
import proofs.«426483_j67748814127260_1_alg».proof.Proof.Gen.KernelIdeal.Frame
import proofs.«426483_j67748814127260_1_alg».proof.Proof.Spec
import Idealize.ShloMosaic.Lib.StackMember
import Idealize.ShloMosaic.Lib.ValueLayout

noncomputable section

namespace Cert.KernelIdeal.Values.RowBlock

open Cert.KernelIdeal Cert.KernelIdeal.Gen Cert.KernelIdeal.Facts₀ Idealize.ShloMosaic Idealize.ShloMosaic.ValueIdx
open Idealize.ShloMosaic.TcCoe
open scoped BigOperators

/-- At the extended reals the format changes are the identity: the stored entry is `x + (∑ k, max (h · a + b) 0 · W + d)` on the blocks. -/
theorem pay_apply (h : FVec Ideal S5000x128 .f32) (a b : FVec Ideal S128 .f32) (w : FVec Ideal S128x64 .f32)
    (d : FVec Ideal S64 .f32) (x : FVec Ideal S5000x64 .f32) (p : Fin 5000) (q : Fin 64) :
    k2_pay1 (F := Ideal) h a b w d x (ix2 p q)
      = x (ix2 p q) + ((∑ k : Fin 128, max (h (ix2 p k) * a (ix1 k) + b (ix1 k)) Cert.Spec.z * w (ix2 k q)) + d (ix1 q)) := by
  unfold k2_pay1
  refine congrArg₂ (· + ·) ?_ (congrArg₂ (· + ·) ?_ ?_)
  · exact congrFun (shapeCast_self x _) (ix2 p q)
  · refine ((congrFun (matmul_zero_eq_dotGeneral _ none _ _) _).trans (StackMember.dotGeneral_plain_apply none _ _ p q)).trans
      (Finset.sum_congr rfl fun k _ => ?_)
    refine congrArg₂ (· * ·) (congrArg₂ max (congrArg₂ (· + ·) (congrArg₂ (· * ·) ?_ ?_) ?_) rfl) ?_
    · exact congrFun (shapeCast_self h _) (ix2 p k)
    · rw [broadcastTo_1b_ab_apply, shapeCast_a_1a_apply, shapeCast_self]
    · rw [broadcastTo_1b_ab_apply, shapeCast_a_1a_apply, shapeCast_self]
    · exact congrFun (shapeCast_self w _) (ix2 k q)
  · rw [broadcastTo_1b_ab_apply, shapeCast_a_1a_apply, shapeCast_self]

theorem zero_pair : (![0, 0] : Fin 2 → Nat) = fun _ => 0 := funext fun a => by fin_cases a <;> rfl
theorem zero_single : (![0] : Fin 1 → Nat) = fun _ => 0 := funext fun a => by fin_cases a; rfl

/-- What the body leaves in the output block is its last computed value, the loads being of whole blocks. -/
theorem out_eq (x0 : Vec Ideal S5000x128 .f32) (x1 x2 : Vec Ideal S128 .f32) (x3 : Vec Ideal S128x64 .f32) (x4 : Vec Ideal S64 .f32)
    (x5 : Vec Ideal S5000x64 .f32) : out2_6 x0 x1 x2 x3 x4 x5 = k2_pay1 x0 x1 x2 x3 x4 x5 := by
  unfold out2_6
  rw [View.canon_unit_zero zero_pair]
  simp only [View.ld_unit_zero (S := S5000x128) zero_pair, View.ld_unit_zero (S := S128) zero_single, View.ld_unit_zero (S := S128x64) zero_pair,
    View.ld_unit_zero (S := S64) zero_single, View.ld_unit_zero (S := S5000x64) zero_pair]

/-- `e` places a block of extents `d` at block index `i` of an array. -/
abbrev Places {n : ℕ} {d D : Fin n → ℕ} (e : (⟨n, d⟩ : Shape).Idx → (⟨n, D⟩ : Shape).Idx) (i : Fin n → ℕ) : Prop :=
  ∀ j a, (e j a).val = i a * d a + 1 * (j a).val

/-- An array read through a block of its own shape at block index 0 is the array. -/
theorem read_self {n : ℕ} {d : Fin n → ℕ} {α : Type} (f : (⟨n, d⟩ : Shape).Idx → α) {e : (⟨n, d⟩ : Shape).Idx → (⟨n, d⟩ : Shape).Idx}
    {i : Fin n → ℕ} (he : Places e i) (hi : ∀ a, i a = 0) : (fun y => f (e y)) = f :=
  funext fun y => congrArg f (funext fun a => Fin.ext (by rw [he, hi, Nat.zero_mul, Nat.zero_add, Nat.one_mul]))

/-- The block indices of a grid point's seven windows (output first): the row-blocked ones at block row `T`, the others at block 0. -/
abbrev AtRow (T : ℕ) (io ih : Fin 2 → ℕ) (ia ib : Fin 1 → ℕ) (iw : Fin 2 → ℕ) (id : Fin 1 → ℕ) (ix : Fin 2 → ℕ) : Prop :=
  (io 0 = T ∧ io 1 = 0) ∧ (ih 0 = T ∧ ih 1 = 0) ∧ (∀ a, ia a = 0) ∧ (∀ a, ib a = 0) ∧ (∀ a, iw a = 0) ∧ (∀ a, id a = 0) ∧ ix 0 = T ∧ ix 1 = 0

/-- The block stored at block row `T` is that block of the layer's tail on the whole arrays: `h`, `x` sit at its rows, the rest are whole. -/
theorem tail_block {T : ℕ} {io ih : Fin 2 → ℕ} {ia ib : Fin 1 → ℕ} {iw : Fin 2 → ℕ} {id : Fin 1 → ℕ} {ix : Fin 2 → ℕ}
    (hi : AtRow T io ih ia ib iw id ix)
    (H : FVec Ideal S100000x128 .f32) (A B : FVec Ideal S128 .f32) (W : FVec Ideal S128x64 .f32) (D : FVec Ideal S64 .f32)
    (X : FVec Ideal S100000x64 .f32)
    (eh : S5000x128.Idx → S100000x128.Idx) (ea eb : S128.Idx → S128.Idx) (ew : S128x64.Idx → S128x64.Idx)
    (ed : S64.Idx → S64.Idx) (ex eo : S5000x64.Idx → S100000x64.Idx)
    (hh : Places eh ih) (ha : Places ea ia) (hb : Places eb ib) (hw : Places ew iw) (hd : Places ed id) (hx : Places ex ix)
    (ho : Places eo io) (j : S5000x64.Idx) :
    out2_6 (F := Ideal) (fun y => H (eh y)) (fun y => A (ea y)) (fun y => B (eb y)) (fun y => W (ew y)) (fun y => D (ed y))
      (fun y => X (ex y)) j = Cert.Spec.post H A B W D X (eo j) := by
  obtain ⟨⟨o0, o1⟩, ⟨h0, h1⟩, a0, b0, w0, d0, x0, x1⟩ := hi
  obtain ⟨p, q, rfl⟩ : ∃ p q, j = ix2 p q := ⟨j 0, j 1, eq_ix2 j⟩
  have o0' : (eo (ix2 p q) 0).val = io 0 * 5000 + 1 * p.val := ho _ 0
  have o1' : (eo (ix2 p q) 1).val = io 1 * 64 + 1 * q.val := ho _ 1
  have er : ∀ k : Fin 128, eh (ix2 p k) = ix2 (eo (ix2 p q) 0) k := fun k => Shape.idx_ext₂
    (by have e : (eh (ix2 p k) 0).val = ih 0 * 5000 + 1 * p.val := hh _ 0
        show (eh (ix2 p k) 0).val = (eo (ix2 p q) 0).val
        omega)
    (by have e : (eh (ix2 p k) 1).val = ih 1 * 128 + 1 * k.val := hh _ 1
        show (eh (ix2 p k) 1).val = k.val
        omega)
  have ec : eo (ix2 p q) 1 = q := Fin.ext (by omega)
  have exo : ex (ix2 p q) = eo (ix2 p q) := Shape.idx_ext₂
    (by have e : (ex (ix2 p q) 0).val = ix 0 * 5000 + 1 * p.val := hx _ 0
        show (ex (ix2 p q) 0).val = (eo (ix2 p q) 0).val
        omega)
    (by have e : (ex (ix2 p q) 1).val = ix 1 * 64 + 1 * q.val := hx _ 1
        show (ex (ix2 p q) 1).val = (eo (ix2 p q) 1).val
        omega)
  rw [read_self A ha a0, read_self B hb b0, read_self W hw w0, read_self D hd d0, out_eq, pay_apply]
  show X (ex (ix2 p q)) + ((∑ k : Fin 128, max (H (eh (ix2 p k)) * A (ix1 k) + B (ix1 k)) Cert.Spec.z * W (ix2 k q)) + D (ix1 q))
    = X (eo (ix2 p q)) + ((∑ k : Fin 128, max (H (ix2 (eo (ix2 p q) 0) k) * A (ix1 k) + B (ix1 k)) Cert.Spec.z
        * W (ix2 k (eo (ix2 p q) 1))) + D (ix1 (eo (ix2 p q) 1)))
  simp only [er, ec, exo]
  rfl

/-- Row `r` of the output lies in block row `r / 5000`. -/
theorem row_cover {N : ℕ} (hN : N = 20) {io : Fin N → Fin 2 → ℕ} (h : ∀ t, io t 0 = t.val ∧ io t 1 = 0) (i : S100000x64.Idx) :
    ∃ t : Fin N, ∀ a, io t a * S5000x64.size a ≤ (i a).val ∧ (i a).val < io t a * S5000x64.size a + S5000x64.size a := by
  subst hN
  have hi0 : (i 0).val < 100000 := (i 0).isLt
  have hi1 : (i 1).val < 64 := (i 1).isLt
  obtain ⟨t, ht⟩ : ∃ t : Fin 20, t.val = (i 0).val / 5000 := ⟨⟨(i 0).val / 5000, by omega⟩, rfl⟩
  obtain ⟨e0, e1⟩ := h t
  refine ⟨t, fun a => ?_⟩
  match a with
  | ⟨0, _⟩ => show io t 0 * 5000 ≤ (i 0).val ∧ (i 0).val < io t 0 * 5000 + 5000; omega
  | ⟨1, _⟩ => show io t 1 * 64 ≤ (i 1).val ∧ (i 1).val < io t 1 * 64 + 64; omega

end Cert.KernelIdeal.Values.RowBlock
end
-- ==== Proof.KProj.lean ====
import proofs.«426483_j67748814127260_1_alg».proof.Proof.KRowBlock

noncomputable section

namespace Cert.KernelIdeal.Values.R0

open Cert.KernelIdeal Cert.KernelIdeal.Gen Cert.KernelIdeal.Facts₀ Cert.KernelIdeal.Values.RowBlock Idealize.ShloMosaic
open Idealize.ShloMosaic.ValueIdx Idealize.ShloMosaic.TcCoe
open scoped BigOperators

/-- At the extended reals the format changes are the identity: the stored entry is `∑ k, x · w + b` on the blocks. -/
theorem pay_at (x : FVec Ideal S5000x32 .f32) (w : FVec Ideal S32x64 .f32) (b : FVec Ideal S64 .f32) (p : Fin 5000) (q : Fin 64) :
    k0_pay1 (F := Ideal) x w b (ix2 p q) = (∑ k : Fin 32, x (ix2 p k) * w (ix2 k q)) + b (ix1 q) := by
  unfold k0_pay1
  exact congrArg₂ (· + ·) ((congrFun (matmul_zero_eq_dotGeneral _ none _ _) _).trans (StackMember.dotGeneral_plain_apply none _ _ p q))
    ((broadcastTo_1b_ab_apply _ _ p q).trans (shapeCast_a_1a_apply b _ 0 q))

/-- The block indices of a grid point's four windows (output first): the row-blocked ones at block row `T`, the others at block 0. -/
abbrev AtRow (T : ℕ) (io ix iw : Fin 2 → ℕ) (ib : Fin 1 → ℕ) : Prop :=
  (io 0 = T ∧ io 1 = 0) ∧ (ix 0 = T ∧ ix 1 = 0) ∧ (∀ a, iw a = 0) ∧ ∀ a, ib a = 0

/-- The block stored at block row `T` is that block of the projection of the whole arrays: `x` sits at its rows, `w` and `b` are whole. -/
theorem proj_block {T : ℕ} {io ix iw : Fin 2 → ℕ} {ib : Fin 1 → ℕ} (hi : AtRow T io ix iw ib)
    (X : FVec Ideal S100000x32 .f32) (W : FVec Ideal S32x64 .f32) (B : FVec Ideal S64 .f32)
    (ex : S5000x32.Idx → S100000x32.Idx) (ew : S32x64.Idx → S32x64.Idx) (eb : S64.Idx → S64.Idx) (eo : S5000x64.Idx → S100000x64.Idx)
    (hx : Places ex ix) (hw : Places ew iw) (hb : Places eb ib) (ho : Places eo io) (j : S5000x64.Idx) :
    out0_3 (F := Ideal) (fun y => X (ex y)) (fun y => W (ew y)) (fun y => B (eb y)) j = Cert.Spec.proj X W B (eo j) := by
  obtain ⟨⟨o0, o1⟩, ⟨x0, x1⟩, w0, b0⟩ := hi
  obtain ⟨p, q, rfl⟩ : ∃ p q, j = ix2 p q := ⟨j 0, j 1, eq_ix2 j⟩
  have o0' : (eo (ix2 p q) 0).val = io 0 * 5000 + 1 * p.val := ho _ 0
  have o1' : (eo (ix2 p q) 1).val = io 1 * 64 + 1 * q.val := ho _ 1
  have er : ∀ k : Fin 32, ex (ix2 p k) = ix2 (eo (ix2 p q) 0) k := fun k => Shape.idx_ext₂
    (by have e : (ex (ix2 p k) 0).val = ix 0 * 5000 + 1 * p.val := hx _ 0
        show (ex (ix2 p k) 0).val = (eo (ix2 p q) 0).val
        omega)
    (by have e : (ex (ix2 p k) 1).val = ix 1 * 32 + 1 * k.val := hx _ 1
        show (ex (ix2 p k) 1).val = k.val
        omega)
  have ec : eo (ix2 p q) 1 = q := Fin.ext (by omega)
  rw [read_self W hw w0, read_self B hb b0]
  unfold out0_3
  rw [View.canon_unit_zero zero_pair]
  simp only [View.ld_unit_zero (S := S5000x32) zero_pair, View.ld_unit_zero (S := S32x64) zero_pair, View.ld_unit_zero (S := S64) zero_single]
  rw [pay_at]
  show (∑ k : Fin 32, X (ex (ix2 p k)) * W (ix2 k q)) + B (ix1 q)
    = (∑ k : Fin 32, X (ix2 (eo (ix2 p q) 0) k) * W (ix2 k (eo (ix2 p q) 1))) + B (ix1 (eo (ix2 p q) 1))
  simp only [er, ec]
  rfl

variable (V : (c : Dev nD) → (b : Ref sig .tc) → Buf (Elt Ideal) ((c : Thread nD τ).loc b))

theorem idx_facts : ∀ t : Fin cfg0.N, AtRow t.val (win0_3.index t) (win0_0.index t) (win0_1.index t) (win0_2.index t) :=
  (by decide +kernel : ∀ t : Fin grid0.N, _)

/-- The 20 row blocks cover the result array, and each is stored as that block of the projection of the arrays the region finds. -/
theorem proj_out (c : Dev nD) :
    (dat0 (F := Ideal) V c).arrAt 3 cfg0.N = Cert.Spec.proj (V c main_arg0) (V c main_arg3) (V c main_arg4) :=
  (dat0 (F := Ideal) V c).arrAt_eq_of_cover 3 _
    (fun t _ => by
      show (cfg0.win 3).cut (grid0.coords t) ((dat0 (F := Ideal) V c).after 3 t) = _
      rw [after0_3]
      exact funext fun j => proj_block (idx_facts t) (V c main_arg0) (V c main_arg3) (V c main_arg4) (win0_0.rect t).emb
        (win0_1.rect t).emb (win0_2.rect t).emb (win0_3.rect t).emb (fun _ _ => rfl) (fun _ _ => rfl) (fun _ _ => rfl) (fun _ _ => rfl) j)
    fun i => (row_cover (N := cfg0.N) N_0 (io := win0_3.index) (fun t => (idx_facts t).1) i).imp fun t h => ⟨flush0_3 t, by
      show i ∈ ((View.whole main_v4).slice (win0_3.rect t)).set
      rw [View.set_slice_whole, Rect.mem_set_unit]
      exact h⟩

end Cert.KernelIdeal.Values.R0
end
-- ==== Proof.KPool.lean ====
import proofs.«426483_j67748814127260_1_alg».proof.Proof.KRowBlock
import Idealize.ShloMosaic.Lib.Tactic
import Mathlib.Algebra.BigOperators.Fin
import Mathlib.Logic.Equiv.Fin.Basic

noncomputable section

namespace Cert.KernelIdeal.Values.R9

open Cert.KernelIdeal Cert.KernelIdeal.Gen Cert.KernelIdeal.Facts₀ Cert.KernelIdeal.Values.RowBlock Idealize.ShloMosaic
open Idealize.ShloMosaic.ValueIdx Idealize.ShloMosaic.TcCoe

/-- The product contracting the rows of both operands, into the zero block: entry `(g, j)` is `∑ p, L p g * R p j`. -/
theorem dot_apply (L R : FVec Ideal S5000x64 .bf16) (g j : Fin 64) :
    matmul dot_S5000x64_S5000x64_S64x64_0_0_1_1_n_n none L R (constant (F := Ideal) S64x64 .f32 0x00000000#32) (ix2 g j)
      = ∑ p : Fin 5000, L (ix2 p g) * R (ix2 p j) := by
  refine (Ideal.matmul_constant_zero_apply _ none L R _).trans ?_
  rw [← Equiv.sum_comp (contrEquiv1 dot_S5000x64_S5000x64_S64x64_0_0_1_1_n_n 5000 rfl rfl).symm]
  refine Finset.sum_congr rfl fun p _ => ?_
  have cv := contrEquiv1_symm_val dot_S5000x64_S5000x64_S64x64_0_0_1_1_n_n 5000 rfl rfl p
  rw [show dot_S5000x64_S5000x64_S64x64_0_0_1_1_n_n.lhsIdx (ix2 g j) ((contrEquiv1 _ 5000 rfl rfl).symm p) = ix2 p g from
      Shape.idx_ext₂ ((dot_S5000x64_S5000x64_S64x64_0_0_1_1_n_n.lhsIdx_val_of_single (cl := 0) rfl _ _).trans cv) (by simp [DotDims.lhsIdx, dot_S5000x64_S5000x64_S64x64_0_0_1_1_n_n]; rfl),
    show dot_S5000x64_S5000x64_S64x64_0_0_1_1_n_n.rhsIdx (ix2 g j) ((contrEquiv1 _ 5000 rfl rfl).symm p) = ix2 p j from
      Shape.idx_ext₂ ((dot_S5000x64_S5000x64_S64x64_0_0_1_1_n_n.rhsIdx_val_of_single (cr := 0) rfl _ _).trans cv) (by simp [DotDims.rhsIdx, dot_S5000x64_S5000x64_S64x64_0_0_1_1_n_n]; rfl)]

/-- "A row whose graph id is the word `w` belongs to graph `g`": the comparison's bit, widened, as a float. -/
abbrev hot (w : BitVec 32) (g : Fin 64) : EReal :=
  FloatOps.sitofp (F := Ideal) .f32 ((IntOp.cmpi .eq w (BitVec.ofNat 32 g.val)).setWidth 32)

/-- The body's update at an index: what was there, plus the block's rows added up graph by graph. -/
theorem pay2_apply (b : Vec Ideal S5000x1 .i32) (x : Vec Ideal S5000x64 .f32) (acc : Vec Ideal S64x64 .f32)
    (g j : Fin 64) :
    k9_pay2 (F := Ideal) b x acc (ix2 g j) = acc (ix2 g j) + ∑ p : Fin 5000, hot (b (ix2 p 0)) g * x (ix2 p j) := by
  unfold k9_pay2
  refine (addf_apply _ _ (ix2 g j)).trans ?_
  refine congr (congrArg HAdd.hAdd ?_) ?_
  · exact congrFun (shapeCast_self acc _) (ix2 g j)
  · refine (dot_apply _ _ g j).trans ?_
    refine Finset.sum_congr rfl fun p _ => ?_
    refine congr (congrArg HMul.hMul ?_) ?_
    · show FloatOps.sitofp (F := Ideal) .f32 ((IntOp.cmpi .eq (broadcastTo S5000x64 (shapeCast S5000x1 b _) _ (ix2 p g)) (iota .tc S5000x64 32 [1] _ (ix2 p g))).setWidth 32) = _
      rw [iota_single_apply, broadcastTo_apply _ _ (ix2 p g) (ix2 p 0) (by intro a; match a with | ⟨0, _⟩ => rfl | ⟨1, _⟩ => rfl), shapeCast_self]
    · exact congrFun (shapeCast_self x _) (ix2 p j)

theorem pay1_apply (i : S64x64.Idx) : k9_pay1 (F := Ideal) i = 0 := Ideal.ofBits_zero_f32

section Pieces

variable {F : FTy → Type} [FloatOps F] (c : Dev nD) (i : grid9.Coords) (a1 : Memref sig .tc .vmem S5000x64 .f32) (h1 : a1.IsWhole)
  (a2 : Memref sig .tc .vmem S5000x1 .i32) (h2 : a2.IsWhole) (a3 : Memref sig .tc .vmem S64x64 .f32) (h3 : a3.IsWhole)
  (x0 : Vec F S5000x64 .f32) (x1 : Vec F S5000x1 .i32)

/-- At a later point the body leaves, over what the point before left, the update of it by the point's two blocks. -/
theorem out_B (hc : ¬cond9_0 i) (xo : Vec F S64x64 .f32) : out9_B_2 c i a1 h1 a2 h2 a3 h3 hc x0 x1 xo = k9_pay2 x1 x0 xo := by
  unfold out9_B_2
  rw [View.read_writes_eq_canon _ _ _ (cover9_B_2 c i a1 h1 a2 h2 a3 h3 hc x0 x1 xo)]
  unfold kernelRun9_B
  dsimp only
  sl_unfold_words
  rw [View.canon_unit_zero zero_pair]
  simp only [View.readAt_eq_ld, h1.read_unread, h2.read_unread, h3.read_unread, View.ld_unit_zero (S := S5000x64) zero_pair,
    View.ld_unit_zero (S := S5000x1) zero_pair, View.ld_unit_zero (S := S64x64) zero_pair]

/-- At the first point the body leaves the update of the zero block by the point's two blocks. -/
theorem out_A (hc : cond9_0 i) : out9_A_2 c i a1 h1 a2 h2 a3 h3 hc x0 x1 = k9_pay2 x1 x0 (k9_pay1 (F := F)) := by
  unfold out9_A_2
  rw [View.read_writes_eq_canon _ _ _ (cover9_A_2 c i a1 h1 a2 h2 a3 h3 hc x0 x1)]
  unfold kernelRun9_A
  dsimp only
  sl_unfold_words
  rw [View.canon_cons_unit_zero (S := S64x64) zero_pair, View.readCov_unit_zero (S := S64x64) _ zero_pair]
  simp only [View.readAt_eq_ld, h1.read_unread, h2.read_unread, View.ld_unit_zero (S := S5000x64) zero_pair,
    View.ld_unit_zero (S := S5000x1) zero_pair]

end Pieces

variable (V : (c : Dev nD) → (b : Ref sig .tc) → Buf (Elt Ideal) ((c : Thread nD τ).loc b))

abbrev xarr (c : Dev nD) : FVec Ideal S100000x64 .f32 := V c main_v184
abbrev barr (c : Dev nD) : IVec S100000x1 32 := V c main_v185

theorem idx_facts : ∀ t : Fin cfg9.N, win9_0.index t 0 = t.val ∧ win9_0.index t 1 = 0 ∧ win9_1.index t 0 = t.val ∧ win9_1.index t 1 = 0 :=
  (by decide +kernel : ∀ t : Fin grid9.N, _)

/-- Entry `(p, q)` of a block of 5000 rows placed at block row `T` sits at row `5000 T + p` of the array. -/
theorem row_at {m : ℕ} {e : (⟨2, ![5000, m]⟩ : Shape).Idx → (⟨2, ![100000, m]⟩ : Shape).Idx} {i : Fin 2 → ℕ} {T : ℕ} (he : Places e i)
    (h0 : i 0 = T) (h1 : i 1 = 0) (hT : T < 20) (p : Fin 5000) (q : Fin m) :
    e (ix2 p q) = ix2 (⟨5000 * T + p.val, by have := p.isLt; omega⟩ : Fin 100000) q :=
  Shape.idx_ext₂
    (by have e0 : (e (ix2 p q) 0).val = i 0 * 5000 + 1 * p.val := he _ 0
        show (e (ix2 p q) 0).val = 5000 * T + p.val
        omega)
    (by have e1 : (e (ix2 p q) 1).val = i 1 * m + 1 * q.val := he _ 1
        rw [h1, Nat.zero_mul] at e1
        show (e (ix2 p q) 1).val = q.val
        omega)

/-- What point `s` adds at entry `(g, j)`: the rows `5000 s … 5000 s + 4999` of graph `g`, column `j`, added up. -/
def addend (c : Dev nD) (s : ℕ) (g j : Fin 64) : EReal :=
  if h : s < 20 then
    ∑ p : Fin 5000, hot (barr V c (ix2 (⟨5000 * s + p.val, by have := p.isLt; omega⟩ : Fin 100000) 0)) g
      * xarr V c (ix2 (⟨5000 * s + p.val, by have := p.isLt; omega⟩ : Fin 100000) j)
  else 0

theorem point_sum (c : Dev nD) (t : Fin cfg9.N) (g j : Fin 64) :
    ∑ p : Fin 5000, hot (iblk9 (F := Ideal) V c 1 t (ix2 p 0)) g * iblk9 (F := Ideal) V c 0 t (ix2 p j) = addend V c t.val g j := by
  obtain ⟨x0, x1, b0, b1⟩ := idx_facts t
  have hN : t.val < 20 := lt_of_lt_of_eq t.isLt N_9
  unfold addend
  rw [dif_pos hN]
  exact Finset.sum_congr rfl fun p _ => congrArg₂ (fun a b => hot (V c main_v185 a) g * V c main_v184 b)
    (row_at (m := 1) (e := (win9_1.rect t).emb) (fun _ _ => rfl) b0 b1 hN p 0)
    (row_at (m := 64) (e := (win9_0.rect t).emb) (fun _ _ => rfl) x0 x1 hN p j)

/-- After point `n` the output's buffer holds, at every entry, the addends of points `0 … n` added up. -/
theorem outsAt_apply (c : Dev nD) (g j : Fin 64) : ∀ (n : ℕ) (h : n < cfg9.N),
    outsAt9 (F := Ideal) V c n h (ix2 g j) = ∑ s ∈ Finset.range (n + 1), addend V c s g j
  | 0, h => by
    refine ((congrFun ((outsAt9_A V c ⟨0, h⟩ (Nat.zero_mod 20)).trans (out_A _ _ _ _ _ _ _ _ _ _ _)) (ix2 g j)).trans
      (pay2_apply _ _ _ g j)).trans ?_
    rw [Finset.sum_range_one, point_sum V c ⟨0, h⟩ g j, pay1_apply, zero_add]
  | n + 1, h => by
    have hN : cfg9.N = 20 := N_9
    refine ((congrFun ((outsAt9_B V c ⟨n + 1, h⟩ (by dsimp only; omega)).trans (out_B _ _ _ _ _ _ _ _ _ _ _ _)) (ix2 g j)).trans
      (pay2_apply _ _ _ g j)).trans ?_
    rw [Finset.sum_range_succ _ (n + 1), point_sum V c ⟨n + 1, h⟩ g j]
    exact congrArg (· + addend V c (n + 1) g j) (outsAt_apply c g j n (Nat.lt_of_succ_lt h))

/-- The twenty addends added up are the sum over all the rows. -/
theorem total (c : Dev nD) (g j : Fin 64) :
    ∑ s ∈ Finset.range 20, addend V c s g j = ∑ n : Fin 100000, hot (barr V c (ix2 n 0)) g * xarr V c (ix2 n j) := by
  rw [Finset.sum_range, ← Equiv.sum_comp (finProdFinEquiv (m := 20) (n := 5000)) (fun n : Fin 100000 => hot (barr V c (ix2 n 0)) g * xarr V c (ix2 n j)),
    Fintype.sum_prod_type]
  refine Finset.sum_congr rfl fun s _ => ?_
  unfold addend
  rw [dif_pos s.isLt]
  refine Finset.sum_congr rfl fun p _ => ?_
  rw [show (⟨5000 * s.val + p.val, by have := p.isLt; have := s.isLt; omega⟩ : Fin 100000) = finProdFinEquiv (s, p) from
    Fin.ext (Nat.add_comm _ _)]

abbrev tLast : Fin cfg9.N := ⟨19, by have h : cfg9.N = 20 := N_9; omega⟩

/-- The output's one block is its whole array. -/
theorem whole_blk : (fun a => win9_2.index tLast a * main_v186.ty.shape.size a) = fun _ => 0 :=
  funext fun a => by fin_cases a <;> decide +kernel

/-- The one write-back, after the last point, writes the pooled array, and the block it writes is the whole output array. -/
theorem pool_out (c : Dev nD) :
    (dat9 (F := Ideal) V c).arrAt 2 cfg9.N = Cert.Spec.poolIndicator (V c main_v184) (V c main_v185) :=
  (dat9 (F := Ideal) V c).arrAt_eq_of_cover 2 _
    (fun t hf => by
      have hN : cfg9.N = 20 := N_9
      obtain rfl : t = tLast := Fin.ext (by have := (flush9_2 t).mp hf; have := t.isLt; show t.val = 19; omega)
      show (cfg9.win 2).cut (grid9.coords tLast) ((dat9 (F := Ideal) V c).after 2 tLast) = _
      rw [after9_2, show outsAt9 (F := Ideal) V c tLast.val tLast.isLt = Cert.Spec.poolIndicator (V c main_v184) (V c main_v185) from funext fun i => by
        obtain ⟨g, j, rfl⟩ : ∃ (g j : Fin 64), i = ix2 g j := ⟨i 0, i 1, eq_ix2 i⟩
        exact (outsAt_apply V c g j 19 tLast.isLt).trans (total V c g j)]
      exact (Memref.read_access_unit_zero (Elt Ideal) main_v186 whole_blk (fun a => by rw [congrFun whole_blk a]; simp) _).symm)
    fun i => ⟨tLast, (flush9_2 tLast).mpr rfl, by
      show i ∈ ((View.whole main_v186).slice (win9_2.rect tLast)).set
      rw [View.set_slice_whole]
      exact View.mem_set_unit_zero whole_blk _ i⟩

end Cert.KernelIdeal.Values.R9
end
-- ==== Proof.KTail.lean ====
import proofs.«426483_j67748814127260_1_alg».proof.Proof.Gen.KernelIdeal.Frame
import proofs.«426483_j67748814127260_1_alg».proof.Proof.Spec
import proofs.«426483_j67748814127260_1_alg».proof.Proof.KCarry
import proofs.«426483_j67748814127260_1_alg».proof.Proof.KProj
import proofs.«426483_j67748814127260_1_alg».proof.Proof.KPool
import Idealize.ShloMosaic.Lib.StableHlo.Run

noncomputable section

namespace Cert.KernelIdeal.Layers.Ends
open Cert.KernelIdeal Cert.KernelIdeal.Gen Cert.KernelIdeal.Facts₀ Idealize.ShloMosaic Idealize.ShloMosaic.ValueIdx
open Idealize.ShloMosaic.TcCoe
open Idealize.ShloMosaic.StableHlo (after_cons after_nil)

variable (m : (ℓ : Loc nD τ sig) → Buf (Elt Ideal) ℓ) (ρ : Dev nD → PrngReg)

local macro "is_arg" : tactic => `(tactic| exact ⟨rfl, by decide⟩)
private theorem isArg0 : Carry.IsArg main_arg0 := by is_arg
private theorem isArg2 : Carry.IsArg main_arg2 := by is_arg
private theorem isArg3 : Carry.IsArg main_arg3 := by is_arg
private theorem isArg4 : Carry.IsArg main_arg4 := by is_arg
private theorem isArg12 : Carry.IsArg main_arg12 := by is_arg
private theorem isArg13 : Carry.IsArg main_arg13 := by is_arg

theorem proj_val (c : Dev nD) :
    W2 (F := Ideal) m ρ c (Proc.devRef .tc main_v4)
      = Cert.Spec.proj (m ((c : Thread nD τ).loc main_arg0)) (m ((c : Thread nD τ).loc main_arg3)) (m ((c : Thread nD τ).loc main_arg4)) := by
  have h0 : V1 (F := Ideal) m ρ c main_arg0 = m ((c : Thread nD τ).loc main_arg0) := Carry.W1_arg m ρ c main_arg0 isArg0
  have h3 : V1 (F := Ideal) m ρ c main_arg3 = m ((c : Thread nD τ).loc main_arg3) := Carry.W1_arg m ρ c main_arg3 isArg3
  have h4 : V1 (F := Ideal) m ρ c main_arg4 = m ((c : Thread nD τ).loc main_arg4) := Carry.W1_arg m ρ c main_arg4 isArg4
  refine (W2_arr (F := Ideal) m ρ c 3).trans ?_
  refine (Values.R0.proj_out (V := V1 (F := Ideal) m ρ) c).trans ?_
  rw [h0, h3, h4]

theorem batch_col (c : Dev nD) :
    W27 (F := Ideal) m ρ c (Proc.devRef .tc main_v185)
      = shapeCast S100000x1 (W26 (F := Ideal) m ρ c (Proc.devRef .tc main_arg2)) Facts₀.shapeCasts_S100000_S100000x1 := by
  show StableHlo.after hostOps9 (W26 (F := Ideal) m ρ c) (Proc.devRef .tc main_v185) = _
  after_results
  rfl

theorem pool_val (c : Dev nD) :
    W28 (F := Ideal) m ρ c (Proc.devRef .tc main_v186)
      = Cert.Spec.poolIndicator (W26 (F := Ideal) m ρ c (Proc.devRef .tc main_v184))
          (shapeCast S100000x1 (m ((c : Thread nD τ).loc main_arg2)) Facts₀.shapeCasts_S100000_S100000x1) := by
  have hx : V27 (F := Ideal) m ρ c main_v184 = W26 (F := Ideal) m ρ c (Proc.devRef .tc main_v184) := Carry.W27_x m ρ c
  have hb : V27 (F := Ideal) m ρ c main_v185
      = shapeCast S100000x1 (m ((c : Thread nD τ).loc main_arg2)) Facts₀.shapeCasts_S100000_S100000x1 :=
    (batch_col m ρ c).trans (congrArg (fun a => shapeCast S100000x1 a Facts₀.shapeCasts_S100000_S100000x1)
      (Carry.W26_arg m ρ c main_arg2 isArg2))
  refine (W28_arr (F := Ideal) m ρ c 2).trans ?_
  refine (Values.R9.pool_out (V := V27 (F := Ideal) m ρ) c).trans ?_
  rw [hx, hb]

theorem head_fold (c : Dev nD) :
    W29 (F := Ideal) m ρ c (Proc.devRef .tc main_v191)
      = Cert.Spec.headOf (W28 (F := Ideal) m ρ c (Proc.devRef .tc main_v186))
          (W28 (F := Ideal) m ρ c (Proc.devRef .tc main_arg12)) (W28 (F := Ideal) m ρ c (Proc.devRef .tc main_arg13)) := by
  show StableHlo.after hostOps10 (W28 (F := Ideal) m ρ c) (Proc.devRef .tc main_v191) = _
  after_results
  rfl

theorem head_val (c : Dev nD) :
    W29 (F := Ideal) m ρ c (Proc.devRef .tc main_v191)
      = Cert.Spec.headOf (W28 (F := Ideal) m ρ c (Proc.devRef .tc main_v186))
          (m ((c : Thread nD τ).loc main_arg12)) (m ((c : Thread nD τ).loc main_arg13)) := by
  rw [head_fold, Carry.W28_arg m ρ c main_arg12 isArg12, Carry.W28_arg m ρ c main_arg13 isArg13]

end Cert.KernelIdeal.Layers.Ends

end
-- ==== Proof.KEdges.lean ====
import proofs.«426483_j67748814127260_1_alg».proof.Proof.Gen.KernelIdeal.Frame
import Idealize.ShloMosaic.Lib.StableHlo.Run
import Idealize.ShloMosaic.Lib.ValueIdx
set_option maxRecDepth 16384

noncomputable section

namespace Cert.KernelIdeal.Layers.Edges
open Cert.KernelIdeal Cert.KernelIdeal.Gen Cert.KernelIdeal.Facts₀ Idealize.ShloMosaic Idealize.ShloMosaic.ValueIdx
open Idealize.ShloMosaic.TcCoe

section Stretch

variable (X : Valuation τ sig (Elt Ideal))

theorem ops0_src : (StableHlo.after hostOps0 X (Proc.devRef .tc main_v1) : IVec S1600000 32) =
    shapeCast S1600000 (extractStridedSlice S1x1600000 ![0, 0] (X (Proc.devRef .tc main_arg1)) Facts₀.slices_S2x1600000_S1x1600000_0_0) Facts₀.shapeCasts_S1x1600000_S1600000 := by
  after_results
  try rfl

theorem ops0_dst : (StableHlo.after hostOps0 X (Proc.devRef .tc main_v3) : IVec S1600000 32) =
    shapeCast S1600000 (extractStridedSlice S1x1600000 ![1, 0] (X (Proc.devRef .tc main_arg1)) Facts₀.slices_S2x1600000_S1x1600000_1_0) Facts₀.shapeCasts_S1x1600000_S1600000 := by
  after_results
  try rfl

end Stretch

variable (m : (ℓ : Loc nD τ sig) → Buf (Elt Ideal) ℓ) (ρ : Dev nD → PrngReg)

theorem edge_src (c : Dev nD) : (W1 (F := Ideal) m ρ c (Proc.devRef .tc main_v1) : IVec S1600000 32) =
    shapeCast S1600000 (extractStridedSlice S1x1600000 ![0, 0] (m ((c : Thread nD τ).loc main_arg1)) Facts₀.slices_S2x1600000_S1x1600000_0_0) Facts₀.shapeCasts_S1x1600000_S1600000 :=
  ops0_src (W0 (F := Ideal) m ρ c)

theorem edge_dst (c : Dev nD) : (W1 (F := Ideal) m ρ c (Proc.devRef .tc main_v3) : IVec S1600000 32) =
    shapeCast S1600000 (extractStridedSlice S1x1600000 ![1, 0] (m ((c : Thread nD τ).loc main_arg1)) Facts₀.slices_S2x1600000_S1x1600000_1_0) Facts₀.shapeCasts_S1x1600000_S1600000 :=
  ops0_dst (W0 (F := Ideal) m ρ c)

end Cert.KernelIdeal.Layers.Edges

end
-- ==== Proof.KStage1Lib.lean ====
import proofs.«426483_j67748814127260_1_alg».proof.Proof.KRowBlock
import Idealize.ShloMosaic.Lib.Pipeline.Value
import Idealize.ShloMosaic.Lib.ValueIdx
import Idealize.ShloMosaic.Lib.ValueLayout
import Idealize.ShloMosaic.Lib.WritesUnit
import Idealize.ShloMosaic.PureOps.Ideal.Laws
import Idealize.ShloMosaic.Lib.Tactic
import Mathlib.Algebra.BigOperators.Fin
import Mathlib.Data.Fintype.BigOperators
import Mathlib.Logic.Equiv.Fin.Basic

noncomputable section

namespace Cert.KernelIdeal.Values.S1

open Cert.KernelIdeal Cert.KernelIdeal.Gen Idealize.ShloMosaic Idealize.ShloMosaic.ValueIdx
open Idealize.ShloMosaic.TcCoe Idealize.SL.Sem
open Cert.KernelIdeal.Values.RowBlock

theorem extract00 (x3 : Vec Ideal S1x1 .f32) : extractAt ![0, 0] x3 Gen.inpos_S1x1_p0_0 = x3 (ix2 (0 : Fin 1) (0 : Fin 1)) := by
  unfold extractAt
  congr 1
  funext a
  apply Fin.ext
  match a with
  | ⟨0, _⟩ => rfl
  | ⟨1, _⟩ => rfl

/-- A sum over the 5000 rows of a block, column by column. -/
theorem colred_apply (src : FVec Ideal S5000x128 .f32) (hφ : FKind.Formats .f32)
    (hacc : (0x00000000#32 : BitVec 32) = FKind.add.neutral .f32 hφ) (q : Fin 128) :
    multiReduction .add [0] S128 src 0x00000000#32 Gen.reduces_S5000x128_S128 hφ hacc (ix1 q) = ∑ p : Fin 5000, src (ix2 p q) :=
  (Ideal.multiReduction_add_single src 0x00000000#32 Gen.reduces_S5000x128_S128 hφ hacc (ix1 q)).trans
    (Finset.sum_congr rfl fun p _ => congrArg src (funext fun a => Fin.ext (by
      match a with
      | ⟨0, _⟩ => rfl
      | ⟨1, _⟩ => rfl)))

/-- The block product into a zero accumulator: entry `(p, q)` is the sum over the 64 contracted coordinates. -/
theorem mm_apply (l : FVec Ideal S5000x64 .bf16) (r : FVec Ideal S64x128 .bf16) (p : Fin 5000) (q : Fin 128) :
    matmul dot_S5000x64_S64x128_S5000x128_1_0_0_1_n_n none l r (constant (F := Ideal) S5000x128 .f32 0x00000000#32) (ix2 p q)
      = ∑ k : Fin 64, l (ix2 p k) * r (ix2 k q) :=
  (congrFun (matmul_zero_eq_dotGeneral _ none l r) (ix2 p q)).trans (StackMember.dotGeneral_plain_apply none l r p q)
/-- The pre-activation block at `(p, q)`: row `p` of the mixed features `c · x + agg` against column `q` of the weights, plus the bias. -/
theorem pay4_apply (x3 : Vec Ideal S1x1 .f32) (x5 x9 : Vec Ideal S5000x64 .f32) (x13 : Vec Ideal S64x128 .f32)
    (x17 : Vec Ideal S128 .f32) (p : Fin 5000) (q : Fin 128) :
    k1_pay4 (F := Ideal) x3 x5 x9 x13 x17 (ix2 p q)
      = (∑ k : Fin 64, (x3 (ix2 (0 : Fin 1) (0 : Fin 1)) * x5 (ix2 p k) + x9 (ix2 p k)) * x13 (ix2 k q)) + x17 (ix1 q) := by
  unfold k1_pay4
  refine (addf_apply _ _ _).trans ?_
  refine congrArg₂ (· + ·) ?_ ?_
  · refine (mm_apply _ _ p q).trans ?_
    refine Finset.sum_congr rfl fun k _ => ?_
    show (extractAt ![0, 0] x3 Gen.inpos_S1x1_p0_0 * shapeCast S5000x64 x5 Gen.shapeCasts_S5000x64_S5000x64 (ix2 p k)
        + shapeCast S5000x64 x9 Gen.shapeCasts_S5000x64_S5000x64 (ix2 p k))
      * shapeCast S64x128 x13 Gen.shapeCasts_S64x128_S64x128 (ix2 k q) = _
    rw [extract00, shapeCast_self, shapeCast_self, shapeCast_self]
  · refine (broadcastTo_1b_ab_apply _ _ p q).trans ?_
    refine (shapeCast_a_1a_apply _ _ 0 q).trans ?_
    exact congrFun (shapeCast_self x17 _) _
/-- Row 0 of the running column sums after a point: what it held plus the block's column sums. -/
theorem pay6_apply (x3 : Vec Ideal S1x1 .f32) (x5 x9 : Vec Ideal S5000x64 .f32) (x13 : Vec Ideal S64x128 .f32)
    (x17 : Vec Ideal S128 .f32) (v28 : Vec Ideal S1x128 .f32) (q : Fin 128) :
    k1_pay6 (F := Ideal) x3 x5 x9 x13 x17 v28 (ix2 (0 : Fin 1) q)
      = v28 (ix2 (0 : Fin 1) q) + ∑ p : Fin 5000, k1_pay4 (F := Ideal) x3 x5 x9 x13 x17 (ix2 p q) := by
  unfold k1_pay6
  refine (addf_apply _ _ _).trans ?_
  refine congrArg₂ (· + ·) ?_ ?_
  · exact congrFun (shapeCast_self v28 _) _
  · refine (shapeCast_a_1a_apply _ _ 0 q).trans ?_
    exact colred_apply _ _ _ q
/-- Row 0 of the block's column sums of squares. -/
theorem pay5_apply (x3 : Vec Ideal S1x1 .f32) (x5 x9 : Vec Ideal S5000x64 .f32) (x13 : Vec Ideal S64x128 .f32)
    (x17 : Vec Ideal S128 .f32) (q : Fin 128) :
    k1_pay5 (F := Ideal) x3 x5 x9 x13 x17 (ix2 (0 : Fin 1) q)
      = ∑ p : Fin 5000, k1_pay4 (F := Ideal) x3 x5 x9 x13 x17 (ix2 p q) * k1_pay4 (F := Ideal) x3 x5 x9 x13 x17 (ix2 p q) := by
  unfold k1_pay5
  refine (shapeCast_a_1a_apply _ _ 0 q).trans ?_
  exact colred_apply _ _ _ q
theorem pay1_apply (v27 v32 : Vec Ideal S1x128 .f32) (q : Fin 128) :
    k1_pay1 (F := Ideal) v27 (k1_pay7 (F := Ideal) v32) (ix2 (0 : Fin 1) q) = v32 (ix2 (0 : Fin 1) q) + v27 (ix2 (0 : Fin 1) q) := by
  unfold k1_pay1 k1_pay7
  refine (addf_apply _ _ _).trans ?_
  exact congrArg (· + v27 (ix2 (0 : Fin 1) q)) (congrFun (shapeCast_self v32 _) _)
theorem pay2_apply (j : S8x128.Idx) : k1_pay2 (F := Ideal) j = 0 := Ideal.ofBits_zero_f32
theorem pay3_apply (j : S8x128.Idx) : k1_pay3 (F := Ideal) j = 0 := Ideal.ofBits_zero_f32

section
variable {F : FTy → Type} [FloatOps F]

abbrev row0 : Rect S8x128 := Rect.unit (s := S8x128) ![0, 0] S1x128.size Gen.inb_S8x128_S1x128_0_0
theorem row0_emb (q : Fin 128) : row0.emb (ix2 (0 : Fin 1) q) = ix2 (0 : Fin 8) q :=
  funext fun a => Fin.ext (by
    match a with
    | ⟨0, _⟩ => rfl
    | ⟨1, _⟩ => show 0 + 1 * q.val = q.val; omega)
theorem ld_row0 {Val : EltTy → Type} (X : S8x128.Idx → Val .f32) (q : Fin 128) : View.ld X row0 (ix2 (0 : Fin 1) q) = X (ix2 (0 : Fin 8) q) :=
  congrArg X (row0_emb q)
/-- Where the last store of a list is to row 0, row 0 reads that store's value. -/
theorem canon_row0 {Val : EltTy → Type} [∀ e, Nonempty (Val e)] (w : S1x128.Idx → Val .f32) (L : List (View.Piece Val S8x128 .f32))
    (q : Fin 128) : View.canon ((⟨row0, w⟩ : View.Piece Val S8x128 .f32) :: L) (ix2 (0 : Fin 8) q) = w (ix2 (0 : Fin 1) q) := by
  have e := View.canon_cons_emb (Val := Val) row0 w L (ix2 (0 : Fin 1) q)
  rwa [row0_emb] at e

end

/-- Row `p` of block `s` as a row of the array (wrapped, so that it is a row for every natural `s`). -/
def rowOf (s : ℕ) (p : Fin 5000) : Fin 100000 := ⟨(5000 * s + p.val) % 100000, Nat.mod_lt _ (by decide)⟩

/-- Twenty blocks of 5000 rows are the 100000 rows, each once. -/
theorem sum_blocks (f : Fin 100000 → EReal) :
    ∑ s ∈ Finset.range 20, ∑ p : Fin 5000, f (rowOf s p) = ∑ n : Fin 100000, f n := by
  rw [← Fin.sum_univ_eq_sum_range (fun s => ∑ p : Fin 5000, f (rowOf s p)) 20, ← Fintype.sum_prod_type']
  refine Fintype.sum_equiv (finProdFinEquiv (m := 20) (n := 5000)) _ _ fun x => congrArg f (Fin.ext ?_)
  have h1 := x.1.isLt
  have h2 := x.2.isLt
  show (5000 * x.1.val + x.2.val) % 100000 = x.2.val + 5000 * x.1.val
  rw [Nat.mod_eq_of_lt (by omega)]
  omega

abbrev AtRow1 (T : ℕ) (ix ia ic iw : Fin 2 → ℕ) (ib : Fin 1 → ℕ) (io : Fin 2 → ℕ) : Prop :=
  (ix 0 = T ∧ ix 1 = 0) ∧ (ia 0 = T ∧ ia 1 = 0) ∧ (∀ a, ic a = 0) ∧ (∀ a, iw a = 0) ∧ (∀ a, ib a = 0) ∧ io 0 = T ∧ io 1 = 0

/-- The block computed at block row `T` is that block of the pre-activation of the whole arrays: the features and the aggregate sit at its rows, the rest are whole. -/
theorem pre_block {T : ℕ} {ix ia ic iw : Fin 2 → ℕ} {ib : Fin 1 → ℕ} {io : Fin 2 → ℕ} (hi : AtRow1 T ix ia ic iw ib io)
    (C : FVec Ideal S1x1 .f32) (X A : FVec Ideal S100000x64 .f32) (W : FVec Ideal S64x128 .f32) (B : FVec Ideal S128 .f32)
    (ex ea : S5000x64.Idx → S100000x64.Idx) (ec : S1x1.Idx → S1x1.Idx) (ew : S64x128.Idx → S64x128.Idx) (eb : S128.Idx → S128.Idx)
    (eo : S5000x128.Idx → S100000x128.Idx)
    (hx : Places ex ix) (ha : Places ea ia) (hc : Places ec ic) (hw : Places ew iw) (hb : Places eb ib) (ho : Places eo io)
    (j : S5000x128.Idx) :
    k1_pay4 (F := Ideal) (fun y => C (ec y)) (fun y => X (ex y)) (fun y => A (ea y)) (fun y => W (ew y)) (fun y => B (eb y)) j
      = Cert.Spec.pre (C (ix2 (0 : Fin 1) (0 : Fin 1))) X A W B (eo j) := by
  obtain ⟨⟨x0, x1⟩, ⟨a0, a1⟩, c0, w0, b0, o0, o1⟩ := hi
  obtain ⟨p, q, rfl⟩ : ∃ (p : Fin 5000) (q : Fin 128), j = ix2 p q := ⟨j 0, j 1, eq_ix2 j⟩
  have o0' : (eo (ix2 p q) 0).val = io 0 * 5000 + 1 * p.val := ho _ 0
  have o1' : (eo (ix2 p q) 1).val = io 1 * 128 + 1 * q.val := ho _ 1
  have exr : ∀ k : Fin 64, ex (ix2 p k) = ix2 (eo (ix2 p q) 0) k := fun k => Shape.idx_ext₂
    (by have e : (ex (ix2 p k) 0).val = ix 0 * 5000 + 1 * p.val := hx _ 0
        show (ex (ix2 p k) 0).val = (eo (ix2 p q) 0).val
        omega)
    (by have e : (ex (ix2 p k) 1).val = ix 1 * 64 + 1 * k.val := hx _ 1
        show (ex (ix2 p k) 1).val = k.val
        omega)
  have ear : ∀ k : Fin 64, ea (ix2 p k) = ix2 (eo (ix2 p q) 0) k := fun k => Shape.idx_ext₂
    (by have e : (ea (ix2 p k) 0).val = ia 0 * 5000 + 1 * p.val := ha _ 0
        show (ea (ix2 p k) 0).val = (eo (ix2 p q) 0).val
        omega)
    (by have e : (ea (ix2 p k) 1).val = ia 1 * 64 + 1 * k.val := ha _ 1
        show (ea (ix2 p k) 1).val = k.val
        omega)
  have ec1 : eo (ix2 p q) 1 = q := Fin.ext (by omega)
  rw [read_self C hc c0, read_self W hw w0, read_self B hb b0, pay4_apply]
  show (∑ k : Fin 64, (C (ix2 (0 : Fin 1) (0 : Fin 1)) * X (ex (ix2 p k)) + A (ea (ix2 p k))) * W (ix2 k q)) + B (ix1 q)
    = (∑ k : Fin 64, (C (ix2 (0 : Fin 1) (0 : Fin 1)) * X (ix2 (eo (ix2 p q) 0) k) + A (ix2 (eo (ix2 p q) 0) k))
        * W (ix2 k (eo (ix2 p q) 1))) + B (ix1 (eo (ix2 p q) 1))
  simp only [exr, ear, ec1]
  rfl

/-- A block at index 0 whose extents are the array's holds every index of the array. -/
theorem whole_mem {io sz xs : Fin 2 → ℕ} (h : io 0 * sz 0 = 0 ∧ io 1 * sz 1 = 0 ∧ xs 0 = 8 ∧ xs 1 = 128) (i : S8x128.Idx) (a : Fin 2) :
    io a * sz a ≤ (i a).val ∧ (i a).val < io a * sz a + xs a := by
  have h0 : (i 0 : Nat) < 8 := (i 0).isLt
  have h1 : (i 1 : Nat) < 128 := (i 1).isLt
  match a with
  | ⟨0, _⟩ => show io 0 * sz 0 ≤ (i 0 : Nat) ∧ (i 0 : Nat) < io 0 * sz 0 + xs 0; omega
  | ⟨1, _⟩ => show io 1 * sz 1 ≤ (i 1 : Nat) ∧ (i 1 : Nat) < io 1 * sz 1 + xs 1; omega

/-- Row `r` of the pre-activation lies in block row `r / 5000`. -/
theorem row_cover {N : ℕ} (hN : N = 20) {io : Fin N → Fin 2 → ℕ} (h : ∀ t, io t 0 = t.val ∧ io t 1 = 0) (i : S100000x128.Idx) :
    ∃ t : Fin N, ∀ a, io t a * S5000x128.size a ≤ (i a).val ∧ (i a).val < io t a * S5000x128.size a + S5000x128.size a := by
  subst hN
  have hi0 : (i 0).val < 100000 := (i 0).isLt
  have hi1 : (i 1).val < 128 := (i 1).isLt
  obtain ⟨t, ht⟩ : ∃ t : Fin 20, t.val = (i 0).val / 5000 := ⟨⟨(i 0).val / 5000, by omega⟩, rfl⟩
  obtain ⟨e0, e1⟩ := h t
  refine ⟨t, fun a => ?_⟩
  match a with
  | ⟨0, _⟩ => show io t 0 * 5000 ≤ (i 0).val ∧ (i 0).val < io t 0 * 5000 + 5000; omega
  | ⟨1, _⟩ => show io t 1 * 128 ≤ (i 1).val ∧ (i 1).val < io t 1 * 128 + 128; omega

section Acc

variable {N : ℕ} (hN : N = 20) (o6 o7 : (n : ℕ) → n < N → Vec Ideal S8x128 .f32)
  (cb : Fin N → Vec Ideal S1x1 .f32) (xb ab : Fin N → Vec Ideal S5000x64 .f32) (wb : Fin N → Vec Ideal S64x128 .f32)
  (bb : Fin N → Vec Ideal S128 .f32) (H : FVec Ideal S100000x128 .f32)
  (eo : Fin N → S5000x128.Idx → S100000x128.Idx) (io : Fin N → Fin 2 → ℕ) (hio : ∀ t, io t 0 = t.val ∧ io t 1 = 0)
  (heo : ∀ t, Places (eo t) (io t))
  (hblk : ∀ (t : Fin N) (j : S5000x128.Idx), k1_pay4 (F := Ideal) (cb t) (xb t) (ab t) (wb t) (bb t) j = H (eo t j))
  (hA6 : ∀ t : Fin N, t.val % 20 = 0 → ∀ q : Fin 128, o6 t.val t.isLt (ix2 (0 : Fin 8) q)
    = k1_pay6 (F := Ideal) (cb t) (xb t) (ab t) (wb t) (bb t) (View.ld (k1_pay2 (F := Ideal)) row0) (ix2 (0 : Fin 1) q))
  (hA7 : ∀ t : Fin N, t.val % 20 = 0 → ∀ q : Fin 128, o7 t.val t.isLt (ix2 (0 : Fin 8) q)
    = k1_pay1 (F := Ideal) (k1_pay5 (F := Ideal) (cb t) (xb t) (ab t) (wb t) (bb t))
        (k1_pay7 (F := Ideal) (View.ld (k1_pay3 (F := Ideal)) row0)) (ix2 (0 : Fin 1) q))
  (hB6 : ∀ t : Fin N, ¬t.val % 20 = 0 → ∀ q : Fin 128, o6 t.val t.isLt (ix2 (0 : Fin 8) q)
    = k1_pay6 (F := Ideal) (cb t) (xb t) (ab t) (wb t) (bb t)
        (View.ld (o6 (t.val - 1) (Nat.lt_of_le_of_lt (Nat.sub_le _ _) t.isLt)) row0) (ix2 (0 : Fin 1) q))
  (hB7 : ∀ t : Fin N, ¬t.val % 20 = 0 → ∀ q : Fin 128, o7 t.val t.isLt (ix2 (0 : Fin 8) q)
    = k1_pay1 (F := Ideal) (k1_pay5 (F := Ideal) (cb t) (xb t) (ab t) (wb t) (bb t))
        (k1_pay7 (F := Ideal) (View.ld (o7 (t.val - 1) (Nat.lt_of_le_of_lt (Nat.sub_le _ _) t.isLt)) row0)) (ix2 (0 : Fin 1) q))
include hN hio heo hblk hA6 hA7 hB6 hB7

theorem rowOf_val (t : Fin N) (p : Fin 5000) : (rowOf t.val p).val = 5000 * t.val + p.val := by
  have hT : t.val < 20 := lt_of_lt_of_eq t.isLt hN
  have hp := p.isLt
  show (5000 * t.val + p.val) % 100000 = _
  exact Nat.mod_eq_of_lt (by omega)

theorem blk_row (t : Fin N) (p : Fin 5000) (q : Fin 128) :
    k1_pay4 (F := Ideal) (cb t) (xb t) (ab t) (wb t) (bb t) (ix2 p q) = H (ix2 (rowOf t.val p) q) :=
  (hblk t (ix2 p q)).trans (congrArg H (Shape.idx_ext₂
    (by have e : (eo t (ix2 p q) 0).val = io t 0 * 5000 + 1 * p.val := heo t _ 0
        have r := rowOf_val hN o6 o7 cb xb ab wb bb H eo io hio heo hblk hA6 hA7 hB6 hB7 t p
        have := (hio t).1
        show (eo t (ix2 p q) 0).val = (rowOf t.val p).val
        omega)
    (by have e : (eo t (ix2 p q) 1).val = io t 1 * 128 + 1 * q.val := heo t _ 1
        have := (hio t).2
        show (eo t (ix2 p q) 1).val = q.val
        omega)))

theorem colsum_blk (t : Fin N) (q : Fin 128) :
    ∑ p : Fin 5000, k1_pay4 (F := Ideal) (cb t) (xb t) (ab t) (wb t) (bb t) (ix2 p q) = ∑ p : Fin 5000, H (ix2 (rowOf t.val p) q) :=
  Finset.sum_congr rfl fun p _ => blk_row hN o6 o7 cb xb ab wb bb H eo io hio heo hblk hA6 hA7 hB6 hB7 t p q

theorem colsumsq_blk (t : Fin N) (q : Fin 128) :
    ∑ p : Fin 5000, k1_pay4 (F := Ideal) (cb t) (xb t) (ab t) (wb t) (bb t) (ix2 p q) * k1_pay4 (F := Ideal) (cb t) (xb t) (ab t) (wb t) (bb t) (ix2 p q)
      = ∑ p : Fin 5000, H (ix2 (rowOf t.val p) q) * H (ix2 (rowOf t.val p) q) :=
  Finset.sum_congr rfl fun p _ => by rw [blk_row hN o6 o7 cb xb ab wb bb H eo io hio heo hblk hA6 hA7 hB6 hB7 t p q]

/-- By induction on the point: after point `n` row 0 of the two accumulators holds the shares of blocks `0 … n` (extended reals add commutatively and associatively, no finiteness needed). -/
theorem acc_sums : ∀ (n : ℕ) (h : n < N) (q : Fin 128),
    o6 n h (ix2 (0 : Fin 8) q) = ∑ s ∈ Finset.range (n + 1), ∑ p : Fin 5000, H (ix2 (rowOf s p) q)
    ∧ o7 n h (ix2 (0 : Fin 8) q) = ∑ s ∈ Finset.range (n + 1), ∑ p : Fin 5000, H (ix2 (rowOf s p) q) * H (ix2 (rowOf s p) q)
  | 0, h, q => by
    rw [Finset.sum_range_one, Finset.sum_range_one]
    refine ⟨(hA6 ⟨0, h⟩ rfl q).trans ?_, (hA7 ⟨0, h⟩ rfl q).trans ?_⟩
    · rw [pay6_apply, ld_row0, pay2_apply, zero_add]
      exact colsum_blk hN o6 o7 cb xb ab wb bb H eo io hio heo hblk hA6 hA7 hB6 hB7 ⟨0, h⟩ q
    · rw [pay1_apply, ld_row0, pay3_apply, zero_add, pay5_apply]
      exact colsumsq_blk hN o6 o7 cb xb ab wb bb H eo io hio heo hblk hA6 hA7 hB6 hB7 ⟨0, h⟩ q
  | n + 1, h, q => by
    have hB : ¬(⟨n + 1, h⟩ : Fin N).val % 20 = 0 := by dsimp only; omega
    have ih := acc_sums n (Nat.lt_of_succ_lt h) q
    rw [Finset.sum_range_succ _ (n + 1), Finset.sum_range_succ _ (n + 1), ← ih.1, ← ih.2]
    refine ⟨(hB6 ⟨n + 1, h⟩ hB q).trans ?_, (hB7 ⟨n + 1, h⟩ hB q).trans ?_⟩
    · rw [pay6_apply, ld_row0]
      exact congrArg (_ + ·) (colsum_blk hN o6 o7 cb xb ab wb bb H eo io hio heo hblk hA6 hA7 hB6 hB7 ⟨n + 1, h⟩ q)
    · rw [pay1_apply, ld_row0, pay5_apply]
      exact congrArg (_ + ·) (colsumsq_blk hN o6 o7 cb xb ab wb bb H eo io hio heo hblk hA6 hA7 hB6 hB7 ⟨n + 1, h⟩ q)

/-- After the last point row 0 holds every column's sum, and sum of squares, over all 100000 rows. -/
theorem acc_rows (h19 : 19 < N) (q : Fin 128) :
    o6 19 h19 (ix2 (0 : Fin 8) q) = Cert.Spec.colSum H (ix1 q) ∧ o7 19 h19 (ix2 (0 : Fin 8) q) = Cert.Spec.colSumSq H (ix1 q) :=
  ⟨(acc_sums hN o6 o7 cb xb ab wb bb H eo io hio heo hblk hA6 hA7 hB6 hB7 19 h19 q).1.trans (sum_blocks fun n => H (ix2 n q)),
    (acc_sums hN o6 o7 cb xb ab wb bb H eo io hio heo hblk hA6 hA7 hB6 hB7 19 h19 q).2.trans (sum_blocks fun n => H (ix2 n q) * H (ix2 n q))⟩

end Acc

end Cert.KernelIdeal.Values.S1

end
-- ==== Proof.KStage1.lean ====
import proofs.«426483_j67748814127260_1_alg».proof.Proof.KStage1Lib
set_option maxRecDepth 16384

noncomputable section

namespace Cert.KernelIdeal.Values.R1
open Cert.KernelIdeal Cert.KernelIdeal.Gen Idealize.ShloMosaic Idealize.ShloMosaic.ValueIdx
open Idealize.ShloMosaic.TcCoe Idealize.SL.Sem
open Idealize.ShloMosaic.Pipeline (Dat)
open Cert.KernelIdeal.Values.S1 Cert.KernelIdeal.Values.RowBlock

section Pieces

variable {F : FTy → Type} [FloatOps F] (c : Dev nD) (i : grid1.Coords)
  (a1 : Memref sig .tc .vmem S5000x64 .f32) (h1 : a1.IsWhole) (a2 : Memref sig .tc .vmem S5000x64 .f32) (h2 : a2.IsWhole)
  (a3 : Memref sig .tc .vmem S1x1 .f32) (h3 : a3.IsWhole) (a4 : Memref sig .tc .vmem S64x128 .f32) (h4 : a4.IsWhole)
  (a5 : Memref sig .tc .vmem S128 .f32) (h5 : a5.IsWhole) (a6 : Memref sig .tc .vmem S5000x128 .f32) (h6 : a6.IsWhole)
  (a7 : Memref sig .tc .vmem S8x128 .f32) (h7 : a7.IsWhole) (a8 : Memref sig .tc .vmem S8x128 .f32) (h8 : a8.IsWhole)
  (x0 x1 : Vec F S5000x64 .f32) (x2 : Vec F S1x1 .f32) (x3 : Vec F S64x128 .f32) (x4 : Vec F S128 .f32)
  (xo6 xo7 : Vec F S8x128 .f32) (q : Fin 128)

/-- At the first point the stored pre-activation block is the block's value on the loaded blocks; likewise below at a later point. -/
theorem out_A_5_eq (hc : cond1_0 i) :
    out1_A_5 c i a1 h1 a2 h2 a3 h3 a4 h4 a5 h5 a6 h6 a7 h7 a8 h8 hc x0 x1 x2 x3 x4 = k1_pay4 x2 x0 x1 x3 x4 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A
  dsimp only
  sl_unfold_words
  rw [View.canon_unit_zero zero_pair]
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single] <;> rfl

theorem out_B_5_eq (hc : ¬cond1_0 i) :
    out1_B_5 c i a1 h1 a2 h2 a3 h3 a4 h4 a5 h5 a6 h6 a7 h7 a8 h8 hc x0 x1 x2 x3 x4 xo6 xo7 = k1_pay4 x2 x0 x1 x3 x4 := by
  unfold out1_B_5
  rw [View.read_writes_eq_canon _ _ _ (cover1_B_5 c i a1 h1 a2 h2 a3 h3 a4 h4 a5 h5 a6 h6 a7 h7 a8 h8 hc x0 x1 x2 x3 x4 xo6 xo7)]
  unfold kernelRun1_B
  dsimp only
  sl_unfold_words
  rw [View.canon_unit_zero zero_pair]
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single] <;> rfl

/-- At the first point row 0 of the running sums is the update of row 0 of the zero fill; at a later point, of what the point before left. -/
theorem out_A_6_row (hc : cond1_0 i) :
    out1_A_6 c i a1 h1 a2 h2 a3 h3 a4 h4 a5 h5 a6 h6 a7 h7 a8 h8 hc x0 x1 x2 x3 x4 (ix2 (0 : Fin 8) q)
      = k1_pay6 x2 x0 x1 x3 x4 (View.ld (k1_pay2 (F := F)) row0) (ix2 (0 : Fin 1) q) := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A
  dsimp only
  sl_unfold_words
  refine (canon_row0 _ _ q).trans ?_
  rw [View.readCov_eq_canon', View.canon_unit_zero zero_pair]
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single] <;> rfl

theorem out_A_7_row (hc : cond1_0 i) :
    out1_A_7 c i a1 h1 a2 h2 a3 h3 a4 h4 a5 h5 a6 h6 a7 h7 a8 h8 hc x0 x1 x2 x3 x4 (ix2 (0 : Fin 8) q)
      = k1_pay1 (k1_pay5 x2 x0 x1 x3 x4) (k1_pay7 (View.ld (k1_pay3 (F := F)) row0)) (ix2 (0 : Fin 1) q) := by
  unfold out1_A_7
  rw [View.read_writes_eq_canon _ _ _ (cover1_A_7 c i a1 h1 a2 h2 a3 h3 a4 h4 a5 h5 a6 h6 a7 h7 a8 h8 hc x0 x1 x2 x3 x4)]
  unfold kernelRun1_A
  dsimp only
  sl_unfold_words
  refine (canon_row0 _ _ q).trans ?_
  rw [View.readCov_eq_canon', View.canon_unit_zero zero_pair]
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single] <;> rfl

theorem out_B_6_row (hc : ¬cond1_0 i) :
    out1_B_6 c i a1 h1 a2 h2 a3 h3 a4 h4 a5 h5 a6 h6 a7 h7 a8 h8 hc x0 x1 x2 x3 x4 xo6 xo7 (ix2 (0 : Fin 8) q)
      = k1_pay6 x2 x0 x1 x3 x4 (View.ld xo6 row0) (ix2 (0 : Fin 1) q) := by
  unfold out1_B_6
  unfold kernelRun1_B
  dsimp only
  sl_unfold_words
  refine (View.read_writes_cons_unit_of_mem a7.view _ Gen.inb_S8x128_S1x128_0_0 _ [] (ix2 (0 : Fin 8) q) (ix2 (0 : Fin 1) q) rfl
    (fun a => by
      match a with
      | ⟨0, _⟩ => rfl
      | ⟨1, _⟩ => show q.val = 0 + q.val; omega)).trans ?_
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single, h7.read_unread] <;> rfl

theorem out_B_7_row (hc : ¬cond1_0 i) :
    out1_B_7 c i a1 h1 a2 h2 a3 h3 a4 h4 a5 h5 a6 h6 a7 h7 a8 h8 hc x0 x1 x2 x3 x4 xo6 xo7 (ix2 (0 : Fin 8) q)
      = k1_pay1 (k1_pay5 x2 x0 x1 x3 x4) (k1_pay7 (View.ld xo7 row0)) (ix2 (0 : Fin 1) q) := by
  unfold out1_B_7
  unfold kernelRun1_B
  dsimp only
  sl_unfold_words
  refine (View.read_writes_cons_unit_of_mem a8.view _ Gen.inb_S8x128_S1x128_0_0 _ [] (ix2 (0 : Fin 8) q) (ix2 (0 : Fin 1) q) rfl
    (fun a => by
      match a with
      | ⟨0, _⟩ => rfl
      | ⟨1, _⟩ => show q.val = 0 + q.val; omega)).trans ?_
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single, h8.read_unread] <;> rfl

end Pieces

section Run

variable (V : (c : Dev nD) → (b : Ref sig .tc) → Buf (Elt Ideal) ((c : Thread nD τ).loc b))

theorem idx_facts : ∀ t : Fin cfg1.N, AtRow1 t.val (win1_0.index t) (win1_1.index t) (win1_2.index t) (win1_3.index t)
    (win1_4.index t) (win1_5.index t) :=
  (by decide +kernel : ∀ t : Fin grid1.N, _)

abbrev xblk (c : Dev nD) (t : Fin cfg1.N) : Vec Ideal S5000x64 .f32 := iblk1 V c 0 t

abbrev ablk (c : Dev nD) (t : Fin cfg1.N) : Vec Ideal S5000x64 .f32 := iblk1 V c 1 t

abbrev cblk (c : Dev nD) (t : Fin cfg1.N) : Vec Ideal S1x1 .f32 := iblk1 V c 2 t

abbrev wblk (c : Dev nD) (t : Fin cfg1.N) : Vec Ideal S64x128 .f32 := iblk1 V c 3 t

abbrev bblk (c : Dev nD) (t : Fin cfg1.N) : Vec Ideal S128 .f32 := iblk1 V c 4 t

abbrev hpre (c : Dev nD) : FVec Ideal S100000x128 .f32 :=
  Cert.Spec.pre (V c main_v23 (ix2 (0 : Fin 1) (0 : Fin 1))) (V c main_v4) (V c main_v15) (V c main_v20) (V c main_v22)

/-- The block computed at point `t` is rows `5000 t … 5000 t + 4999` of the pre-activation of the arrays the region finds. -/
theorem blk (c : Dev nD) (t : Fin cfg1.N) (j : S5000x128.Idx) :
    k1_pay4 (F := Ideal) (cblk V c t) (xblk V c t) (ablk V c t) (wblk V c t) (bblk V c t) j = hpre V c ((win1_5.rect t).emb j) :=
  pre_block (idx_facts t) (V c main_v23) (V c main_v4) (V c main_v15) (V c main_v20) (V c main_v22) (win1_0.rect t).emb
    (win1_1.rect t).emb (win1_2.rect t).emb (win1_3.rect t).emb (win1_4.rect t).emb (win1_5.rect t).emb (fun _ _ => rfl)
    (fun _ _ => rfl) (fun _ _ => rfl) (fun _ _ => rfl) (fun _ _ => rfl) (fun _ _ => rfl) j

theorem lt19 : 19 < cfg1.N := by rw [show cfg1.N = 20 from N_1]; decide

/-- Row 0 of the two accumulators after the last point: the column sums and sums of squares of the pre-activation. -/
theorem rows (c : Dev nD) (q : Fin 128) :
    (outsAt1 V c 19 lt19).2.1 (ix2 (0 : Fin 8) q) = Cert.Spec.colSum (hpre V c) (ix1 q)
    ∧ (outsAt1 V c 19 lt19).2.2 (ix2 (0 : Fin 8) q) = Cert.Spec.colSumSq (hpre V c) (ix1 q) :=
  acc_rows N_1 (fun n h => (outsAt1 V c n h).2.1) (fun n h => (outsAt1 V c n h).2.2) (cblk V c) (xblk V c) (ablk V c) (wblk V c)
    (bblk V c) (hpre V c) (fun t => (win1_5.rect t).emb) win1_5.index
    (fun t => (idx_facts t).2.2.2.2.2) (fun _ _ _ => rfl) (blk V c)
    (fun t h0 q => by
      show (outsAt1 V c t.val t.isLt).2.1 _ = _
      rw [outsAt1_A V c t h0]
      dsimp only
      exact out_A_6_row (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (xblk V c t) (ablk V c t) (cblk V c t) (wblk V c t) (bblk V c t) q ((hcond1_0 t).mpr h0))
    (fun t h0 q => by
      show (outsAt1 V c t.val t.isLt).2.2 _ = _
      rw [outsAt1_A V c t h0]
      dsimp only
      exact out_A_7_row (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (xblk V c t) (ablk V c t) (cblk V c t) (wblk V c t) (bblk V c t) q ((hcond1_0 t).mpr h0))
    (fun t h0 q => by
      show (outsAt1 V c t.val t.isLt).2.1 _ = _
      rw [outsAt1_B V c t h0]
      dsimp only
      exact out_B_6_row (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (xblk V c t) (ablk V c t) (cblk V c t) (wblk V c t) (bblk V c t)
        (outsAt1 V c (t.val - 1) (Nat.lt_of_le_of_lt (Nat.sub_le _ _) t.isLt)).2.1 (outsAt1 V c (t.val - 1) (Nat.lt_of_le_of_lt (Nat.sub_le _ _) t.isLt)).2.2 q (fun h => h0 ((hcond1_0 t).mp h)))
    (fun t h0 q => by
      show (outsAt1 V c t.val t.isLt).2.2 _ = _
      rw [outsAt1_B V c t h0]
      dsimp only
      exact out_B_7_row (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (xblk V c t) (ablk V c t) (cblk V c t) (wblk V c t) (bblk V c t)
        (outsAt1 V c (t.val - 1) (Nat.lt_of_le_of_lt (Nat.sub_le _ _) t.isLt)).2.1 (outsAt1 V c (t.val - 1) (Nat.lt_of_le_of_lt (Nat.sub_le _ _) t.isLt)).2.2 q (fun h => h0 ((hcond1_0 t).mp h)))
    lt19 q

theorem after5_eq (c : Dev nD) (t : Fin cfg1.N) :
    (outsAt1 V c t.val t.isLt).1 = k1_pay4 (F := Ideal) (cblk V c t) (xblk V c t) (ablk V c t) (wblk V c t) (bblk V c t) := by
  by_cases h0 : t.val % 20 = 0
  · rw [outsAt1_A V c t h0]
    dsimp only
    exact out_A_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (xblk V c t) (ablk V c t) (cblk V c t) (wblk V c t) (bblk V c t) ((hcond1_0 t).mpr h0)
  · rw [outsAt1_B V c t h0]
    dsimp only
    exact out_B_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (xblk V c t) (ablk V c t) (cblk V c t) (wblk V c t) (bblk V c t)
        (outsAt1 V c (t.val - 1) (Nat.lt_of_le_of_lt (Nat.sub_le _ _) t.isLt)).2.1 (outsAt1 V c (t.val - 1) (Nat.lt_of_le_of_lt (Nat.sub_le _ _) t.isLt)).2.2 (fun h => h0 ((hcond1_0 t).mp h))

/-- The pre-activation array after the region: row `r` is written by point `r / 5000`. -/
theorem pre_out (c : Dev nD) : (dat1 (F := Ideal) V c).arrAt 5 cfg1.N
    = Cert.Spec.pre (V c main_v23 (ix2 (0 : Fin 1) (0 : Fin 1))) (V c main_v4) (V c main_v15) (V c main_v20) (V c main_v22) :=
  (dat1 (F := Ideal) V c).arrAt_eq_of_cover 5 (hpre V c)
    (fun t _ => by
      show (cfg1.win 5).cut (grid1.coords t) ((dat1 (F := Ideal) V c).after 5 t) = _
      rw [after1_5, after5_eq]
      exact funext fun j => blk V c t j)
    fun i => (row_cover (N := cfg1.N) N_1 (io := win1_5.index) (fun t => (idx_facts t).2.2.2.2.2) i).imp fun t h => ⟨flush1_5 t, by
      show i ∈ ((View.whole main_v24_0).slice (win1_5.rect t)).set
      rw [View.set_slice_whole, Rect.mem_set_unit]
      exact h⟩

abbrev t19 : Fin cfg1.N := ⟨19, lt19⟩

abbrev res6 (c : Dev nD) : Buf (Elt Ideal) ((c : Thread nD τ).loc main_v24_1) := (outsAt1 V c 19 lt19).2.1

abbrev res7 (c : Dev nD) : Buf (Elt Ideal) ((c : Thread nD τ).loc main_v24_2) := (outsAt1 V c 19 lt19).2.2

theorem flushed6_eq (c : Dev nD) (t : Fin cfg1.N) (hf : (cfg1.win 6).flush t = true) :
    (dat1 (F := Ideal) V c).flushed 6 t = ((cfg1.win 6).blk t).view.read (Elt Ideal) (res6 V c) := by
  have hN : cfg1.N = 20 := N_1
  have h19 : t.val = 19 := by have := (flush1_6 t).mp hf; have := t.isLt; omega
  obtain rfl : t = t19 := Fin.ext h19
  show (cfg1.win 6).cut (grid1.coords t19) ((dat1 (F := Ideal) V c).after 6 t19) = _
  rw [after1_6]
  have zero_pair' : (fun a => win1_6.index t19 a * main_v24_1.ty.shape.size a) = fun _ => 0 :=
    funext fun a => by fin_cases a <;> decide +kernel
  exact (Memref.read_access_unit_zero (Elt Ideal) main_v24_1 zero_pair' (fun a => by rw [congrFun zero_pair' a]; simp) (res6 V c)).symm

theorem flushed7_eq (c : Dev nD) (t : Fin cfg1.N) (hf : (cfg1.win 7).flush t = true) :
    (dat1 (F := Ideal) V c).flushed 7 t = ((cfg1.win 7).blk t).view.read (Elt Ideal) (res7 V c) := by
  have hN : cfg1.N = 20 := N_1
  have h19 : t.val = 19 := by have := (flush1_7 t).mp hf; have := t.isLt; omega
  obtain rfl : t = t19 := Fin.ext h19
  show (cfg1.win 7).cut (grid1.coords t19) ((dat1 (F := Ideal) V c).after 7 t19) = _
  rw [after1_7]
  have zero_pair' : (fun a => win1_7.index t19 a * main_v24_2.ty.shape.size a) = fun _ => 0 :=
    funext fun a => by fin_cases a <;> decide +kernel
  exact (Memref.read_access_unit_zero (Elt Ideal) main_v24_2 zero_pair' (fun a => by rw [congrFun zero_pair' a]; simp) (res7 V c)).symm

/-- The sums' array after the region holds what the accumulator held after the last point. -/
theorem final6 (c : Dev nD) : (dat1 (F := Ideal) V c).arrAt 6 cfg1.N = res6 V c :=
  (dat1 (F := Ideal) V c).arrAt_eq_of_cover 6 (res6 V c) (flushed6_eq V c) fun i =>
    ⟨t19, (flush1_6 t19).mpr rfl, by
      show i ∈ ((View.whole main_v24_1).slice (win1_6.rect t19)).set
      rw [View.set_slice_whole, Rect.mem_set_unit]
      exact whole_mem (by decide +kernel) i⟩

theorem final7 (c : Dev nD) : (dat1 (F := Ideal) V c).arrAt 7 cfg1.N = res7 V c :=
  (dat1 (F := Ideal) V c).arrAt_eq_of_cover 7 (res7 V c) (flushed7_eq V c) fun i =>
    ⟨t19, (flush1_7 t19).mpr rfl, by
      show i ∈ ((View.whole main_v24_2).slice (win1_7.rect t19)).set
      rw [View.set_slice_whole, Rect.mem_set_unit]
      exact whole_mem (by decide +kernel) i⟩

theorem sum_out (c : Dev nD) (j : Fin 128) : (dat1 (F := Ideal) V c).arrAt 6 cfg1.N (ix2 (0 : Fin 8) j)
    = Cert.Spec.colSum (Cert.Spec.pre (V c main_v23 (ix2 (0 : Fin 1) (0 : Fin 1))) (V c main_v4) (V c main_v15) (V c main_v20)
        (V c main_v22)) (ix1 j) := by
  rw [final6]
  exact (rows V c j).1

theorem sumsq_out (c : Dev nD) (j : Fin 128) : (dat1 (F := Ideal) V c).arrAt 7 cfg1.N (ix2 (0 : Fin 8) j)
    = Cert.Spec.colSumSq (Cert.Spec.pre (V c main_v23 (ix2 (0 : Fin 1) (0 : Fin 1))) (V c main_v4) (V c main_v15) (V c main_v20)
        (V c main_v22)) (ix1 j) := by
  rw [final7]
  exact (rows V c j).2

end Run

end Cert.KernelIdeal.Values.R1

end
-- ==== Proof.KStage2.lean ====
import proofs.«426483_j67748814127260_1_alg».proof.Proof.KRowBlock

noncomputable section

namespace Cert.KernelIdeal.Values.R2

open Cert.KernelIdeal Cert.KernelIdeal.Gen Cert.KernelIdeal.Facts₀ Cert.KernelIdeal.Values.RowBlock Idealize.ShloMosaic
open Idealize.ShloMosaic.TcCoe

variable (V : (c : Dev nD) → (b : Ref sig .tc) → Buf (Elt Ideal) ((c : Thread nD τ).loc b))

theorem idx_facts : ∀ t : Fin cfg2.N, AtRow t.val (win2_6.index t) (win2_0.index t) (win2_1.index t) (win2_2.index t)
    (win2_3.index t) (win2_4.index t) (win2_5.index t) :=
  (by decide +kernel : ∀ t : Fin grid2.N, _)

/-- The 20 row blocks cover the output array, and each is stored as that block of the layer's tail on the arrays the region finds. -/
theorem post_out (c : Dev nD) :
    (dat2 (F := Ideal) V c).arrAt 6 cfg2.N
      = Cert.Spec.post (V c main_v24_0) (V c main_v40) (V c main_v44) (V c main_v46) (V c main_v48) (V c main_v4) :=
  (dat2 (F := Ideal) V c).arrAt_eq_of_cover 6 _
    (fun t _ => by
      show (cfg2.win 6).cut (grid2.coords t) ((dat2 (F := Ideal) V c).after 6 t) = _
      rw [after2_6]
      exact funext fun j => tail_block (idx_facts t) (V c main_v24_0) (V c main_v40) (V c main_v44) (V c main_v46) (V c main_v48)
        (V c main_v4) (win2_0.rect t).emb (win2_1.rect t).emb (win2_2.rect t).emb (win2_3.rect t).emb (win2_4.rect t).emb
        (win2_5.rect t).emb (win2_6.rect t).emb (fun _ _ => rfl) (fun _ _ => rfl) (fun _ _ => rfl) (fun _ _ => rfl) (fun _ _ => rfl)
        (fun _ _ => rfl) (fun _ _ => rfl) j)
    fun i => (row_cover (N := cfg2.N) N_2 (io := win2_6.index) (fun t => (idx_facts t).1) i).imp fun t h => ⟨flush2_6 t, by
      show i ∈ ((View.whole main_v49).slice (win2_6.rect t)).set
      rw [View.set_slice_whole, Rect.mem_set_unit]
      exact h⟩

end Cert.KernelIdeal.Values.R2
end
-- ==== Proof.KLayerMoment.lean ====
import proofs.«426483_j67748814127260_1_alg».proof.Proof.Spec
import Idealize.ShloMosaic.Lib.IdealHost
import Idealize.ShloMosaic.Lib.Pipeline.Value

noncomputable section

namespace Cert.KernelIdeal.Layers

open Cert.KernelIdeal Cert.KernelIdeal.Facts₀ Idealize.ShloMosaic Idealize.ShloMosaic.ValueIdx

theorem scalar_cast_apply {α : Type} (g : S_.Idx → α) (h : S_.ShapeCasts S1x1) (i : S1x1.Idx) : shapeCast S1x1 g h i = g ix0 := by
  unfold shapeCast
  exact congrArg g (funext fun a => a.elim0)

theorem row0_apply {α : Type} (A : S8x128.Idx → α) (h1 : S8x128.Slices ![0, 0] S1x128) (h2 : S1x128.ShapeCasts S128) (j : S128.Idx) :
    shapeCast S128 (extractStridedSlice S1x128 ![0, 0] A h1) h2 j = A (ix2 0 (j 0)) := by
  refine (shapeCast_apply _ h2 j (ix2 0 (j 0)) ?_).trans ?_
  · rw [Shape.rowMajor_val_two, Shape.rowMajor_val_one]
    show 0 * 128 + (j 0).val = (j 0).val
    omega
  · refine extractStridedSlice_apply _ A h1 _ (ix2 0 (j 0)) fun a => ?_
    match a with
    | ⟨0, _⟩ => rfl
    | ⟨1, _⟩ => show (j 0).val = 0 + (j 0).val; omega

/-- Row 0 of an accumulator. -/
abbrev row0 (a : FVec Ideal S8x128 .f32) : FVec Ideal S128 .f32 := fun j => a (ix2 0 (j 0))

section Fold
variable (a1 a2 : FVec Ideal S8x128 .f32) (g bt : FVec Ideal S128 .f32) (h1 : S8x128.Slices ![0, 0] S1x128)
  (h2 : S1x128.ShapeCasts S128) (hb : S_.BroadcastsInDim S128 (![] : Fin 0 → Fin S128.rank))

/-- Row 0 of an accumulator divided by the row count. -/
abbrev rowMean (a : FVec Ideal S8x128 .f32) : FVec Ideal S128 .f32 :=
  Host.divf (shapeCast S128 (extractStridedSlice S1x128 ![0, 0] a h1) h2) (broadcastInDim S128 ![] hb (constant (F := Ideal) S_ .f32 0x47C35000#32))

theorem rowMean_eq (a : FVec Ideal S8x128 .f32) : rowMean h1 h2 hb a = Spec.meanOf (row0 a) :=
  funext fun j => congrArg (Ideal.div · Spec.rowsC) (row0_apply a h1 h2 j)

theorem scale_eq :
    mulf g (Host.rsqrt (addf (subf (rowMean h1 h2 hb a2) (mulf (rowMean h1 h2 hb a1) (rowMean h1 h2 hb a1)))
        (broadcastInDim S128 ![] hb (constant (F := Ideal) S_ .f32 0x3727C5AC#32)))) = Spec.scaleOf (row0 a1) (row0 a2) g := by
  rw [rowMean_eq, rowMean_eq]
  rfl

theorem shift_eq :
    subf bt (mulf (rowMean h1 h2 hb a1) (mulf g (Host.rsqrt (addf (subf (rowMean h1 h2 hb a2) (mulf (rowMean h1 h2 hb a1) (rowMean h1 h2 hb a1)))
        (broadcastInDim S128 ![] hb (constant (F := Ideal) S_ .f32 0x3727C5AC#32)))))) = Spec.shiftOf (row0 a1) (row0 a2) g bt := by
  rw [scale_eq, rowMean_eq]
  rfl

end Fold

/-- The edge aggregate from the two flattened endpoint rows. -/
abbrev aggRows (x : FVec Ideal S100000x64 .f32) (s d : IVec S1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (maximumf (Host.gather gather_S100000x64_S1600000x1_S1600000x64_1_0_n_n_0_1_164 x
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)))
      (broadcastInDim S1600000x64 ![] bcast_S_S1600000x64 (constant (F := Ideal) S_ .f32 0x00000000#32)))

/-- A layer's tail on the first region's three outputs is the layer in its folded form. -/
theorem layerMoment_of {co : EReal} {x a : FVec Ideal S100000x64 .f32} {w1 : FVec Ideal S64x128 .f32} {b1 g bt : FVec Ideal S128 .f32}
    {w2 : FVec Ideal S128x64 .f32} {b2 : FVec Ideal S64 .f32} {h p : FVec Ideal S100000x128 .f32} {s ss : FVec Ideal S8x128 .f32}
    (hh : h = p) (hs : ∀ j : Fin 128, s (ix2 0 j) = Spec.colSum p (ix1 j)) (hss : ∀ j : Fin 128, ss (ix2 0 j) = Spec.colSumSq p (ix1 j))
    (hp : p = Spec.pre co x a w1 b1) :
    Spec.post h (Spec.scaleOf (row0 s) (row0 ss) g)
      (Spec.shiftOf (row0 s) (row0 ss) g bt) w2 b2 x =
      Spec.layerMoment co x a w1 b1 g bt w2 b2 := by
  rw [show row0 s = Spec.colSum p from funext fun j => (hs (j 0)).trans (congrArg _ (eq_ix1 j).symm),
    show row0 ss = Spec.colSumSq p from funext fun j => (hss (j 0)).trans (congrArg _ (eq_ix1 j).symm), hh, hp]
  rfl

end Cert.KernelIdeal.Layers

end
-- ==== Proof.KLayer1.lean ====
import proofs.«426483_j67748814127260_1_alg».proof.Proof.KCarry
import proofs.«426483_j67748814127260_1_alg».proof.Proof.KEdges
import proofs.«426483_j67748814127260_1_alg».proof.Proof.KStage1
import proofs.«426483_j67748814127260_1_alg».proof.Proof.KStage2
import proofs.«426483_j67748814127260_1_alg».proof.Proof.KLayerMoment

noncomputable section

namespace Cert.KernelIdeal.Layers.L1

open Cert.KernelIdeal Cert.KernelIdeal.Gen Idealize.ShloMosaic Idealize.ShloMosaic.ValueIdx
open Idealize.ShloMosaic.TcCoe

section
variable (X : Valuation τ sig (Elt Ideal))

theorem ops_agg : StableHlo.after hostOps1_2 (StableHlo.after hostOps1_1 (StableHlo.after hostOps1 X)) main_v15 =
    aggRows (X main_v4) (X main_v1) (X main_v3) := by
  after_results_simp
  rfl

theorem ops_coef (i : S1x1.Idx) : (StableHlo.after hostOps1_2 X main_v23 : FVec Ideal S1x1 .f32) i = Spec.coefOf 0 Facts₀.slices_S4_S1_0 (X main_arg11) := by
  after_results
  exact scalar_cast_apply _ _ i

theorem ops_w1 : StableHlo.after hostOps1_2 X main_v20 =
    Spec.w1Of 0 Facts₀.slices_S4x64x128_S1x64x128_0_0_0 (X main_arg5) := by
  after_results
  try rfl

theorem ops_b1 : StableHlo.after hostOps1_2 X main_v22 = Spec.row128Of 0 Facts₀.slices_S4x128_S1x128_0_0 (X main_arg6) := by
  after_results
  try rfl

theorem ops_scale : StableHlo.after hostOps2 X main_v40 =
    Spec.scaleOf (row0 (X main_v24_1)) (row0 (X main_v24_2))
      (Spec.row128Of 0 Facts₀.slices_S4x128_S1x128_0_0 (X main_arg7)) := by
  after_results_simp
  exact scale_eq _ _ _ _ _ _

theorem ops_shift : StableHlo.after hostOps2 X main_v44 =
    Spec.shiftOf (row0 (X main_v24_1)) (row0 (X main_v24_2))
      (Spec.row128Of 0 Facts₀.slices_S4x128_S1x128_0_0 (X main_arg7)) (Spec.row128Of 0 Facts₀.slices_S4x128_S1x128_0_0 (X main_arg8)) := by
  after_results_simp
  exact shift_eq _ _ _ _ _ _ _

theorem ops_w2 : StableHlo.after hostOps2 X main_v46 =
    Spec.w2Of 0 Facts₀.slices_S4x128x64_S1x128x64_0_0_0 (X main_arg9) := by
  after_results_simp
  try rfl

theorem ops_b2 : StableHlo.after hostOps2 X main_v48 = Spec.row64Of 0 Facts₀.slices_S4x64_S1x64_0_0 (X main_arg10) := by
  after_results_simp
  try rfl

end

variable (m : (ℓ : Loc nD τ sig) → Buf (Elt Ideal) ℓ) (ρ : Dev nD → PrngReg)

theorem layer1_out (c : Dev nD) : (W8 (F := Ideal) m ρ c (Proc.devRef .tc main_v49) : FVec Ideal S100000x64 .f32) =
    Cert.Spec.layerMoment (Cert.Spec.coefOf 0 Facts₀.slices_S4_S1_0 (m ((c : Thread nD τ).loc main_arg11)))
      (W2 (F := Ideal) m ρ c (Proc.devRef .tc main_v4))
      (Cert.Spec.aggOf (W2 (F := Ideal) m ρ c (Proc.devRef .tc main_v4)) (m ((c : Thread nD τ).loc main_arg1)))
      (Cert.Spec.w1Of 0 Facts₀.slices_S4x64x128_S1x64x128_0_0_0 (m ((c : Thread nD τ).loc main_arg5)))
      (Cert.Spec.row128Of 0 Facts₀.slices_S4x128_S1x128_0_0 (m ((c : Thread nD τ).loc main_arg6)))
      (Cert.Spec.row128Of 0 Facts₀.slices_S4x128_S1x128_0_0 (m ((c : Thread nD τ).loc main_arg7)))
      (Cert.Spec.row128Of 0 Facts₀.slices_S4x128_S1x128_0_0 (m ((c : Thread nD τ).loc main_arg8)))
      (Cert.Spec.w2Of 0 Facts₀.slices_S4x128x64_S1x128x64_0_0_0 (m ((c : Thread nD τ).loc main_arg9)))
      (Cert.Spec.row64Of 0 Facts₀.slices_S4x64_S1x64_0_0 (m ((c : Thread nD τ).loc main_arg10))) := by
  refine (W8_arr m ρ c 6).trans ((Values.R2.post_out (V7 m ρ) c).trans ?_)
  dsimp only [V7]
  rw [Carry.W7_h, Carry.W7_x, show W7 m ρ c = StableHlo.after hostOps2 (W6 m ρ c) from rfl, ops_scale, ops_shift, ops_w2, ops_b2,
    Carry.W6_arg m ρ c main_arg7 (by decide), Carry.W6_arg m ρ c main_arg8 (by decide), Carry.W6_arg m ρ c main_arg9 (by decide),
    Carry.W6_arg m ρ c main_arg10 (by decide)]
  refine layerMoment_of ((W6_arr m ρ c 5).trans (Values.R1.pre_out (V5 m ρ) c))
    (fun j => (congrFun (W6_arr m ρ c 6) _).trans (Values.R1.sum_out (V5 m ρ) c j))
    (fun j => (congrFun (W6_arr m ρ c 7) _).trans (Values.R1.sumsq_out (V5 m ρ) c j)) ?_
  dsimp only [V5]
  rw [Carry.W5_x, show W5 m ρ c = StableHlo.after hostOps1_2 (W4 m ρ c) from rfl, ops_coef, ops_w1, ops_b1, ops_agg,
    Carry.W4_arg m ρ c main_arg11 (by decide), Carry.W4_arg m ρ c main_arg5 (by decide), Carry.W4_arg m ρ c main_arg6 (by decide),
    Carry.W2_src, Carry.from1_2 m ρ c main_v3 (by decide), Edges.edge_src, Edges.edge_dst]
  rfl

end Cert.KernelIdeal.Layers.L1

end
-- ==== Proof.KStage1_r3.lean ====
import proofs.«426483_j67748814127260_1_alg».proof.Proof.KStage1Lib
set_option maxRecDepth 16384

noncomputable section

namespace Cert.KernelIdeal.Values.R3
open Cert.KernelIdeal Cert.KernelIdeal.Gen Idealize.ShloMosaic Idealize.ShloMosaic.ValueIdx
open Idealize.ShloMosaic.TcCoe Idealize.SL.Sem
open Idealize.ShloMosaic.Pipeline (Dat)
open Cert.KernelIdeal.Values.S1 Cert.KernelIdeal.Values.RowBlock

section Pieces

variable {F : FTy → Type} [FloatOps F] (c : Dev nD) (i : grid3.Coords)
  (a1 : Memref sig .tc .vmem S5000x64 .f32) (h1 : a1.IsWhole) (a2 : Memref sig .tc .vmem S5000x64 .f32) (h2 : a2.IsWhole)
  (a3 : Memref sig .tc .vmem S1x1 .f32) (h3 : a3.IsWhole) (a4 : Memref sig .tc .vmem S64x128 .f32) (h4 : a4.IsWhole)
  (a5 : Memref sig .tc .vmem S128 .f32) (h5 : a5.IsWhole) (a6 : Memref sig .tc .vmem S5000x128 .f32) (h6 : a6.IsWhole)
  (a7 : Memref sig .tc .vmem S8x128 .f32) (h7 : a7.IsWhole) (a8 : Memref sig .tc .vmem S8x128 .f32) (h8 : a8.IsWhole)
  (x0 x1 : Vec F S5000x64 .f32) (x2 : Vec F S1x1 .f32) (x3 : Vec F S64x128 .f32) (x4 : Vec F S128 .f32)
  (xo6 xo7 : Vec F S8x128 .f32) (q : Fin 128)

/-- At the first point the stored pre-activation block is the block's value on the loaded blocks; likewise below at a later point. -/
theorem out_A_5_eq (hc : cond3_0 i) :
    out3_A_5 c i a1 h1 a2 h2 a3 h3 a4 h4 a5 h5 a6 h6 a7 h7 a8 h8 hc x0 x1 x2 x3 x4 = k1_pay4 x2 x0 x1 x3 x4 := by
  unfold out3_A_5
  rw [View.read_writes_eq_canon _ _ _ (cover3_A_5 c i a1 h1 a2 h2 a3 h3 a4 h4 a5 h5 a6 h6 a7 h7 a8 h8 hc x0 x1 x2 x3 x4)]
  unfold kernelRun3_A
  dsimp only
  sl_unfold_words
  rw [View.canon_unit_zero zero_pair]
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single] <;> rfl

theorem out_B_5_eq (hc : ¬cond3_0 i) :
    out3_B_5 c i a1 h1 a2 h2 a3 h3 a4 h4 a5 h5 a6 h6 a7 h7 a8 h8 hc x0 x1 x2 x3 x4 xo6 xo7 = k1_pay4 x2 x0 x1 x3 x4 := by
  unfold out3_B_5
  rw [View.read_writes_eq_canon _ _ _ (cover3_B_5 c i a1 h1 a2 h2 a3 h3 a4 h4 a5 h5 a6 h6 a7 h7 a8 h8 hc x0 x1 x2 x3 x4 xo6 xo7)]
  unfold kernelRun3_B
  dsimp only
  sl_unfold_words
  rw [View.canon_unit_zero zero_pair]
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single] <;> rfl

/-- At the first point row 0 of the running sums is the update of row 0 of the zero fill; at a later point, of what the point before left. -/
theorem out_A_6_row (hc : cond3_0 i) :
    out3_A_6 c i a1 h1 a2 h2 a3 h3 a4 h4 a5 h5 a6 h6 a7 h7 a8 h8 hc x0 x1 x2 x3 x4 (ix2 (0 : Fin 8) q)
      = k1_pay6 x2 x0 x1 x3 x4 (View.ld (k1_pay2 (F := F)) row0) (ix2 (0 : Fin 1) q) := by
  unfold out3_A_6
  rw [View.read_writes_eq_canon _ _ _ (cover3_A_6 c i a1 h1 a2 h2 a3 h3 a4 h4 a5 h5 a6 h6 a7 h7 a8 h8 hc x0 x1 x2 x3 x4)]
  unfold kernelRun3_A
  dsimp only
  sl_unfold_words
  refine (canon_row0 _ _ q).trans ?_
  rw [View.readCov_eq_canon', View.canon_unit_zero zero_pair]
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single] <;> rfl

theorem out_A_7_row (hc : cond3_0 i) :
    out3_A_7 c i a1 h1 a2 h2 a3 h3 a4 h4 a5 h5 a6 h6 a7 h7 a8 h8 hc x0 x1 x2 x3 x4 (ix2 (0 : Fin 8) q)
      = k1_pay1 (k1_pay5 x2 x0 x1 x3 x4) (k1_pay7 (View.ld (k1_pay3 (F := F)) row0)) (ix2 (0 : Fin 1) q) := by
  unfold out3_A_7
  rw [View.read_writes_eq_canon _ _ _ (cover3_A_7 c i a1 h1 a2 h2 a3 h3 a4 h4 a5 h5 a6 h6 a7 h7 a8 h8 hc x0 x1 x2 x3 x4)]
  unfold kernelRun3_A
  dsimp only
  sl_unfold_words
  refine (canon_row0 _ _ q).trans ?_
  rw [View.readCov_eq_canon', View.canon_unit_zero zero_pair]
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single] <;> rfl

theorem out_B_6_row (hc : ¬cond3_0 i) :
    out3_B_6 c i a1 h1 a2 h2 a3 h3 a4 h4 a5 h5 a6 h6 a7 h7 a8 h8 hc x0 x1 x2 x3 x4 xo6 xo7 (ix2 (0 : Fin 8) q)
      = k1_pay6 x2 x0 x1 x3 x4 (View.ld xo6 row0) (ix2 (0 : Fin 1) q) := by
  unfold out3_B_6
  unfold kernelRun3_B
  dsimp only
  sl_unfold_words
  refine (View.read_writes_cons_unit_of_mem a7.view _ Gen.inb_S8x128_S1x128_0_0 _ [] (ix2 (0 : Fin 8) q) (ix2 (0 : Fin 1) q) rfl
    (fun a => by
      match a with
      | ⟨0, _⟩ => rfl
      | ⟨1, _⟩ => show q.val = 0 + q.val; omega)).trans ?_
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single, h7.read_unread] <;> rfl

theorem out_B_7_row (hc : ¬cond3_0 i) :
    out3_B_7 c i a1 h1 a2 h2 a3 h3 a4 h4 a5 h5 a6 h6 a7 h7 a8 h8 hc x0 x1 x2 x3 x4 xo6 xo7 (ix2 (0 : Fin 8) q)
      = k1_pay1 (k1_pay5 x2 x0 x1 x3 x4) (k1_pay7 (View.ld xo7 row0)) (ix2 (0 : Fin 1) q) := by
  unfold out3_B_7
  unfold kernelRun3_B
  dsimp only
  sl_unfold_words
  refine (View.read_writes_cons_unit_of_mem a8.view _ Gen.inb_S8x128_S1x128_0_0 _ [] (ix2 (0 : Fin 8) q) (ix2 (0 : Fin 1) q) rfl
    (fun a => by
      match a with
      | ⟨0, _⟩ => rfl
      | ⟨1, _⟩ => show q.val = 0 + q.val; omega)).trans ?_
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single, h8.read_unread] <;> rfl

end Pieces

section Run

variable (V : (c : Dev nD) → (b : Ref sig .tc) → Buf (Elt Ideal) ((c : Thread nD τ).loc b))

theorem idx_facts : ∀ t : Fin cfg3.N, AtRow1 t.val (win3_0.index t) (win3_1.index t) (win3_2.index t) (win3_3.index t)
    (win3_4.index t) (win3_5.index t) :=
  (by decide +kernel : ∀ t : Fin grid3.N, _)

abbrev xblk (c : Dev nD) (t : Fin cfg3.N) : Vec Ideal S5000x64 .f32 := iblk3 V c 0 t

abbrev ablk (c : Dev nD) (t : Fin cfg3.N) : Vec Ideal S5000x64 .f32 := iblk3 V c 1 t

abbrev cblk (c : Dev nD) (t : Fin cfg3.N) : Vec Ideal S1x1 .f32 := iblk3 V c 2 t

abbrev wblk (c : Dev nD) (t : Fin cfg3.N) : Vec Ideal S64x128 .f32 := iblk3 V c 3 t

abbrev bblk (c : Dev nD) (t : Fin cfg3.N) : Vec Ideal S128 .f32 := iblk3 V c 4 t

abbrev hpre (c : Dev nD) : FVec Ideal S100000x128 .f32 :=
  Cert.Spec.pre (V c main_v68 (ix2 (0 : Fin 1) (0 : Fin 1))) (V c main_v49) (V c main_v60) (V c main_v65) (V c main_v67)

/-- The block computed at point `t` is rows `5000 t … 5000 t + 4999` of the pre-activation of the arrays the region finds. -/
theorem blk (c : Dev nD) (t : Fin cfg3.N) (j : S5000x128.Idx) :
    k1_pay4 (F := Ideal) (cblk V c t) (xblk V c t) (ablk V c t) (wblk V c t) (bblk V c t) j = hpre V c ((win3_5.rect t).emb j) :=
  pre_block (idx_facts t) (V c main_v68) (V c main_v49) (V c main_v60) (V c main_v65) (V c main_v67) (win3_0.rect t).emb
    (win3_1.rect t).emb (win3_2.rect t).emb (win3_3.rect t).emb (win3_4.rect t).emb (win3_5.rect t).emb (fun _ _ => rfl)
    (fun _ _ => rfl) (fun _ _ => rfl) (fun _ _ => rfl) (fun _ _ => rfl) (fun _ _ => rfl) j

theorem lt19 : 19 < cfg3.N := by rw [show cfg3.N = 20 from N_3]; decide

/-- Row 0 of the two accumulators after the last point: the column sums and sums of squares of the pre-activation. -/
theorem rows (c : Dev nD) (q : Fin 128) :
    (outsAt3 V c 19 lt19).2.1 (ix2 (0 : Fin 8) q) = Cert.Spec.colSum (hpre V c) (ix1 q)
    ∧ (outsAt3 V c 19 lt19).2.2 (ix2 (0 : Fin 8) q) = Cert.Spec.colSumSq (hpre V c) (ix1 q) :=
  acc_rows N_3 (fun n h => (outsAt3 V c n h).2.1) (fun n h => (outsAt3 V c n h).2.2) (cblk V c) (xblk V c) (ablk V c) (wblk V c)
    (bblk V c) (hpre V c) (fun t => (win3_5.rect t).emb) win3_5.index
    (fun t => (idx_facts t).2.2.2.2.2) (fun _ _ _ => rfl) (blk V c)
    (fun t h0 q => by
      show (outsAt3 V c t.val t.isLt).2.1 _ = _
      rw [outsAt3_A V c t h0]
      dsimp only
      exact out_A_6_row (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (xblk V c t) (ablk V c t) (cblk V c t) (wblk V c t) (bblk V c t) q ((hcond3_0 t).mpr h0))
    (fun t h0 q => by
      show (outsAt3 V c t.val t.isLt).2.2 _ = _
      rw [outsAt3_A V c t h0]
      dsimp only
      exact out_A_7_row (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (xblk V c t) (ablk V c t) (cblk V c t) (wblk V c t) (bblk V c t) q ((hcond3_0 t).mpr h0))
    (fun t h0 q => by
      show (outsAt3 V c t.val t.isLt).2.1 _ = _
      rw [outsAt3_B V c t h0]
      dsimp only
      exact out_B_6_row (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (xblk V c t) (ablk V c t) (cblk V c t) (wblk V c t) (bblk V c t)
        (outsAt3 V c (t.val - 1) (Nat.lt_of_le_of_lt (Nat.sub_le _ _) t.isLt)).2.1 (outsAt3 V c (t.val - 1) (Nat.lt_of_le_of_lt (Nat.sub_le _ _) t.isLt)).2.2 q (fun h => h0 ((hcond3_0 t).mp h)))
    (fun t h0 q => by
      show (outsAt3 V c t.val t.isLt).2.2 _ = _
      rw [outsAt3_B V c t h0]
      dsimp only
      exact out_B_7_row (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (xblk V c t) (ablk V c t) (cblk V c t) (wblk V c t) (bblk V c t)
        (outsAt3 V c (t.val - 1) (Nat.lt_of_le_of_lt (Nat.sub_le _ _) t.isLt)).2.1 (outsAt3 V c (t.val - 1) (Nat.lt_of_le_of_lt (Nat.sub_le _ _) t.isLt)).2.2 q (fun h => h0 ((hcond3_0 t).mp h)))
    lt19 q

theorem after5_eq (c : Dev nD) (t : Fin cfg3.N) :
    (outsAt3 V c t.val t.isLt).1 = k1_pay4 (F := Ideal) (cblk V c t) (xblk V c t) (ablk V c t) (wblk V c t) (bblk V c t) := by
  by_cases h0 : t.val % 20 = 0
  · rw [outsAt3_A V c t h0]
    dsimp only
    exact out_A_5_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (xblk V c t) (ablk V c t) (cblk V c t) (wblk V c t) (bblk V c t) ((hcond3_0 t).mpr h0)
  · rw [outsAt3_B V c t h0]
    dsimp only
    exact out_B_5_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (xblk V c t) (ablk V c t) (cblk V c t) (wblk V c t) (bblk V c t)
        (outsAt3 V c (t.val - 1) (Nat.lt_of_le_of_lt (Nat.sub_le _ _) t.isLt)).2.1 (outsAt3 V c (t.val - 1) (Nat.lt_of_le_of_lt (Nat.sub_le _ _) t.isLt)).2.2 (fun h => h0 ((hcond3_0 t).mp h))

/-- The pre-activation array after the region: row `r` is written by point `r / 5000`. -/
theorem pre_out (c : Dev nD) : (dat3 (F := Ideal) V c).arrAt 5 cfg3.N
    = Cert.Spec.pre (V c main_v68 (ix2 (0 : Fin 1) (0 : Fin 1))) (V c main_v49) (V c main_v60) (V c main_v65) (V c main_v67) :=
  (dat3 (F := Ideal) V c).arrAt_eq_of_cover 5 (hpre V c)
    (fun t _ => by
      show (cfg3.win 5).cut (grid3.coords t) ((dat3 (F := Ideal) V c).after 5 t) = _
      rw [after3_5, after5_eq]
      exact funext fun j => blk V c t j)
    fun i => (row_cover (N := cfg3.N) N_3 (io := win3_5.index) (fun t => (idx_facts t).2.2.2.2.2) i).imp fun t h => ⟨flush3_5 t, by
      show i ∈ ((View.whole main_v69_0).slice (win3_5.rect t)).set
      rw [View.set_slice_whole, Rect.mem_set_unit]
      exact h⟩

abbrev t19 : Fin cfg3.N := ⟨19, lt19⟩

abbrev res6 (c : Dev nD) : Buf (Elt Ideal) ((c : Thread nD τ).loc main_v69_1) := (outsAt3 V c 19 lt19).2.1

abbrev res7 (c : Dev nD) : Buf (Elt Ideal) ((c : Thread nD τ).loc main_v69_2) := (outsAt3 V c 19 lt19).2.2

theorem flushed6_eq (c : Dev nD) (t : Fin cfg3.N) (hf : (cfg3.win 6).flush t = true) :
    (dat3 (F := Ideal) V c).flushed 6 t = ((cfg3.win 6).blk t).view.read (Elt Ideal) (res6 V c) := by
  have hN : cfg3.N = 20 := N_3
  have h19 : t.val = 19 := by have := (flush3_6 t).mp hf; have := t.isLt; omega
  obtain rfl : t = t19 := Fin.ext h19
  show (cfg3.win 6).cut (grid3.coords t19) ((dat3 (F := Ideal) V c).after 6 t19) = _
  rw [after3_6]
  have zero_pair' : (fun a => win3_6.index t19 a * main_v69_1.ty.shape.size a) = fun _ => 0 :=
    funext fun a => by fin_cases a <;> decide +kernel
  exact (Memref.read_access_unit_zero (Elt Ideal) main_v69_1 zero_pair' (fun a => by rw [congrFun zero_pair' a]; simp) (res6 V c)).symm

theorem flushed7_eq (c : Dev nD) (t : Fin cfg3.N) (hf : (cfg3.win 7).flush t = true) :
    (dat3 (F := Ideal) V c).flushed 7 t = ((cfg3.win 7).blk t).view.read (Elt Ideal) (res7 V c) := by
  have hN : cfg3.N = 20 := N_3
  have h19 : t.val = 19 := by have := (flush3_7 t).mp hf; have := t.isLt; omega
  obtain rfl : t = t19 := Fin.ext h19
  show (cfg3.win 7).cut (grid3.coords t19) ((dat3 (F := Ideal) V c).after 7 t19) = _
  rw [after3_7]
  have zero_pair' : (fun a => win3_7.index t19 a * main_v69_2.ty.shape.size a) = fun _ => 0 :=
    funext fun a => by fin_cases a <;> decide +kernel
  exact (Memref.read_access_unit_zero (Elt Ideal) main_v69_2 zero_pair' (fun a => by rw [congrFun zero_pair' a]; simp) (res7 V c)).symm

/-- The sums' array after the region holds what the accumulator held after the last point. -/
theorem final6 (c : Dev nD) : (dat3 (F := Ideal) V c).arrAt 6 cfg3.N = res6 V c :=
  (dat3 (F := Ideal) V c).arrAt_eq_of_cover 6 (res6 V c) (flushed6_eq V c) fun i =>
    ⟨t19, (flush3_6 t19).mpr rfl, by
      show i ∈ ((View.whole main_v69_1).slice (win3_6.rect t19)).set
      rw [View.set_slice_whole, Rect.mem_set_unit]
      exact whole_mem (by decide +kernel) i⟩

theorem final7 (c : Dev nD) : (dat3 (F := Ideal) V c).arrAt 7 cfg3.N = res7 V c :=
  (dat3 (F := Ideal) V c).arrAt_eq_of_cover 7 (res7 V c) (flushed7_eq V c) fun i =>
    ⟨t19, (flush3_7 t19).mpr rfl, by
      show i ∈ ((View.whole main_v69_2).slice (win3_7.rect t19)).set
      rw [View.set_slice_whole, Rect.mem_set_unit]
      exact whole_mem (by decide +kernel) i⟩

theorem sum_out (c : Dev nD) (j : Fin 128) : (dat3 (F := Ideal) V c).arrAt 6 cfg3.N (ix2 (0 : Fin 8) j)
    = Cert.Spec.colSum (Cert.Spec.pre (V c main_v68 (ix2 (0 : Fin 1) (0 : Fin 1))) (V c main_v49) (V c main_v60) (V c main_v65)
        (V c main_v67)) (ix1 j) := by
  rw [final6]
  exact (rows V c j).1

theorem sumsq_out (c : Dev nD) (j : Fin 128) : (dat3 (F := Ideal) V c).arrAt 7 cfg3.N (ix2 (0 : Fin 8) j)
    = Cert.Spec.colSumSq (Cert.Spec.pre (V c main_v68 (ix2 (0 : Fin 1) (0 : Fin 1))) (V c main_v49) (V c main_v60) (V c main_v65)
        (V c main_v67)) (ix1 j) := by
  rw [final7]
  exact (rows V c j).2

end Run

end Cert.KernelIdeal.Values.R3

end
-- ==== Proof.KStage2_r4.lean ====
import proofs.«426483_j67748814127260_1_alg».proof.Proof.KRowBlock

noncomputable section

namespace Cert.KernelIdeal.Values.R4

open Cert.KernelIdeal Cert.KernelIdeal.Gen Cert.KernelIdeal.Facts₀ Cert.KernelIdeal.Values.RowBlock Idealize.ShloMosaic
open Idealize.ShloMosaic.TcCoe

variable (V : (c : Dev nD) → (b : Ref sig .tc) → Buf (Elt Ideal) ((c : Thread nD τ).loc b))

theorem idx_facts : ∀ t : Fin cfg4.N, AtRow t.val (win4_6.index t) (win4_0.index t) (win4_1.index t) (win4_2.index t)
    (win4_3.index t) (win4_4.index t) (win4_5.index t) :=
  (by decide +kernel : ∀ t : Fin grid4.N, _)

/-- The 20 row blocks cover the output array, and each is stored as that block of the layer's tail on the arrays the region finds. -/
theorem post_out (c : Dev nD) :
    (dat4 (F := Ideal) V c).arrAt 6 cfg4.N
      = Cert.Spec.post (V c main_v69_0) (V c main_v85) (V c main_v89) (V c main_v91) (V c main_v93) (V c main_v49) :=
  (dat4 (F := Ideal) V c).arrAt_eq_of_cover 6 _
    (fun t _ => by
      show (cfg4.win 6).cut (grid4.coords t) ((dat4 (F := Ideal) V c).after 6 t) = _
      rw [after4_6]
      exact funext fun j => tail_block (idx_facts t) (V c main_v69_0) (V c main_v85) (V c main_v89) (V c main_v91) (V c main_v93)
        (V c main_v49) (win4_0.rect t).emb (win4_1.rect t).emb (win4_2.rect t).emb (win4_3.rect t).emb (win4_4.rect t).emb
        (win4_5.rect t).emb (win4_6.rect t).emb (fun _ _ => rfl) (fun _ _ => rfl) (fun _ _ => rfl) (fun _ _ => rfl) (fun _ _ => rfl)
        (fun _ _ => rfl) (fun _ _ => rfl) j)
    fun i => (row_cover (N := cfg4.N) N_4 (io := win4_6.index) (fun t => (idx_facts t).1) i).imp fun t h => ⟨flush4_6 t, by
      show i ∈ ((View.whole main_v94).slice (win4_6.rect t)).set
      rw [View.set_slice_whole, Rect.mem_set_unit]
      exact h⟩

end Cert.KernelIdeal.Values.R4
end
-- ==== Proof.KLayer2.lean ====
import proofs.«426483_j67748814127260_1_alg».proof.Proof.KCarry
import proofs.«426483_j67748814127260_1_alg».proof.Proof.KEdges
import proofs.«426483_j67748814127260_1_alg».proof.Proof.KStage1_r3
import proofs.«426483_j67748814127260_1_alg».proof.Proof.KStage2_r4
import proofs.«426483_j67748814127260_1_alg».proof.Proof.KLayerMoment

noncomputable section

namespace Cert.KernelIdeal.Layers.L2

open Cert.KernelIdeal Cert.KernelIdeal.Gen Idealize.ShloMosaic Idealize.ShloMosaic.ValueIdx
open Idealize.ShloMosaic.TcCoe

section
variable (X : Valuation τ sig (Elt Ideal))

theorem ops_agg : StableHlo.after hostOps3_2 (StableHlo.after hostOps3_1 (StableHlo.after hostOps3 X)) main_v60 =
    aggRows (X main_v49) (X main_v1) (X main_v3) := by
  after_results_simp
  rfl

theorem ops_coef (i : S1x1.Idx) : (StableHlo.after hostOps3_2 X main_v68 : FVec Ideal S1x1 .f32) i = Spec.coefOf 1 Facts₀.slices_S4_S1_1 (X main_arg11) := by
  after_results
  exact scalar_cast_apply _ _ i

theorem ops_w1 : StableHlo.after hostOps3_2 X main_v65 =
    Spec.w1Of 1 Facts₀.slices_S4x64x128_S1x64x128_1_0_0 (X main_arg5) := by
  after_results
  try rfl

theorem ops_b1 : StableHlo.after hostOps3_2 X main_v67 = Spec.row128Of 1 Facts₀.slices_S4x128_S1x128_1_0 (X main_arg6) := by
  after_results
  try rfl

theorem ops_scale : StableHlo.after hostOps4 X main_v85 =
    Spec.scaleOf (row0 (X main_v69_1)) (row0 (X main_v69_2))
      (Spec.row128Of 1 Facts₀.slices_S4x128_S1x128_1_0 (X main_arg7)) := by
  after_results_simp
  exact scale_eq _ _ _ _ _ _

theorem ops_shift : StableHlo.after hostOps4 X main_v89 =
    Spec.shiftOf (row0 (X main_v69_1)) (row0 (X main_v69_2))
      (Spec.row128Of 1 Facts₀.slices_S4x128_S1x128_1_0 (X main_arg7)) (Spec.row128Of 1 Facts₀.slices_S4x128_S1x128_1_0 (X main_arg8)) := by
  after_results_simp
  exact shift_eq _ _ _ _ _ _ _

theorem ops_w2 : StableHlo.after hostOps4 X main_v91 =
    Spec.w2Of 1 Facts₀.slices_S4x128x64_S1x128x64_1_0_0 (X main_arg9) := by
  after_results_simp
  try rfl

theorem ops_b2 : StableHlo.after hostOps4 X main_v93 = Spec.row64Of 1 Facts₀.slices_S4x64_S1x64_1_0 (X main_arg10) := by
  after_results_simp
  try rfl

end

variable (m : (ℓ : Loc nD τ sig) → Buf (Elt Ideal) ℓ) (ρ : Dev nD → PrngReg)

theorem layer1_out (c : Dev nD) : (W14 (F := Ideal) m ρ c (Proc.devRef .tc main_v94) : FVec Ideal S100000x64 .f32) =
    Cert.Spec.layerMoment (Cert.Spec.coefOf 1 Facts₀.slices_S4_S1_1 (m ((c : Thread nD τ).loc main_arg11)))
      (W8 (F := Ideal) m ρ c (Proc.devRef .tc main_v49))
      (Cert.Spec.aggOf (W8 (F := Ideal) m ρ c (Proc.devRef .tc main_v49)) (m ((c : Thread nD τ).loc main_arg1)))
      (Cert.Spec.w1Of 1 Facts₀.slices_S4x64x128_S1x64x128_1_0_0 (m ((c : Thread nD τ).loc main_arg5)))
      (Cert.Spec.row128Of 1 Facts₀.slices_S4x128_S1x128_1_0 (m ((c : Thread nD τ).loc main_arg6)))
      (Cert.Spec.row128Of 1 Facts₀.slices_S4x128_S1x128_1_0 (m ((c : Thread nD τ).loc main_arg7)))
      (Cert.Spec.row128Of 1 Facts₀.slices_S4x128_S1x128_1_0 (m ((c : Thread nD τ).loc main_arg8)))
      (Cert.Spec.w2Of 1 Facts₀.slices_S4x128x64_S1x128x64_1_0_0 (m ((c : Thread nD τ).loc main_arg9)))
      (Cert.Spec.row64Of 1 Facts₀.slices_S4x64_S1x64_1_0 (m ((c : Thread nD τ).loc main_arg10))) := by
  refine (W14_arr m ρ c 6).trans ((Values.R4.post_out (V13 m ρ) c).trans ?_)
  dsimp only [V13]
  rw [Carry.W13_h, Carry.W13_x, show W13 m ρ c = StableHlo.after hostOps4 (W12 m ρ c) from rfl, ops_scale, ops_shift, ops_w2, ops_b2,
    Carry.W12_arg m ρ c main_arg7 (by decide), Carry.W12_arg m ρ c main_arg8 (by decide), Carry.W12_arg m ρ c main_arg9 (by decide),
    Carry.W12_arg m ρ c main_arg10 (by decide)]
  refine layerMoment_of ((W12_arr m ρ c 5).trans (Values.R3.pre_out (V11 m ρ) c))
    (fun j => (congrFun (W12_arr m ρ c 6) _).trans (Values.R3.sum_out (V11 m ρ) c j))
    (fun j => (congrFun (W12_arr m ρ c 7) _).trans (Values.R3.sumsq_out (V11 m ρ) c j)) ?_
  dsimp only [V11]
  rw [Carry.W11_x, show W11 m ρ c = StableHlo.after hostOps3_2 (W10 m ρ c) from rfl, ops_coef, ops_w1, ops_b1, ops_agg,
    Carry.W10_arg m ρ c main_arg11 (by decide), Carry.W10_arg m ρ c main_arg5 (by decide), Carry.W10_arg m ρ c main_arg6 (by decide),
    Carry.W8_src, Carry.from1_8 m ρ c main_v3 (by decide), Edges.edge_src, Edges.edge_dst]
  rfl

end Cert.KernelIdeal.Layers.L2

end
-- ==== Proof.KStage1_r5.lean ====
import proofs.«426483_j67748814127260_1_alg».proof.Proof.KStage1Lib
set_option maxRecDepth 16384

noncomputable section

namespace Cert.KernelIdeal.Values.R5
open Cert.KernelIdeal Cert.KernelIdeal.Gen Idealize.ShloMosaic Idealize.ShloMosaic.ValueIdx
open Idealize.ShloMosaic.TcCoe Idealize.SL.Sem
open Idealize.ShloMosaic.Pipeline (Dat)
open Cert.KernelIdeal.Values.S1 Cert.KernelIdeal.Values.RowBlock

section Pieces

variable {F : FTy → Type} [FloatOps F] (c : Dev nD) (i : grid5.Coords)
  (a1 : Memref sig .tc .vmem S5000x64 .f32) (h1 : a1.IsWhole) (a2 : Memref sig .tc .vmem S5000x64 .f32) (h2 : a2.IsWhole)
  (a3 : Memref sig .tc .vmem S1x1 .f32) (h3 : a3.IsWhole) (a4 : Memref sig .tc .vmem S64x128 .f32) (h4 : a4.IsWhole)
  (a5 : Memref sig .tc .vmem S128 .f32) (h5 : a5.IsWhole) (a6 : Memref sig .tc .vmem S5000x128 .f32) (h6 : a6.IsWhole)
  (a7 : Memref sig .tc .vmem S8x128 .f32) (h7 : a7.IsWhole) (a8 : Memref sig .tc .vmem S8x128 .f32) (h8 : a8.IsWhole)
  (x0 x1 : Vec F S5000x64 .f32) (x2 : Vec F S1x1 .f32) (x3 : Vec F S64x128 .f32) (x4 : Vec F S128 .f32)
  (xo6 xo7 : Vec F S8x128 .f32) (q : Fin 128)

/-- At the first point the stored pre-activation block is the block's value on the loaded blocks; likewise below at a later point. -/
theorem out_A_5_eq (hc : cond5_0 i) :
    out5_A_5 c i a1 h1 a2 h2 a3 h3 a4 h4 a5 h5 a6 h6 a7 h7 a8 h8 hc x0 x1 x2 x3 x4 = k1_pay4 x2 x0 x1 x3 x4 := by
  unfold out5_A_5
  rw [View.read_writes_eq_canon _ _ _ (cover5_A_5 c i a1 h1 a2 h2 a3 h3 a4 h4 a5 h5 a6 h6 a7 h7 a8 h8 hc x0 x1 x2 x3 x4)]
  unfold kernelRun5_A
  dsimp only
  sl_unfold_words
  rw [View.canon_unit_zero zero_pair]
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single] <;> rfl

theorem out_B_5_eq (hc : ¬cond5_0 i) :
    out5_B_5 c i a1 h1 a2 h2 a3 h3 a4 h4 a5 h5 a6 h6 a7 h7 a8 h8 hc x0 x1 x2 x3 x4 xo6 xo7 = k1_pay4 x2 x0 x1 x3 x4 := by
  unfold out5_B_5
  rw [View.read_writes_eq_canon _ _ _ (cover5_B_5 c i a1 h1 a2 h2 a3 h3 a4 h4 a5 h5 a6 h6 a7 h7 a8 h8 hc x0 x1 x2 x3 x4 xo6 xo7)]
  unfold kernelRun5_B
  dsimp only
  sl_unfold_words
  rw [View.canon_unit_zero zero_pair]
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single] <;> rfl

/-- At the first point row 0 of the running sums is the update of row 0 of the zero fill; at a later point, of what the point before left. -/
theorem out_A_6_row (hc : cond5_0 i) :
    out5_A_6 c i a1 h1 a2 h2 a3 h3 a4 h4 a5 h5 a6 h6 a7 h7 a8 h8 hc x0 x1 x2 x3 x4 (ix2 (0 : Fin 8) q)
      = k1_pay6 x2 x0 x1 x3 x4 (View.ld (k1_pay2 (F := F)) row0) (ix2 (0 : Fin 1) q) := by
  unfold out5_A_6
  rw [View.read_writes_eq_canon _ _ _ (cover5_A_6 c i a1 h1 a2 h2 a3 h3 a4 h4 a5 h5 a6 h6 a7 h7 a8 h8 hc x0 x1 x2 x3 x4)]
  unfold kernelRun5_A
  dsimp only
  sl_unfold_words
  refine (canon_row0 _ _ q).trans ?_
  rw [View.readCov_eq_canon', View.canon_unit_zero zero_pair]
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single] <;> rfl

theorem out_A_7_row (hc : cond5_0 i) :
    out5_A_7 c i a1 h1 a2 h2 a3 h3 a4 h4 a5 h5 a6 h6 a7 h7 a8 h8 hc x0 x1 x2 x3 x4 (ix2 (0 : Fin 8) q)
      = k1_pay1 (k1_pay5 x2 x0 x1 x3 x4) (k1_pay7 (View.ld (k1_pay3 (F := F)) row0)) (ix2 (0 : Fin 1) q) := by
  unfold out5_A_7
  rw [View.read_writes_eq_canon _ _ _ (cover5_A_7 c i a1 h1 a2 h2 a3 h3 a4 h4 a5 h5 a6 h6 a7 h7 a8 h8 hc x0 x1 x2 x3 x4)]
  unfold kernelRun5_A
  dsimp only
  sl_unfold_words
  refine (canon_row0 _ _ q).trans ?_
  rw [View.readCov_eq_canon', View.canon_unit_zero zero_pair]
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single] <;> rfl

theorem out_B_6_row (hc : ¬cond5_0 i) :
    out5_B_6 c i a1 h1 a2 h2 a3 h3 a4 h4 a5 h5 a6 h6 a7 h7 a8 h8 hc x0 x1 x2 x3 x4 xo6 xo7 (ix2 (0 : Fin 8) q)
      = k1_pay6 x2 x0 x1 x3 x4 (View.ld xo6 row0) (ix2 (0 : Fin 1) q) := by
  unfold out5_B_6
  unfold kernelRun5_B
  dsimp only
  sl_unfold_words
  refine (View.read_writes_cons_unit_of_mem a7.view _ Gen.inb_S8x128_S1x128_0_0 _ [] (ix2 (0 : Fin 8) q) (ix2 (0 : Fin 1) q) rfl
    (fun a => by
      match a with
      | ⟨0, _⟩ => rfl
      | ⟨1, _⟩ => show q.val = 0 + q.val; omega)).trans ?_
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single, h7.read_unread] <;> rfl

theorem out_B_7_row (hc : ¬cond5_0 i) :
    out5_B_7 c i a1 h1 a2 h2 a3 h3 a4 h4 a5 h5 a6 h6 a7 h7 a8 h8 hc x0 x1 x2 x3 x4 xo6 xo7 (ix2 (0 : Fin 8) q)
      = k1_pay1 (k1_pay5 x2 x0 x1 x3 x4) (k1_pay7 (View.ld xo7 row0)) (ix2 (0 : Fin 1) q) := by
  unfold out5_B_7
  unfold kernelRun5_B
  dsimp only
  sl_unfold_words
  refine (View.read_writes_cons_unit_of_mem a8.view _ Gen.inb_S8x128_S1x128_0_0 _ [] (ix2 (0 : Fin 8) q) (ix2 (0 : Fin 1) q) rfl
    (fun a => by
      match a with
      | ⟨0, _⟩ => rfl
      | ⟨1, _⟩ => show q.val = 0 + q.val; omega)).trans ?_
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single, h8.read_unread] <;> rfl

end Pieces

section Run

variable (V : (c : Dev nD) → (b : Ref sig .tc) → Buf (Elt Ideal) ((c : Thread nD τ).loc b))

theorem idx_facts : ∀ t : Fin cfg5.N, AtRow1 t.val (win5_0.index t) (win5_1.index t) (win5_2.index t) (win5_3.index t)
    (win5_4.index t) (win5_5.index t) :=
  (by decide +kernel : ∀ t : Fin grid5.N, _)

abbrev xblk (c : Dev nD) (t : Fin cfg5.N) : Vec Ideal S5000x64 .f32 := iblk5 V c 0 t

abbrev ablk (c : Dev nD) (t : Fin cfg5.N) : Vec Ideal S5000x64 .f32 := iblk5 V c 1 t

abbrev cblk (c : Dev nD) (t : Fin cfg5.N) : Vec Ideal S1x1 .f32 := iblk5 V c 2 t

abbrev wblk (c : Dev nD) (t : Fin cfg5.N) : Vec Ideal S64x128 .f32 := iblk5 V c 3 t

abbrev bblk (c : Dev nD) (t : Fin cfg5.N) : Vec Ideal S128 .f32 := iblk5 V c 4 t

abbrev hpre (c : Dev nD) : FVec Ideal S100000x128 .f32 :=
  Cert.Spec.pre (V c main_v113 (ix2 (0 : Fin 1) (0 : Fin 1))) (V c main_v94) (V c main_v105) (V c main_v110) (V c main_v112)

/-- The block computed at point `t` is rows `5000 t … 5000 t + 4999` of the pre-activation of the arrays the region finds. -/
theorem blk (c : Dev nD) (t : Fin cfg5.N) (j : S5000x128.Idx) :
    k1_pay4 (F := Ideal) (cblk V c t) (xblk V c t) (ablk V c t) (wblk V c t) (bblk V c t) j = hpre V c ((win5_5.rect t).emb j) :=
  pre_block (idx_facts t) (V c main_v113) (V c main_v94) (V c main_v105) (V c main_v110) (V c main_v112) (win5_0.rect t).emb
    (win5_1.rect t).emb (win5_2.rect t).emb (win5_3.rect t).emb (win5_4.rect t).emb (win5_5.rect t).emb (fun _ _ => rfl)
    (fun _ _ => rfl) (fun _ _ => rfl) (fun _ _ => rfl) (fun _ _ => rfl) (fun _ _ => rfl) j

theorem lt19 : 19 < cfg5.N := by rw [show cfg5.N = 20 from N_5]; decide

/-- Row 0 of the two accumulators after the last point: the column sums and sums of squares of the pre-activation. -/
theorem rows (c : Dev nD) (q : Fin 128) :
    (outsAt5 V c 19 lt19).2.1 (ix2 (0 : Fin 8) q) = Cert.Spec.colSum (hpre V c) (ix1 q)
    ∧ (outsAt5 V c 19 lt19).2.2 (ix2 (0 : Fin 8) q) = Cert.Spec.colSumSq (hpre V c) (ix1 q) :=
  acc_rows N_5 (fun n h => (outsAt5 V c n h).2.1) (fun n h => (outsAt5 V c n h).2.2) (cblk V c) (xblk V c) (ablk V c) (wblk V c)
    (bblk V c) (hpre V c) (fun t => (win5_5.rect t).emb) win5_5.index
    (fun t => (idx_facts t).2.2.2.2.2) (fun _ _ _ => rfl) (blk V c)
    (fun t h0 q => by
      show (outsAt5 V c t.val t.isLt).2.1 _ = _
      rw [outsAt5_A V c t h0]
      dsimp only
      exact out_A_6_row (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (xblk V c t) (ablk V c t) (cblk V c t) (wblk V c t) (bblk V c t) q ((hcond5_0 t).mpr h0))
    (fun t h0 q => by
      show (outsAt5 V c t.val t.isLt).2.2 _ = _
      rw [outsAt5_A V c t h0]
      dsimp only
      exact out_A_7_row (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (xblk V c t) (ablk V c t) (cblk V c t) (wblk V c t) (bblk V c t) q ((hcond5_0 t).mpr h0))
    (fun t h0 q => by
      show (outsAt5 V c t.val t.isLt).2.1 _ = _
      rw [outsAt5_B V c t h0]
      dsimp only
      exact out_B_6_row (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (xblk V c t) (ablk V c t) (cblk V c t) (wblk V c t) (bblk V c t)
        (outsAt5 V c (t.val - 1) (Nat.lt_of_le_of_lt (Nat.sub_le _ _) t.isLt)).2.1 (outsAt5 V c (t.val - 1) (Nat.lt_of_le_of_lt (Nat.sub_le _ _) t.isLt)).2.2 q (fun h => h0 ((hcond5_0 t).mp h)))
    (fun t h0 q => by
      show (outsAt5 V c t.val t.isLt).2.2 _ = _
      rw [outsAt5_B V c t h0]
      dsimp only
      exact out_B_7_row (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (xblk V c t) (ablk V c t) (cblk V c t) (wblk V c t) (bblk V c t)
        (outsAt5 V c (t.val - 1) (Nat.lt_of_le_of_lt (Nat.sub_le _ _) t.isLt)).2.1 (outsAt5 V c (t.val - 1) (Nat.lt_of_le_of_lt (Nat.sub_le _ _) t.isLt)).2.2 q (fun h => h0 ((hcond5_0 t).mp h)))
    lt19 q

theorem after5_eq (c : Dev nD) (t : Fin cfg5.N) :
    (outsAt5 V c t.val t.isLt).1 = k1_pay4 (F := Ideal) (cblk V c t) (xblk V c t) (ablk V c t) (wblk V c t) (bblk V c t) := by
  by_cases h0 : t.val % 20 = 0
  · rw [outsAt5_A V c t h0]
    dsimp only
    exact out_A_5_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (xblk V c t) (ablk V c t) (cblk V c t) (wblk V c t) (bblk V c t) ((hcond5_0 t).mpr h0)
  · rw [outsAt5_B V c t h0]
    dsimp only
    exact out_B_5_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (xblk V c t) (ablk V c t) (cblk V c t) (wblk V c t) (bblk V c t)
        (outsAt5 V c (t.val - 1) (Nat.lt_of_le_of_lt (Nat.sub_le _ _) t.isLt)).2.1 (outsAt5 V c (t.val - 1) (Nat.lt_of_le_of_lt (Nat.sub_le _ _) t.isLt)).2.2 (fun h => h0 ((hcond5_0 t).mp h))

/-- The pre-activation array after the region: row `r` is written by point `r / 5000`. -/
theorem pre_out (c : Dev nD) : (dat5 (F := Ideal) V c).arrAt 5 cfg5.N
    = Cert.Spec.pre (V c main_v113 (ix2 (0 : Fin 1) (0 : Fin 1))) (V c main_v94) (V c main_v105) (V c main_v110) (V c main_v112) :=
  (dat5 (F := Ideal) V c).arrAt_eq_of_cover 5 (hpre V c)
    (fun t _ => by
      show (cfg5.win 5).cut (grid5.coords t) ((dat5 (F := Ideal) V c).after 5 t) = _
      rw [after5_5, after5_eq]
      exact funext fun j => blk V c t j)
    fun i => (row_cover (N := cfg5.N) N_5 (io := win5_5.index) (fun t => (idx_facts t).2.2.2.2.2) i).imp fun t h => ⟨flush5_5 t, by
      show i ∈ ((View.whole main_v114_0).slice (win5_5.rect t)).set
      rw [View.set_slice_whole, Rect.mem_set_unit]
      exact h⟩

abbrev t19 : Fin cfg5.N := ⟨19, lt19⟩

abbrev res6 (c : Dev nD) : Buf (Elt Ideal) ((c : Thread nD τ).loc main_v114_1) := (outsAt5 V c 19 lt19).2.1

abbrev res7 (c : Dev nD) : Buf (Elt Ideal) ((c : Thread nD τ).loc main_v114_2) := (outsAt5 V c 19 lt19).2.2

theorem flushed6_eq (c : Dev nD) (t : Fin cfg5.N) (hf : (cfg5.win 6).flush t = true) :
    (dat5 (F := Ideal) V c).flushed 6 t = ((cfg5.win 6).blk t).view.read (Elt Ideal) (res6 V c) := by
  have hN : cfg5.N = 20 := N_5
  have h19 : t.val = 19 := by have := (flush5_6 t).mp hf; have := t.isLt; omega
  obtain rfl : t = t19 := Fin.ext h19
  show (cfg5.win 6).cut (grid5.coords t19) ((dat5 (F := Ideal) V c).after 6 t19) = _
  rw [after5_6]
  have zero_pair' : (fun a => win5_6.index t19 a * main_v114_1.ty.shape.size a) = fun _ => 0 :=
    funext fun a => by fin_cases a <;> decide +kernel
  exact (Memref.read_access_unit_zero (Elt Ideal) main_v114_1 zero_pair' (fun a => by rw [congrFun zero_pair' a]; simp) (res6 V c)).symm

theorem flushed7_eq (c : Dev nD) (t : Fin cfg5.N) (hf : (cfg5.win 7).flush t = true) :
    (dat5 (F := Ideal) V c).flushed 7 t = ((cfg5.win 7).blk t).view.read (Elt Ideal) (res7 V c) := by
  have hN : cfg5.N = 20 := N_5
  have h19 : t.val = 19 := by have := (flush5_7 t).mp hf; have := t.isLt; omega
  obtain rfl : t = t19 := Fin.ext h19
  show (cfg5.win 7).cut (grid5.coords t19) ((dat5 (F := Ideal) V c).after 7 t19) = _
  rw [after5_7]
  have zero_pair' : (fun a => win5_7.index t19 a * main_v114_2.ty.shape.size a) = fun _ => 0 :=
    funext fun a => by fin_cases a <;> decide +kernel
  exact (Memref.read_access_unit_zero (Elt Ideal) main_v114_2 zero_pair' (fun a => by rw [congrFun zero_pair' a]; simp) (res7 V c)).symm

/-- The sums' array after the region holds what the accumulator held after the last point. -/
theorem final6 (c : Dev nD) : (dat5 (F := Ideal) V c).arrAt 6 cfg5.N = res6 V c :=
  (dat5 (F := Ideal) V c).arrAt_eq_of_cover 6 (res6 V c) (flushed6_eq V c) fun i =>
    ⟨t19, (flush5_6 t19).mpr rfl, by
      show i ∈ ((View.whole main_v114_1).slice (win5_6.rect t19)).set
      rw [View.set_slice_whole, Rect.mem_set_unit]
      exact whole_mem (by decide +kernel) i⟩

theorem final7 (c : Dev nD) : (dat5 (F := Ideal) V c).arrAt 7 cfg5.N = res7 V c :=
  (dat5 (F := Ideal) V c).arrAt_eq_of_cover 7 (res7 V c) (flushed7_eq V c) fun i =>
    ⟨t19, (flush5_7 t19).mpr rfl, by
      show i ∈ ((View.whole main_v114_2).slice (win5_7.rect t19)).set
      rw [View.set_slice_whole, Rect.mem_set_unit]
      exact whole_mem (by decide +kernel) i⟩

theorem sum_out (c : Dev nD) (j : Fin 128) : (dat5 (F := Ideal) V c).arrAt 6 cfg5.N (ix2 (0 : Fin 8) j)
    = Cert.Spec.colSum (Cert.Spec.pre (V c main_v113 (ix2 (0 : Fin 1) (0 : Fin 1))) (V c main_v94) (V c main_v105) (V c main_v110)
        (V c main_v112)) (ix1 j) := by
  rw [final6]
  exact (rows V c j).1

theorem sumsq_out (c : Dev nD) (j : Fin 128) : (dat5 (F := Ideal) V c).arrAt 7 cfg5.N (ix2 (0 : Fin 8) j)
    = Cert.Spec.colSumSq (Cert.Spec.pre (V c main_v113 (ix2 (0 : Fin 1) (0 : Fin 1))) (V c main_v94) (V c main_v105) (V c main_v110)
        (V c main_v112)) (ix1 j) := by
  rw [final7]
  exact (rows V c j).2

end Run

end Cert.KernelIdeal.Values.R5

end
-- ==== Proof.KStage2_r6.lean ====
import proofs.«426483_j67748814127260_1_alg».proof.Proof.KRowBlock

noncomputable section

namespace Cert.KernelIdeal.Values.R6

open Cert.KernelIdeal Cert.KernelIdeal.Gen Cert.KernelIdeal.Facts₀ Cert.KernelIdeal.Values.RowBlock Idealize.ShloMosaic
open Idealize.ShloMosaic.TcCoe

variable (V : (c : Dev nD) → (b : Ref sig .tc) → Buf (Elt Ideal) ((c : Thread nD τ).loc b))

theorem idx_facts : ∀ t : Fin cfg6.N, AtRow t.val (win6_6.index t) (win6_0.index t) (win6_1.index t) (win6_2.index t)
    (win6_3.index t) (win6_4.index t) (win6_5.index t) :=
  (by decide +kernel : ∀ t : Fin grid6.N, _)

/-- The 20 row blocks cover the output array, and each is stored as that block of the layer's tail on the arrays the region finds. -/
theorem post_out (c : Dev nD) :
    (dat6 (F := Ideal) V c).arrAt 6 cfg6.N
      = Cert.Spec.post (V c main_v114_0) (V c main_v130) (V c main_v134) (V c main_v136) (V c main_v138) (V c main_v94) :=
  (dat6 (F := Ideal) V c).arrAt_eq_of_cover 6 _
    (fun t _ => by
      show (cfg6.win 6).cut (grid6.coords t) ((dat6 (F := Ideal) V c).after 6 t) = _
      rw [after6_6]
      exact funext fun j => tail_block (idx_facts t) (V c main_v114_0) (V c main_v130) (V c main_v134) (V c main_v136) (V c main_v138)
        (V c main_v94) (win6_0.rect t).emb (win6_1.rect t).emb (win6_2.rect t).emb (win6_3.rect t).emb (win6_4.rect t).emb
        (win6_5.rect t).emb (win6_6.rect t).emb (fun _ _ => rfl) (fun _ _ => rfl) (fun _ _ => rfl) (fun _ _ => rfl) (fun _ _ => rfl)
        (fun _ _ => rfl) (fun _ _ => rfl) j)
    fun i => (row_cover (N := cfg6.N) N_6 (io := win6_6.index) (fun t => (idx_facts t).1) i).imp fun t h => ⟨flush6_6 t, by
      show i ∈ ((View.whole main_v139).slice (win6_6.rect t)).set
      rw [View.set_slice_whole, Rect.mem_set_unit]
      exact h⟩

end Cert.KernelIdeal.Values.R6
end
-- ==== Proof.KLayer3.lean ====
import proofs.«426483_j67748814127260_1_alg».proof.Proof.KCarry
import proofs.«426483_j67748814127260_1_alg».proof.Proof.KEdges
import proofs.«426483_j67748814127260_1_alg».proof.Proof.KStage1_r5
import proofs.«426483_j67748814127260_1_alg».proof.Proof.KStage2_r6
import proofs.«426483_j67748814127260_1_alg».proof.Proof.KLayerMoment

noncomputable section

namespace Cert.KernelIdeal.Layers.L3

open Cert.KernelIdeal Cert.KernelIdeal.Gen Idealize.ShloMosaic Idealize.ShloMosaic.ValueIdx
open Idealize.ShloMosaic.TcCoe

section
variable (X : Valuation τ sig (Elt Ideal))

theorem ops_agg : StableHlo.after hostOps5_2 (StableHlo.after hostOps5_1 (StableHlo.after hostOps5 X)) main_v105 =
    aggRows (X main_v94) (X main_v1) (X main_v3) := by
  after_results_simp
  rfl

theorem ops_coef (i : S1x1.Idx) : (StableHlo.after hostOps5_2 X main_v113 : FVec Ideal S1x1 .f32) i = Spec.coefOf 2 Facts₀.slices_S4_S1_2 (X main_arg11) := by
  after_results
  exact scalar_cast_apply _ _ i

theorem ops_w1 : StableHlo.after hostOps5_2 X main_v110 =
    Spec.w1Of 2 Facts₀.slices_S4x64x128_S1x64x128_2_0_0 (X main_arg5) := by
  after_results
  try rfl

theorem ops_b1 : StableHlo.after hostOps5_2 X main_v112 = Spec.row128Of 2 Facts₀.slices_S4x128_S1x128_2_0 (X main_arg6) := by
  after_results
  try rfl

theorem ops_scale : StableHlo.after hostOps6 X main_v130 =
    Spec.scaleOf (row0 (X main_v114_1)) (row0 (X main_v114_2))
      (Spec.row128Of 2 Facts₀.slices_S4x128_S1x128_2_0 (X main_arg7)) := by
  after_results_simp
  exact scale_eq _ _ _ _ _ _

theorem ops_shift : StableHlo.after hostOps6 X main_v134 =
    Spec.shiftOf (row0 (X main_v114_1)) (row0 (X main_v114_2))
      (Spec.row128Of 2 Facts₀.slices_S4x128_S1x128_2_0 (X main_arg7)) (Spec.row128Of 2 Facts₀.slices_S4x128_S1x128_2_0 (X main_arg8)) := by
  after_results_simp
  exact shift_eq _ _ _ _ _ _ _

theorem ops_w2 : StableHlo.after hostOps6 X main_v136 =
    Spec.w2Of 2 Facts₀.slices_S4x128x64_S1x128x64_2_0_0 (X main_arg9) := by
  after_results_simp
  try rfl

theorem ops_b2 : StableHlo.after hostOps6 X main_v138 = Spec.row64Of 2 Facts₀.slices_S4x64_S1x64_2_0 (X main_arg10) := by
  after_results_simp
  try rfl

end

variable (m : (ℓ : Loc nD τ sig) → Buf (Elt Ideal) ℓ) (ρ : Dev nD → PrngReg)

theorem layer1_out (c : Dev nD) : (W20 (F := Ideal) m ρ c (Proc.devRef .tc main_v139) : FVec Ideal S100000x64 .f32) =
    Cert.Spec.layerMoment (Cert.Spec.coefOf 2 Facts₀.slices_S4_S1_2 (m ((c : Thread nD τ).loc main_arg11)))
      (W14 (F := Ideal) m ρ c (Proc.devRef .tc main_v94))
      (Cert.Spec.aggOf (W14 (F := Ideal) m ρ c (Proc.devRef .tc main_v94)) (m ((c : Thread nD τ).loc main_arg1)))
      (Cert.Spec.w1Of 2 Facts₀.slices_S4x64x128_S1x64x128_2_0_0 (m ((c : Thread nD τ).loc main_arg5)))
      (Cert.Spec.row128Of 2 Facts₀.slices_S4x128_S1x128_2_0 (m ((c : Thread nD τ).loc main_arg6)))
      (Cert.Spec.row128Of 2 Facts₀.slices_S4x128_S1x128_2_0 (m ((c : Thread nD τ).loc main_arg7)))
      (Cert.Spec.row128Of 2 Facts₀.slices_S4x128_S1x128_2_0 (m ((c : Thread nD τ).loc main_arg8)))
      (Cert.Spec.w2Of 2 Facts₀.slices_S4x128x64_S1x128x64_2_0_0 (m ((c : Thread nD τ).loc main_arg9)))
      (Cert.Spec.row64Of 2 Facts₀.slices_S4x64_S1x64_2_0 (m ((c : Thread nD τ).loc main_arg10))) := by
  refine (W20_arr m ρ c 6).trans ((Values.R6.post_out (V19 m ρ) c).trans ?_)
  dsimp only [V19]
  rw [Carry.W19_h, Carry.W19_x, show W19 m ρ c = StableHlo.after hostOps6 (W18 m ρ c) from rfl, ops_scale, ops_shift, ops_w2, ops_b2,
    Carry.W18_arg m ρ c main_arg7 (by decide), Carry.W18_arg m ρ c main_arg8 (by decide), Carry.W18_arg m ρ c main_arg9 (by decide),
    Carry.W18_arg m ρ c main_arg10 (by decide)]
  refine layerMoment_of ((W18_arr m ρ c 5).trans (Values.R5.pre_out (V17 m ρ) c))
    (fun j => (congrFun (W18_arr m ρ c 6) _).trans (Values.R5.sum_out (V17 m ρ) c j))
    (fun j => (congrFun (W18_arr m ρ c 7) _).trans (Values.R5.sumsq_out (V17 m ρ) c j)) ?_
  dsimp only [V17]
  rw [Carry.W17_x, show W17 m ρ c = StableHlo.after hostOps5_2 (W16 m ρ c) from rfl, ops_coef, ops_w1, ops_b1, ops_agg,
    Carry.W16_arg m ρ c main_arg11 (by decide), Carry.W16_arg m ρ c main_arg5 (by decide), Carry.W16_arg m ρ c main_arg6 (by decide),
    Carry.W14_src, Carry.from1_14 m ρ c main_v3 (by decide), Edges.edge_src, Edges.edge_dst]
  rfl

end Cert.KernelIdeal.Layers.L3

end
-- ==== Proof.KStage1_r7.lean ====
import proofs.«426483_j67748814127260_1_alg».proof.Proof.KStage1Lib
set_option maxRecDepth 16384

noncomputable section

namespace Cert.KernelIdeal.Values.R7
open Cert.KernelIdeal Cert.KernelIdeal.Gen Idealize.ShloMosaic Idealize.ShloMosaic.ValueIdx
open Idealize.ShloMosaic.TcCoe Idealize.SL.Sem
open Idealize.ShloMosaic.Pipeline (Dat)
open Cert.KernelIdeal.Values.S1 Cert.KernelIdeal.Values.RowBlock

section Pieces

variable {F : FTy → Type} [FloatOps F] (c : Dev nD) (i : grid7.Coords)
  (a1 : Memref sig .tc .vmem S5000x64 .f32) (h1 : a1.IsWhole) (a2 : Memref sig .tc .vmem S5000x64 .f32) (h2 : a2.IsWhole)
  (a3 : Memref sig .tc .vmem S1x1 .f32) (h3 : a3.IsWhole) (a4 : Memref sig .tc .vmem S64x128 .f32) (h4 : a4.IsWhole)
  (a5 : Memref sig .tc .vmem S128 .f32) (h5 : a5.IsWhole) (a6 : Memref sig .tc .vmem S5000x128 .f32) (h6 : a6.IsWhole)
  (a7 : Memref sig .tc .vmem S8x128 .f32) (h7 : a7.IsWhole) (a8 : Memref sig .tc .vmem S8x128 .f32) (h8 : a8.IsWhole)
  (x0 x1 : Vec F S5000x64 .f32) (x2 : Vec F S1x1 .f32) (x3 : Vec F S64x128 .f32) (x4 : Vec F S128 .f32)
  (xo6 xo7 : Vec F S8x128 .f32) (q : Fin 128)

/-- At the first point the stored pre-activation block is the block's value on the loaded blocks; likewise below at a later point. -/
theorem out_A_5_eq (hc : cond7_0 i) :
    out7_A_5 c i a1 h1 a2 h2 a3 h3 a4 h4 a5 h5 a6 h6 a7 h7 a8 h8 hc x0 x1 x2 x3 x4 = k1_pay4 x2 x0 x1 x3 x4 := by
  unfold out7_A_5
  rw [View.read_writes_eq_canon _ _ _ (cover7_A_5 c i a1 h1 a2 h2 a3 h3 a4 h4 a5 h5 a6 h6 a7 h7 a8 h8 hc x0 x1 x2 x3 x4)]
  unfold kernelRun7_A
  dsimp only
  sl_unfold_words
  rw [View.canon_unit_zero zero_pair]
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single] <;> rfl

theorem out_B_5_eq (hc : ¬cond7_0 i) :
    out7_B_5 c i a1 h1 a2 h2 a3 h3 a4 h4 a5 h5 a6 h6 a7 h7 a8 h8 hc x0 x1 x2 x3 x4 xo6 xo7 = k1_pay4 x2 x0 x1 x3 x4 := by
  unfold out7_B_5
  rw [View.read_writes_eq_canon _ _ _ (cover7_B_5 c i a1 h1 a2 h2 a3 h3 a4 h4 a5 h5 a6 h6 a7 h7 a8 h8 hc x0 x1 x2 x3 x4 xo6 xo7)]
  unfold kernelRun7_B
  dsimp only
  sl_unfold_words
  rw [View.canon_unit_zero zero_pair]
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single] <;> rfl

/-- At the first point row 0 of the running sums is the update of row 0 of the zero fill; at a later point, of what the point before left. -/
theorem out_A_6_row (hc : cond7_0 i) :
    out7_A_6 c i a1 h1 a2 h2 a3 h3 a4 h4 a5 h5 a6 h6 a7 h7 a8 h8 hc x0 x1 x2 x3 x4 (ix2 (0 : Fin 8) q)
      = k1_pay6 x2 x0 x1 x3 x4 (View.ld (k1_pay2 (F := F)) row0) (ix2 (0 : Fin 1) q) := by
  unfold out7_A_6
  rw [View.read_writes_eq_canon _ _ _ (cover7_A_6 c i a1 h1 a2 h2 a3 h3 a4 h4 a5 h5 a6 h6 a7 h7 a8 h8 hc x0 x1 x2 x3 x4)]
  unfold kernelRun7_A
  dsimp only
  sl_unfold_words
  refine (canon_row0 _ _ q).trans ?_
  rw [View.readCov_eq_canon', View.canon_unit_zero zero_pair]
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single] <;> rfl

theorem out_A_7_row (hc : cond7_0 i) :
    out7_A_7 c i a1 h1 a2 h2 a3 h3 a4 h4 a5 h5 a6 h6 a7 h7 a8 h8 hc x0 x1 x2 x3 x4 (ix2 (0 : Fin 8) q)
      = k1_pay1 (k1_pay5 x2 x0 x1 x3 x4) (k1_pay7 (View.ld (k1_pay3 (F := F)) row0)) (ix2 (0 : Fin 1) q) := by
  unfold out7_A_7
  rw [View.read_writes_eq_canon _ _ _ (cover7_A_7 c i a1 h1 a2 h2 a3 h3 a4 h4 a5 h5 a6 h6 a7 h7 a8 h8 hc x0 x1 x2 x3 x4)]
  unfold kernelRun7_A
  dsimp only
  sl_unfold_words
  refine (canon_row0 _ _ q).trans ?_
  rw [View.readCov_eq_canon', View.canon_unit_zero zero_pair]
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single] <;> rfl

theorem out_B_6_row (hc : ¬cond7_0 i) :
    out7_B_6 c i a1 h1 a2 h2 a3 h3 a4 h4 a5 h5 a6 h6 a7 h7 a8 h8 hc x0 x1 x2 x3 x4 xo6 xo7 (ix2 (0 : Fin 8) q)
      = k1_pay6 x2 x0 x1 x3 x4 (View.ld xo6 row0) (ix2 (0 : Fin 1) q) := by
  unfold out7_B_6
  unfold kernelRun7_B
  dsimp only
  sl_unfold_words
  refine (View.read_writes_cons_unit_of_mem a7.view _ Gen.inb_S8x128_S1x128_0_0 _ [] (ix2 (0 : Fin 8) q) (ix2 (0 : Fin 1) q) rfl
    (fun a => by
      match a with
      | ⟨0, _⟩ => rfl
      | ⟨1, _⟩ => show q.val = 0 + q.val; omega)).trans ?_
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single, h7.read_unread] <;> rfl

theorem out_B_7_row (hc : ¬cond7_0 i) :
    out7_B_7 c i a1 h1 a2 h2 a3 h3 a4 h4 a5 h5 a6 h6 a7 h7 a8 h8 hc x0 x1 x2 x3 x4 xo6 xo7 (ix2 (0 : Fin 8) q)
      = k1_pay1 (k1_pay5 x2 x0 x1 x3 x4) (k1_pay7 (View.ld xo7 row0)) (ix2 (0 : Fin 1) q) := by
  unfold out7_B_7
  unfold kernelRun7_B
  dsimp only
  sl_unfold_words
  refine (View.read_writes_cons_unit_of_mem a8.view _ Gen.inb_S8x128_S1x128_0_0 _ [] (ix2 (0 : Fin 8) q) (ix2 (0 : Fin 1) q) rfl
    (fun a => by
      match a with
      | ⟨0, _⟩ => rfl
      | ⟨1, _⟩ => show q.val = 0 + q.val; omega)).trans ?_
  simp only [View.readAt_eq_ld, h1.read_unread, h2.read_unread, h3.read_unread, h4.read_unread, h5.read_unread,
    View.ld_unit_zero (S := S5000x64) zero_pair, View.ld_unit_zero (S := S1x1) zero_pair, View.ld_unit_zero (S := S64x128) zero_pair,
    View.ld_unit_zero (S := S128) zero_single, h8.read_unread] <;> rfl

end Pieces

section Run

variable (V : (c : Dev nD) → (b : Ref sig .tc) → Buf (Elt Ideal) ((c : Thread nD τ).loc b))

theorem idx_facts : ∀ t : Fin cfg7.N, AtRow1 t.val (win7_0.index t) (win7_1.index t) (win7_2.index t) (win7_3.index t)
    (win7_4.index t) (win7_5.index t) :=
  (by decide +kernel : ∀ t : Fin grid7.N, _)

abbrev xblk (c : Dev nD) (t : Fin cfg7.N) : Vec Ideal S5000x64 .f32 := iblk7 V c 0 t

abbrev ablk (c : Dev nD) (t : Fin cfg7.N) : Vec Ideal S5000x64 .f32 := iblk7 V c 1 t

abbrev cblk (c : Dev nD) (t : Fin cfg7.N) : Vec Ideal S1x1 .f32 := iblk7 V c 2 t

abbrev wblk (c : Dev nD) (t : Fin cfg7.N) : Vec Ideal S64x128 .f32 := iblk7 V c 3 t

abbrev bblk (c : Dev nD) (t : Fin cfg7.N) : Vec Ideal S128 .f32 := iblk7 V c 4 t

abbrev hpre (c : Dev nD) : FVec Ideal S100000x128 .f32 :=
  Cert.Spec.pre (V c main_v158 (ix2 (0 : Fin 1) (0 : Fin 1))) (V c main_v139) (V c main_v150) (V c main_v155) (V c main_v157)

/-- The block computed at point `t` is rows `5000 t … 5000 t + 4999` of the pre-activation of the arrays the region finds. -/
theorem blk (c : Dev nD) (t : Fin cfg7.N) (j : S5000x128.Idx) :
    k1_pay4 (F := Ideal) (cblk V c t) (xblk V c t) (ablk V c t) (wblk V c t) (bblk V c t) j = hpre V c ((win7_5.rect t).emb j) :=
  pre_block (idx_facts t) (V c main_v158) (V c main_v139) (V c main_v150) (V c main_v155) (V c main_v157) (win7_0.rect t).emb
    (win7_1.rect t).emb (win7_2.rect t).emb (win7_3.rect t).emb (win7_4.rect t).emb (win7_5.rect t).emb (fun _ _ => rfl)
    (fun _ _ => rfl) (fun _ _ => rfl) (fun _ _ => rfl) (fun _ _ => rfl) (fun _ _ => rfl) j

theorem lt19 : 19 < cfg7.N := by rw [show cfg7.N = 20 from N_7]; decide

/-- Row 0 of the two accumulators after the last point: the column sums and sums of squares of the pre-activation. -/
theorem rows (c : Dev nD) (q : Fin 128) :
    (outsAt7 V c 19 lt19).2.1 (ix2 (0 : Fin 8) q) = Cert.Spec.colSum (hpre V c) (ix1 q)
    ∧ (outsAt7 V c 19 lt19).2.2 (ix2 (0 : Fin 8) q) = Cert.Spec.colSumSq (hpre V c) (ix1 q) :=
  acc_rows N_7 (fun n h => (outsAt7 V c n h).2.1) (fun n h => (outsAt7 V c n h).2.2) (cblk V c) (xblk V c) (ablk V c) (wblk V c)
    (bblk V c) (hpre V c) (fun t => (win7_5.rect t).emb) win7_5.index
    (fun t => (idx_facts t).2.2.2.2.2) (fun _ _ _ => rfl) (blk V c)
    (fun t h0 q => by
      show (outsAt7 V c t.val t.isLt).2.1 _ = _
      rw [outsAt7_A V c t h0]
      dsimp only
      exact out_A_6_row (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (xblk V c t) (ablk V c t) (cblk V c t) (wblk V c t) (bblk V c t) q ((hcond7_0 t).mpr h0))
    (fun t h0 q => by
      show (outsAt7 V c t.val t.isLt).2.2 _ = _
      rw [outsAt7_A V c t h0]
      dsimp only
      exact out_A_7_row (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (xblk V c t) (ablk V c t) (cblk V c t) (wblk V c t) (bblk V c t) q ((hcond7_0 t).mpr h0))
    (fun t h0 q => by
      show (outsAt7 V c t.val t.isLt).2.1 _ = _
      rw [outsAt7_B V c t h0]
      dsimp only
      exact out_B_6_row (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (xblk V c t) (ablk V c t) (cblk V c t) (wblk V c t) (bblk V c t)
        (outsAt7 V c (t.val - 1) (Nat.lt_of_le_of_lt (Nat.sub_le _ _) t.isLt)).2.1 (outsAt7 V c (t.val - 1) (Nat.lt_of_le_of_lt (Nat.sub_le _ _) t.isLt)).2.2 q (fun h => h0 ((hcond7_0 t).mp h)))
    (fun t h0 q => by
      show (outsAt7 V c t.val t.isLt).2.2 _ = _
      rw [outsAt7_B V c t h0]
      dsimp only
      exact out_B_7_row (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (xblk V c t) (ablk V c t) (cblk V c t) (wblk V c t) (bblk V c t)
        (outsAt7 V c (t.val - 1) (Nat.lt_of_le_of_lt (Nat.sub_le _ _) t.isLt)).2.1 (outsAt7 V c (t.val - 1) (Nat.lt_of_le_of_lt (Nat.sub_le _ _) t.isLt)).2.2 q (fun h => h0 ((hcond7_0 t).mp h)))
    lt19 q

theorem after5_eq (c : Dev nD) (t : Fin cfg7.N) :
    (outsAt7 V c t.val t.isLt).1 = k1_pay4 (F := Ideal) (cblk V c t) (xblk V c t) (ablk V c t) (wblk V c t) (bblk V c t) := by
  by_cases h0 : t.val % 20 = 0
  · rw [outsAt7_A V c t h0]
    dsimp only
    exact out_A_5_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (xblk V c t) (ablk V c t) (cblk V c t) (wblk V c t) (bblk V c t) ((hcond7_0 t).mpr h0)
  · rw [outsAt7_B V c t h0]
    dsimp only
    exact out_B_5_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (xblk V c t) (ablk V c t) (cblk V c t) (wblk V c t) (bblk V c t)
        (outsAt7 V c (t.val - 1) (Nat.lt_of_le_of_lt (Nat.sub_le _ _) t.isLt)).2.1 (outsAt7 V c (t.val - 1) (Nat.lt_of_le_of_lt (Nat.sub_le _ _) t.isLt)).2.2 (fun h => h0 ((hcond7_0 t).mp h))

/-- The pre-activation array after the region: row `r` is written by point `r / 5000`. -/
theorem pre_out (c : Dev nD) : (dat7 (F := Ideal) V c).arrAt 5 cfg7.N
    = Cert.Spec.pre (V c main_v158 (ix2 (0 : Fin 1) (0 : Fin 1))) (V c main_v139) (V c main_v150) (V c main_v155) (V c main_v157) :=
  (dat7 (F := Ideal) V c).arrAt_eq_of_cover 5 (hpre V c)
    (fun t _ => by
      show (cfg7.win 5).cut (grid7.coords t) ((dat7 (F := Ideal) V c).after 5 t) = _
      rw [after7_5, after5_eq]
      exact funext fun j => blk V c t j)
    fun i => (row_cover (N := cfg7.N) N_7 (io := win7_5.index) (fun t => (idx_facts t).2.2.2.2.2) i).imp fun t h => ⟨flush7_5 t, by
      show i ∈ ((View.whole main_v159_0).slice (win7_5.rect t)).set
      rw [View.set_slice_whole, Rect.mem_set_unit]
      exact h⟩

abbrev t19 : Fin cfg7.N := ⟨19, lt19⟩

abbrev res6 (c : Dev nD) : Buf (Elt Ideal) ((c : Thread nD τ).loc main_v159_1) := (outsAt7 V c 19 lt19).2.1

abbrev res7 (c : Dev nD) : Buf (Elt Ideal) ((c : Thread nD τ).loc main_v159_2) := (outsAt7 V c 19 lt19).2.2

theorem flushed6_eq (c : Dev nD) (t : Fin cfg7.N) (hf : (cfg7.win 6).flush t = true) :
    (dat7 (F := Ideal) V c).flushed 6 t = ((cfg7.win 6).blk t).view.read (Elt Ideal) (res6 V c) := by
  have hN : cfg7.N = 20 := N_7
  have h19 : t.val = 19 := by have := (flush7_6 t).mp hf; have := t.isLt; omega
  obtain rfl : t = t19 := Fin.ext h19
  show (cfg7.win 6).cut (grid7.coords t19) ((dat7 (F := Ideal) V c).after 6 t19) = _
  rw [after7_6]
  have zero_pair' : (fun a => win7_6.index t19 a * main_v159_1.ty.shape.size a) = fun _ => 0 :=
    funext fun a => by fin_cases a <;> decide +kernel
  exact (Memref.read_access_unit_zero (Elt Ideal) main_v159_1 zero_pair' (fun a => by rw [congrFun zero_pair' a]; simp) (res6 V c)).symm

theorem flushed7_eq (c : Dev nD) (t : Fin cfg7.N) (hf : (cfg7.win 7).flush t = true) :
    (dat7 (F := Ideal) V c).flushed 7 t = ((cfg7.win 7).blk t).view.read (Elt Ideal) (res7 V c) := by
  have hN : cfg7.N = 20 := N_7
  have h19 : t.val = 19 := by have := (flush7_7 t).mp hf; have := t.isLt; omega
  obtain rfl : t = t19 := Fin.ext h19
  show (cfg7.win 7).cut (grid7.coords t19) ((dat7 (F := Ideal) V c).after 7 t19) = _
  rw [after7_7]
  have zero_pair' : (fun a => win7_7.index t19 a * main_v159_2.ty.shape.size a) = fun _ => 0 :=
    funext fun a => by fin_cases a <;> decide +kernel
  exact (Memref.read_access_unit_zero (Elt Ideal) main_v159_2 zero_pair' (fun a => by rw [congrFun zero_pair' a]; simp) (res7 V c)).symm

/-- The sums' array after the region holds what the accumulator held after the last point. -/
theorem final6 (c : Dev nD) : (dat7 (F := Ideal) V c).arrAt 6 cfg7.N = res6 V c :=
  (dat7 (F := Ideal) V c).arrAt_eq_of_cover 6 (res6 V c) (flushed6_eq V c) fun i =>
    ⟨t19, (flush7_6 t19).mpr rfl, by
      show i ∈ ((View.whole main_v159_1).slice (win7_6.rect t19)).set
      rw [View.set_slice_whole, Rect.mem_set_unit]
      exact whole_mem (by decide +kernel) i⟩

theorem final7 (c : Dev nD) : (dat7 (F := Ideal) V c).arrAt 7 cfg7.N = res7 V c :=
  (dat7 (F := Ideal) V c).arrAt_eq_of_cover 7 (res7 V c) (flushed7_eq V c) fun i =>
    ⟨t19, (flush7_7 t19).mpr rfl, by
      show i ∈ ((View.whole main_v159_2).slice (win7_7.rect t19)).set
      rw [View.set_slice_whole, Rect.mem_set_unit]
      exact whole_mem (by decide +kernel) i⟩

theorem sum_out (c : Dev nD) (j : Fin 128) : (dat7 (F := Ideal) V c).arrAt 6 cfg7.N (ix2 (0 : Fin 8) j)
    = Cert.Spec.colSum (Cert.Spec.pre (V c main_v158 (ix2 (0 : Fin 1) (0 : Fin 1))) (V c main_v139) (V c main_v150) (V c main_v155)
        (V c main_v157)) (ix1 j) := by
  rw [final6]
  exact (rows V c j).1

theorem sumsq_out (c : Dev nD) (j : Fin 128) : (dat7 (F := Ideal) V c).arrAt 7 cfg7.N (ix2 (0 : Fin 8) j)
    = Cert.Spec.colSumSq (Cert.Spec.pre (V c main_v158 (ix2 (0 : Fin 1) (0 : Fin 1))) (V c main_v139) (V c main_v150) (V c main_v155)
        (V c main_v157)) (ix1 j) := by
  rw [final7]
  exact (rows V c j).2

end Run

end Cert.KernelIdeal.Values.R7

end
-- ==== Proof.KStage2_r8.lean ====
import proofs.«426483_j67748814127260_1_alg».proof.Proof.KRowBlock

noncomputable section

namespace Cert.KernelIdeal.Values.R8

open Cert.KernelIdeal Cert.KernelIdeal.Gen Cert.KernelIdeal.Facts₀ Cert.KernelIdeal.Values.RowBlock Idealize.ShloMosaic
open Idealize.ShloMosaic.TcCoe

variable (V : (c : Dev nD) → (b : Ref sig .tc) → Buf (Elt Ideal) ((c : Thread nD τ).loc b))

theorem idx_facts : ∀ t : Fin cfg8.N, AtRow t.val (win8_6.index t) (win8_0.index t) (win8_1.index t) (win8_2.index t)
    (win8_3.index t) (win8_4.index t) (win8_5.index t) :=
  (by decide +kernel : ∀ t : Fin grid8.N, _)

/-- The 20 row blocks cover the output array, and each is stored as that block of the layer's tail on the arrays the region finds. -/
theorem post_out (c : Dev nD) :
    (dat8 (F := Ideal) V c).arrAt 6 cfg8.N
      = Cert.Spec.post (V c main_v159_0) (V c main_v175) (V c main_v179) (V c main_v181) (V c main_v183) (V c main_v139) :=
  (dat8 (F := Ideal) V c).arrAt_eq_of_cover 6 _
    (fun t _ => by
      show (cfg8.win 6).cut (grid8.coords t) ((dat8 (F := Ideal) V c).after 6 t) = _
      rw [after8_6]
      exact funext fun j => tail_block (idx_facts t) (V c main_v159_0) (V c main_v175) (V c main_v179) (V c main_v181) (V c main_v183)
        (V c main_v139) (win8_0.rect t).emb (win8_1.rect t).emb (win8_2.rect t).emb (win8_3.rect t).emb (win8_4.rect t).emb
        (win8_5.rect t).emb (win8_6.rect t).emb (fun _ _ => rfl) (fun _ _ => rfl) (fun _ _ => rfl) (fun _ _ => rfl) (fun _ _ => rfl)
        (fun _ _ => rfl) (fun _ _ => rfl) j)
    fun i => (row_cover (N := cfg8.N) N_8 (io := win8_6.index) (fun t => (idx_facts t).1) i).imp fun t h => ⟨flush8_6 t, by
      show i ∈ ((View.whole main_v184).slice (win8_6.rect t)).set
      rw [View.set_slice_whole, Rect.mem_set_unit]
      exact h⟩

end Cert.KernelIdeal.Values.R8
end
-- ==== Proof.KLayer4.lean ====
import proofs.«426483_j67748814127260_1_alg».proof.Proof.KCarry
import proofs.«426483_j67748814127260_1_alg».proof.Proof.KEdges
import proofs.«426483_j67748814127260_1_alg».proof.Proof.KStage1_r7
import proofs.«426483_j67748814127260_1_alg».proof.Proof.KStage2_r8
import proofs.«426483_j67748814127260_1_alg».proof.Proof.KLayerMoment

noncomputable section

namespace Cert.KernelIdeal.Layers.L4

open Cert.KernelIdeal Cert.KernelIdeal.Gen Idealize.ShloMosaic Idealize.ShloMosaic.ValueIdx
open Idealize.ShloMosaic.TcCoe

section
variable (X : Valuation τ sig (Elt Ideal))

theorem ops_agg : StableHlo.after hostOps7_2 (StableHlo.after hostOps7_1 (StableHlo.after hostOps7 X)) main_v150 =
    aggRows (X main_v139) (X main_v1) (X main_v3) := by
  after_results_simp
  rfl

theorem ops_coef (i : S1x1.Idx) : (StableHlo.after hostOps7_2 X main_v158 : FVec Ideal S1x1 .f32) i = Spec.coefOf 3 Facts₀.slices_S4_S1_3 (X main_arg11) := by
  after_results
  exact scalar_cast_apply _ _ i

theorem ops_w1 : StableHlo.after hostOps7_2 X main_v155 =
    Spec.w1Of 3 Facts₀.slices_S4x64x128_S1x64x128_3_0_0 (X main_arg5) := by
  after_results
  try rfl

theorem ops_b1 : StableHlo.after hostOps7_2 X main_v157 = Spec.row128Of 3 Facts₀.slices_S4x128_S1x128_3_0 (X main_arg6) := by
  after_results
  try rfl

theorem ops_scale : StableHlo.after hostOps8 X main_v175 =
    Spec.scaleOf (row0 (X main_v159_1)) (row0 (X main_v159_2))
      (Spec.row128Of 3 Facts₀.slices_S4x128_S1x128_3_0 (X main_arg7)) := by
  after_results_simp
  exact scale_eq _ _ _ _ _ _

theorem ops_shift : StableHlo.after hostOps8 X main_v179 =
    Spec.shiftOf (row0 (X main_v159_1)) (row0 (X main_v159_2))
      (Spec.row128Of 3 Facts₀.slices_S4x128_S1x128_3_0 (X main_arg7)) (Spec.row128Of 3 Facts₀.slices_S4x128_S1x128_3_0 (X main_arg8)) := by
  after_results_simp
  exact shift_eq _ _ _ _ _ _ _

theorem ops_w2 : StableHlo.after hostOps8 X main_v181 =
    Spec.w2Of 3 Facts₀.slices_S4x128x64_S1x128x64_3_0_0 (X main_arg9) := by
  after_results_simp
  try rfl

theorem ops_b2 : StableHlo.after hostOps8 X main_v183 = Spec.row64Of 3 Facts₀.slices_S4x64_S1x64_3_0 (X main_arg10) := by
  after_results_simp
  try rfl

end

variable (m : (ℓ : Loc nD τ sig) → Buf (Elt Ideal) ℓ) (ρ : Dev nD → PrngReg)

theorem layer1_out (c : Dev nD) : (W26 (F := Ideal) m ρ c (Proc.devRef .tc main_v184) : FVec Ideal S100000x64 .f32) =
    Cert.Spec.layerMoment (Cert.Spec.coefOf 3 Facts₀.slices_S4_S1_3 (m ((c : Thread nD τ).loc main_arg11)))
      (W20 (F := Ideal) m ρ c (Proc.devRef .tc main_v139))
      (Cert.Spec.aggOf (W20 (F := Ideal) m ρ c (Proc.devRef .tc main_v139)) (m ((c : Thread nD τ).loc main_arg1)))
      (Cert.Spec.w1Of 3 Facts₀.slices_S4x64x128_S1x64x128_3_0_0 (m ((c : Thread nD τ).loc main_arg5)))
      (Cert.Spec.row128Of 3 Facts₀.slices_S4x128_S1x128_3_0 (m ((c : Thread nD τ).loc main_arg6)))
      (Cert.Spec.row128Of 3 Facts₀.slices_S4x128_S1x128_3_0 (m ((c : Thread nD τ).loc main_arg7)))
      (Cert.Spec.row128Of 3 Facts₀.slices_S4x128_S1x128_3_0 (m ((c : Thread nD τ).loc main_arg8)))
      (Cert.Spec.w2Of 3 Facts₀.slices_S4x128x64_S1x128x64_3_0_0 (m ((c : Thread nD τ).loc main_arg9)))
      (Cert.Spec.row64Of 3 Facts₀.slices_S4x64_S1x64_3_0 (m ((c : Thread nD τ).loc main_arg10))) := by
  refine (W26_arr m ρ c 6).trans ((Values.R8.post_out (V25 m ρ) c).trans ?_)
  dsimp only [V25]
  rw [Carry.W25_h, Carry.W25_x, show W25 m ρ c = StableHlo.after hostOps8 (W24 m ρ c) from rfl, ops_scale, ops_shift, ops_w2, ops_b2,
    Carry.W24_arg m ρ c main_arg7 (by decide), Carry.W24_arg m ρ c main_arg8 (by decide), Carry.W24_arg m ρ c main_arg9 (by decide),
    Carry.W24_arg m ρ c main_arg10 (by decide)]
  refine layerMoment_of ((W24_arr m ρ c 5).trans (Values.R7.pre_out (V23 m ρ) c))
    (fun j => (congrFun (W24_arr m ρ c 6) _).trans (Values.R7.sum_out (V23 m ρ) c j))
    (fun j => (congrFun (W24_arr m ρ c 7) _).trans (Values.R7.sumsq_out (V23 m ρ) c j)) ?_
  dsimp only [V23]
  rw [Carry.W23_x, show W23 m ρ c = StableHlo.after hostOps7_2 (W22 m ρ c) from rfl, ops_coef, ops_w1, ops_b1, ops_agg,
    Carry.W22_arg m ρ c main_arg11 (by decide), Carry.W22_arg m ρ c main_arg5 (by decide), Carry.W22_arg m ρ c main_arg6 (by decide),
    Carry.W20_src, Carry.from1_20 m ρ c main_v3 (by decide), Edges.edge_src, Edges.edge_dst]
  rfl

end Cert.KernelIdeal.Layers.L4

end
-- ==== Proof.BNLaw.lean ====
import Idealize.ShloMosaic.PureOps.Ideal
import Mathlib.Tactic.Ring
import Mathlib.Tactic.Linarith
import Mathlib.Tactic.FieldSimp

noncomputable section

namespace Cert.BNLaw
open Idealize.ShloMosaic

def IsReal (v : EReal) : Prop := ∃ r : ℝ, v = (r : EReal)

theorem isReal_coe (r : ℝ) : IsReal (r : EReal) := ⟨r, rfl⟩

theorem isReal_zero : IsReal (0 : EReal) := ⟨0, rfl⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.sub {a b : EReal} (ha : IsReal a) (hb : IsReal b) : IsReal (a - b) := by
  obtain ⟨x, rfl⟩ := ha
  obtain ⟨y, rfl⟩ := hb
  exact ⟨x - y, (EReal.coe_sub x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.neg {a : EReal} (ha : IsReal a) : IsReal (-a) := by
  obtain ⟨x, rfl⟩ := ha
  exact ⟨-x, (EReal.coe_neg x).symm⟩

theorem IsReal.max {a b : EReal} (ha : IsReal a) (hb : IsReal b) : IsReal (max a b) := by
  rcases le_total a b with hab | hab
  · rw [max_eq_right hab]; exact hb
  · rw [max_eq_left hab]; exact ha

theorem IsReal.min {a b : EReal} (ha : IsReal a) (hb : IsReal b) : IsReal (min a b) := by
  rcases le_total a b with hab | hab
  · rw [min_eq_left hab]; exact ha
  · rw [min_eq_right hab]; exact hb

theorem isReal_of_ne_top_bot {a : EReal} (ht : a ≠ ⊤) (hb : a ≠ ⊥) : IsReal a :=
  ⟨a.toReal, (EReal.coe_toReal ht hb).symm⟩

theorem IsReal.ne_top {a : EReal} (ha : IsReal a) : a ≠ ⊤ := by
  obtain ⟨x, rfl⟩ := ha
  exact EReal.coe_ne_top x

theorem IsReal.ne_bot {a : EReal} (ha : IsReal a) : a ≠ ⊥ := by
  obtain ⟨x, rfl⟩ := ha
  exact EReal.coe_ne_bot x

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

theorem IsReal.div_coe {a : EReal} (ha : IsReal a) {y : ℝ} (hy : y ≠ 0) : IsReal (Ideal.div a (y : EReal)) := by
  rw [Ideal.div_coe hy]
  exact ha.mul (isReal_coe _)

theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

theorem isReal_rsqrt_pos {r : ℝ} (hr : 0 < r) : IsReal (Ideal.rsqrt (r : EReal)) := by
  rw [rsqrt_coe_pos hr]
  exact isReal_coe _

section Column

variable {ι : Type*} [Fintype ι] (h : ι → EReal) (γ β Nc εc : EReal)

def mean : EReal := Ideal.div (∑ i, h i) Nc

def varMoment : EReal := Ideal.div (∑ i, h i * h i) Nc - mean h Nc * mean h Nc

def varCentred : EReal := Ideal.div (∑ i, (h i - mean h Nc) * (h i - mean h Nc)) Nc

def scaleM : EReal := γ * Ideal.rsqrt (varMoment h Nc + εc)

def shiftM : EReal := β - mean h Nc * scaleM h γ Nc εc

section RealColumn

variable (r : ι → ℝ) {N : ℝ}

theorem mean_coe (hN : N ≠ 0) :
    mean (fun i => (r i : EReal)) (N : EReal) = (((∑ i, r i) / N : ℝ) : EReal) := by
  rw [mean, Ideal.div_coe hN, coe_sum, ← EReal.coe_mul, mul_one_div]

theorem varMoment_coe (hN : N ≠ 0) :
    varMoment (fun i => (r i : EReal)) (N : EReal)
      = (((∑ i, r i * r i) / N - (∑ i, r i) / N * ((∑ i, r i) / N) : ℝ) : EReal) := by
  rw [varMoment, mean_coe r hN, Ideal.div_coe hN]
  simp only [← EReal.coe_mul]
  rw [coe_sum, ← EReal.coe_mul, ← EReal.coe_sub, mul_one_div]

theorem varCentred_coe (hN : N ≠ 0) :
    varCentred (fun i => (r i : EReal)) (N : EReal)
      = (((∑ i, (r i - (∑ j, r j) / N) * (r i - (∑ j, r j) / N)) / N : ℝ) : EReal) := by
  rw [varCentred, mean_coe r hN, Ideal.div_coe hN]
  simp only [← EReal.coe_sub, ← EReal.coe_mul]
  rw [coe_sum, ← EReal.coe_mul, mul_one_div]

theorem real_var_eq (hcard : (Fintype.card ι : ℝ) = N) (hN : N ≠ 0) :
    (∑ i, (r i - (∑ j, r j) / N) * (r i - (∑ j, r j) / N)) / N
      = (∑ i, r i * r i) / N - (∑ i, r i) / N * ((∑ i, r i) / N) := by
  set μ : ℝ := (∑ j, r j) / N with hμ
  have hS : ∑ j, r j = μ * N := by rw [hμ]; field_simp
  have hexp : ∀ i, (r i - μ) * (r i - μ) = r i * r i - 2 * μ * r i + μ * μ := fun i => by ring
  have hsum : ∑ i, (r i - μ) * (r i - μ) = (∑ i, r i * r i) - 2 * μ * (∑ i, r i) + N * (μ * μ) := by
    simp only [hexp, Finset.sum_add_distrib, Finset.sum_sub_distrib, ← Finset.mul_sum, Finset.sum_const,
      Finset.card_univ, nsmul_eq_mul, hcard]
    ring
  rw [hsum, hS]
  field_simp
  ring

theorem real_var_nonneg (hNpos : 0 < N) :
    0 ≤ (∑ i, (r i - (∑ j, r j) / N) * (r i - (∑ j, r j) / N)) / N :=
  div_nonneg (Finset.sum_nonneg fun _ _ => mul_self_nonneg _) hNpos.le

end RealColumn

variable {h γ β Nc εc}

variable {N ε : ℝ} (hh : ∀ i, IsReal (h i)) (hγ : IsReal γ) (hβ : IsReal β)
  (hN : Nc = (N : EReal)) (hcard : (Fintype.card ι : ℝ) = N) (hNpos : 0 < N) (hε : εc = (ε : EReal)) (hεpos : 0 < ε)
include hh in

theorem exists_real_column : ∃ r : ι → ℝ, h = fun i => (r i : EReal) := by
  choose r hr using hh
  exact ⟨r, funext hr⟩
include hh hN hNpos in

theorem mean_isReal : IsReal (mean h Nc) := by
  obtain ⟨r, rfl⟩ := exists_real_column hh
  subst hN
  rw [mean_coe r hNpos.ne']
  exact isReal_coe _
include hh hN hcard hNpos in

theorem var_eq : varMoment h Nc = varCentred h Nc ∧ ∃ v : ℝ, 0 ≤ v ∧ varCentred h Nc = (v : EReal) := by
  obtain ⟨r, rfl⟩ := exists_real_column hh
  subst hN
  refine ⟨?_, _, real_var_nonneg r hNpos, varCentred_coe r hNpos.ne'⟩
  rw [varMoment_coe r hNpos.ne', varCentred_coe r hNpos.ne', real_var_eq r hcard hNpos.ne']
include hh hN hcard hNpos hε hεpos in

theorem rsqrt_var :
    ∃ s : ℝ, Ideal.rsqrt (varMoment h Nc + εc) = (s : EReal) ∧ Ideal.rsqrt (varCentred h Nc + εc) = (s : EReal) := by
  obtain ⟨hmc, v, hv, hvc⟩ := var_eq hh hN hcard hNpos
  subst hε
  have hpos : 0 < v + ε := by linarith
  refine ⟨(Real.sqrt (v + ε))⁻¹, ?_, ?_⟩
  · rw [hmc, hvc, ← EReal.coe_add, rsqrt_coe_pos hpos]
  · rw [hvc, ← EReal.coe_add, rsqrt_coe_pos hpos]
include hh hγ hN hcard hNpos hε hεpos in

theorem scaleM_isReal : IsReal (scaleM h γ Nc εc) := by
  obtain ⟨s, hs, -⟩ := rsqrt_var hh hN hcard hNpos hε hεpos
  rw [scaleM, hs]
  exact hγ.mul (isReal_coe _)
include hh hγ hβ hN hcard hNpos hε hεpos in

theorem shiftM_isReal : IsReal (shiftM h γ β Nc εc) := by
  rw [shiftM]
  exact hβ.sub ((mean_isReal hh hN hNpos).mul (scaleM_isReal hh hγ hN hcard hNpos hε hεpos))
include hh hγ hβ hN hcard hNpos hε hεpos in

theorem affine_eq (n : ι) :
    h n * scaleM h γ Nc εc + shiftM h γ β Nc εc
      = (h n - mean h Nc) * Ideal.rsqrt (varCentred h Nc + εc) * γ + β := by
  obtain ⟨s, hs, hs'⟩ := rsqrt_var hh hN hcard hNpos hε hεpos
  obtain ⟨m, hm⟩ := mean_isReal hh hN hNpos
  obtain ⟨x, hx⟩ := hh n
  obtain ⟨g, rfl⟩ := hγ
  obtain ⟨b, rfl⟩ := hβ
  rw [shiftM, scaleM, hs, hs', hm, hx]
  simp only [← EReal.coe_mul, ← EReal.coe_sub, ← EReal.coe_add]
  congr 1
  ring

end Column

end Cert.BNLaw

end
-- ==== Proof.LayerLaw.lean ====
import proofs.«426483_j67748814127260_1_alg».proof.Proof.Spec
import proofs.«426483_j67748814127260_1_alg».proof.Proof.BNLaw
import Mathlib.Tactic.NormNum
import Mathlib.Tactic.Positivity

noncomputable section

namespace Cert.LayerLaw
open Idealize.ShloMosaic Idealize.ShloMosaic.ValueIdx Cert.KernelIdeal Cert.KernelIdeal.Facts₀ Cert.Spec Cert.BNLaw

def RealArr {s : Shape} (v : s.Idx → EReal) : Prop := ∀ i, IsReal (v i)

theorem z_eq : Spec.z = 0 := by
  simp [Ideal.ofBits, Ideal.ieee]

theorem oneC_eq : Spec.oneC = ((1 : ℝ) : EReal) := by
  simp [Ideal.ofBits, Ideal.ieee, -EReal.coe_mul] <;> norm_num

theorem rowsC_eq : Spec.rowsC = ((100000 : ℝ) : EReal) := by
  simp [Ideal.ofBits, Ideal.ieee, -EReal.coe_mul] <;> norm_num

theorem epsC_pos : ∃ e : ℝ, 0 < e ∧ Spec.epsC = (e : EReal) := by
  refine ⟨10995116 * (2 : ℝ) ^ (-40 : ℤ), by positivity, ?_⟩
  simp [Ideal.ofBits, Ideal.ieee, -EReal.coe_mul] <;> norm_num

theorem z_real : IsReal Spec.z := by
  rw [z_eq]; exact isReal_zero

variable {x : FVec Ideal S100000x64 .f32} {agg : FVec Ideal S100000x64 .f32} {coef : EReal}
  {w1 : FVec Ideal S64x128 .f32} {b1 g bt : FVec Ideal S128 .f32} {w2 : FVec Ideal S128x64 .f32} {b2 : FVec Ideal S64 .f32}

theorem proj_real {x0 : FVec Ideal S100000x32 .f32} {w : FVec Ideal S32x64 .f32} {b : FVec Ideal S64 .f32}
    (hx : RealArr x0) (hw : RealArr w) (hb : RealArr b) : RealArr (proj x0 w b) := by
  intro i
  unfold proj
  exact (isReal_sum _ _ fun k _ => (hx _).mul (hw _)).add (hb _)

theorem scatter_clamp_gather_real {s si su sg : Shape} (d : ScatterDims s si su) (dg : GatherDims s sg su)
    (hb : (⟨0, ![]⟩ : Shape).BroadcastsInDim s ![]) (hb' : (⟨0, ![]⟩ : Shape).BroadcastsInDim su ![])
    {x : FVec Ideal s .f32} (hx : RealArr x) (idx : IVec si 32) (idx' : IVec sg 32) :
    RealArr (Host.scatterAdd (F := Ideal) d (broadcastInDim s ![] hb (constant (F := Ideal) ⟨0, ![]⟩ .f32 0x00000000#32)) idx
      (maximumf (Host.gather dg x idx') (broadcastInDim su ![] hb' (constant (F := Ideal) ⟨0, ![]⟩ .f32 0x00000000#32)))) := by
  intro i
  unfold Host.scatterAdd
  rw [Ideal.hostScatterAdd_def]
  unfold Ideal.hostScatterAdd
  refine IsReal.add ?_ (isReal_sum _ _ fun j _ => ?_)
  · exact z_real
  · rw [maximumf_apply]
    exact IsReal.max (hx _) z_real

theorem aggOf_real (hx : RealArr x) (e : IVec S2x1600000 32) : RealArr (aggOf x e) :=
  scatter_clamp_gather_real _ _ _ _ hx (dstIdx e) (srcIdx e)

theorem pre_real (hc : IsReal coef) (hx : RealArr x) (hagg : RealArr agg) (hw1 : RealArr w1) (hb1 : RealArr b1) :
    RealArr (pre coef x agg w1 b1) := by
  intro i
  unfold pre
  exact (isReal_sum _ _ fun k _ => ((hc.mul (hx _)).add (hagg _)).mul (hw1 _)).add (hb1 _)

theorem coef_real {e : EReal} (he : IsReal e) : IsReal (Spec.oneC + e) := by
  rw [oneC_eq]
  exact (isReal_coe 1).add he

section Columns

variable (P : FVec Ideal S100000x128 .f32) (c d : FVec Ideal S128 .f32) (k : Fin 128)

theorem scaleOf_col :
    scaleOf (colSum P) (colSumSq P) c (ix1 k) = BNLaw.scaleM (fun n : Fin 100000 => P (ix2 n k)) (c (ix1 k)) rowsC epsC := rfl

theorem shiftOf_col :
    shiftOf (colSum P) (colSumSq P) c d (ix1 k)
      = BNLaw.shiftM (fun n : Fin 100000 => P (ix2 n k)) (c (ix1 k)) (d (ix1 k)) rowsC epsC := rfl

theorem meanC_col : meanC P (ix1 k) = BNLaw.mean (fun n : Fin 100000 => P (ix2 n k)) rowsC := by
  show Ideal.div (z + ∑ n : Fin 100000, P (ix2 n k)) rowsC = Ideal.div (∑ n : Fin 100000, P (ix2 n k)) rowsC
  rw [z_eq, zero_add]

theorem rstdC_col :
    rstdC P (ix1 k) = Ideal.rsqrt (BNLaw.varCentred (fun n : Fin 100000 => P (ix2 n k)) rowsC + epsC) := by
  show Ideal.rsqrt (Ideal.div (z + ∑ n : Fin 100000, (P (ix2 n k) - meanC P (ix1 k)) * (P (ix2 n k) - meanC P (ix1 k))) rowsC + epsC)
    = Ideal.rsqrt (Ideal.div (∑ n : Fin 100000, (P (ix2 n k) - BNLaw.mean (fun n : Fin 100000 => P (ix2 n k)) rowsC)
        * (P (ix2 n k) - BNLaw.mean (fun n : Fin 100000 => P (ix2 n k)) rowsC)) rowsC + epsC)
  rw [z_eq, zero_add, meanC_col]

end Columns

theorem col_law {P : FVec Ideal S100000x128 .f32} (hP : RealArr P) (hg : RealArr g) (hbt : RealArr bt)
    (n : Fin 100000) (k : Fin 128) :
    P (ix2 n k) * scaleOf (colSum P) (colSumSq P) g (ix1 k) + shiftOf (colSum P) (colSumSq P) g bt (ix1 k)
      = (P (ix2 n k) - meanC P (ix1 k)) * rstdC P (ix1 k) * g (ix1 k) + bt (ix1 k) := by
  obtain ⟨e, he, hε⟩ := epsC_pos
  rw [scaleOf_col, shiftOf_col, meanC_col, rstdC_col]
  exact BNLaw.affine_eq (h := fun n : Fin 100000 => P (ix2 n k)) (N := 100000) (ε := e)
    (fun n => hP _) (hg _) (hbt _) rowsC_eq (by rw [Fintype.card_fin]; norm_num) (by norm_num) hε he n

theorem scaleOf_real {P : FVec Ideal S100000x128 .f32} (hP : RealArr P) (hg : RealArr g) (k : Fin 128) :
    IsReal (scaleOf (colSum P) (colSumSq P) g (ix1 k)) := by
  obtain ⟨e, he, hε⟩ := epsC_pos
  rw [scaleOf_col]
  exact BNLaw.scaleM_isReal (h := fun n : Fin 100000 => P (ix2 n k)) (N := 100000) (ε := e)
    (fun n => hP _) (hg _) rowsC_eq (by rw [Fintype.card_fin]; norm_num) (by norm_num) hε he

theorem shiftOf_real {P : FVec Ideal S100000x128 .f32} (hP : RealArr P) (hg : RealArr g) (hbt : RealArr bt) (k : Fin 128) :
    IsReal (shiftOf (colSum P) (colSumSq P) g bt (ix1 k)) := by
  obtain ⟨e, he, hε⟩ := epsC_pos
  rw [shiftOf_col]
  exact BNLaw.shiftM_isReal (h := fun n : Fin 100000 => P (ix2 n k)) (N := 100000) (ε := e)
    (fun n => hP _) (hg _) (hbt _) rowsC_eq (by rw [Fintype.card_fin]; norm_num) (by norm_num) hε he

theorem layer_eq (hc : IsReal coef) (hx : RealArr x) (hagg : RealArr agg) (hw1 : RealArr w1) (hb1 : RealArr b1)
    (hg : RealArr g) (hbt : RealArr bt) :
    layerMoment coef x agg w1 b1 g bt w2 b2 = layerCentred coef x agg w1 b1 g bt w2 b2 := by
  funext i
  have hP := pre_real hc hx hagg hw1 hb1
  unfold layerMoment layerCentred Spec.post
  congr 2
  exact Finset.sum_congr rfl fun k _ => by rw [col_law hP hg hbt (i 0) k]

theorem layer_real (hc : IsReal coef) (hx : RealArr x) (hagg : RealArr agg) (hw1 : RealArr w1) (hb1 : RealArr b1)
    (hg : RealArr g) (hbt : RealArr bt) (hw2 : RealArr w2) (hb2 : RealArr b2) :
    RealArr (layerMoment coef x agg w1 b1 g bt w2 b2) := by
  intro i
  unfold layerMoment Spec.post
  have hP := pre_real hc hx hagg hw1 hb1
  exact (hx i).add ((isReal_sum _ _ fun k _ =>
    ((((hP _).mul (scaleOf_real hP hg k)).add (shiftOf_real hP hg hbt k)).max z_real).mul (hw2 _)).add (hb2 _))

end Cert.LayerLaw

end
-- ==== Proof.PoolLaw.lean ====
import proofs.«426483_j67748814127260_1_alg».proof.Proof.Gen.ReferenceIdeal
import Idealize.ShloMosaic.PureOps.Ideal
import Idealize.ShloMosaic.Lib.ValueIdx
import Idealize.ShloMosaic.Lib.IdealHost

noncomputable section
open scoped BigOperators

namespace Cert.PoolLaw
open Cert.ReferenceIdeal Cert.ReferenceIdeal.Facts₀ Idealize.ShloMosaic Idealize.ShloMosaic.ValueIdx

abbrev sd : ScatterDims S64x64 S100000x1 S100000x64 := scatter_S64x64_S100000x1_S100000x64_1_0_0_1

theorem mem0 : (0 : Fin 2) ∈ sd.scatterDimsToOperandDims := List.mem_singleton.mpr rfl

theorem siIdx0 (u : S100000x64.Idx) :
    sd.siIdx u ⟨List.idxOf (0 : Fin 2) sd.scatterDimsToOperandDims, List.idxOf_lt_length_iff.2 mem0⟩ = ix2 (u 0) 0 := by
  funext b; refine Fin.ext ?_
  match b with
  | ⟨0, _⟩ => rfl
  | ⟨1, _⟩ => rfl

theorem start0 (u : S100000x64.Idx) (bt : IVec S100000x1 32) :
    sd.start u bt 0 = (bt (ix2 (u 0) 0)).toInt := by
  unfold ScatterDims.start
  rw [dif_pos mem0, siIdx0]
  rfl

theorem start1 (u : S100000x64.Idx) (bt : IVec S100000x1 32) :
    sd.start u bt 1 = 0 := by
  unfold ScatterDims.start
  rw [dif_neg]
  intro h
  exact absurd (List.mem_singleton.mp h) (by decide)

theorem window0 (u : S100000x64.Idx) : sd.window u 0 = 0 := by
  unfold ScatterDims.window
  rw [dif_neg]
  decide

theorem window1 (u : S100000x64.Idx) : sd.window u 1 = (u 1).val := by
  unfold ScatterDims.window
  rw [dif_pos (by decide)]
  rfl

theorem resultIdx?_eq_some_iff (u : S100000x64.Idx) (bt : IVec S100000x1 32) (i : S64x64.Idx) :
    sd.resultIdx? u bt = some i ↔ (bt (ix2 (u 0) 0)).toInt = ((i 0).val : Int) ∧ (u 1).val = (i 1).val := by
  have e0 : sd.start u bt 0 + (sd.window u 0 : Int) = (bt (ix2 (u 0) 0)).toInt := by
    rw [start0, window0]; simp only [Nat.cast_zero, add_zero]
  have e1 : sd.start u bt 1 + (sd.window u 1 : Int) = ((u 1).val : Int) := by
    rw [start1, window1]; simp only [zero_add]
  have hi0 : (i 0).val < 64 := (i 0).isLt
  have hu1 : (u 1).val < 64 := (u 1).isLt
  unfold ScatterDims.resultIdx?
  split_ifs with h
  · rw [Option.some.injEq]
    constructor
    · intro hi
      have h0 : ((sd.start u bt 0 + (sd.window u 0 : Int)).toNat) = (i 0).val := congrArg Fin.val (congrFun hi 0)
      have h1 : ((sd.start u bt 1 + (sd.window u 1 : Int)).toNat) = (i 1).val := congrArg Fin.val (congrFun hi 1)
      have p0 := (h 0).1
      rw [e0] at h0 p0
      rw [e1] at h1
      refine ⟨by omega, by omega⟩
    · rintro ⟨h0, h1⟩
      funext a
      refine Fin.ext ?_
      match a with
      | ⟨0, _⟩ =>
        show (sd.start u bt 0 + (sd.window u 0 : Int)).toNat = (i 0).val
        rw [e0]; omega
      | ⟨1, _⟩ =>
        show (sd.start u bt 1 + (sd.window u 1 : Int)).toNat = (i 1).val
        rw [e1]; omega
  · constructor
    · intro hn; exact absurd hn (by simp)
    · rintro ⟨h0, h1⟩
      exfalso
      apply h
      intro a
      match a with
      | ⟨0, _⟩ =>
        show 0 ≤ sd.start u bt 0 + (sd.window u 0 : Int) ∧ sd.start u bt 0 + (sd.window u 0 : Int) < (64 : Nat)
        rw [e0]; omega
      | ⟨1, _⟩ =>
        show 0 ≤ sd.start u bt 1 + (sd.window u 1 : Int) ∧ sd.start u bt 1 + (sd.window u 1 : Int) < (64 : Nat)
        rw [e1]; omega

theorem toInt_eq_iff (w : BitVec 32) (g : Fin 64) : w.toInt = (g.val : Int) ↔ w = BitVec.ofNat 32 g.val := by
  have hg : (BitVec.ofNat 32 g.val).toInt = (g.val : Int) := by
    have hlt := g.isLt
    rw [BitVec.toInt_eq_toNat_cond, BitVec.toNat_ofNat]
    split_ifs with h <;> omega
  constructor
  · intro h; exact BitVec.eq_of_toInt_eq (h.trans hg.symm)
  · intro h; rw [h, hg]

theorem indicator_mul (w : BitVec 32) (g : Fin 64) (v : EReal) :
    (FloatOps.sitofp (F := Ideal) .f32 ((IntOp.cmpi .eq w (BitVec.ofNat 32 g.val)).setWidth 32)) * v
      = if w.toInt = (g.val : Int) then v else 0 := by
  show (((((IntOp.cmpi .eq w (BitVec.ofNat 32 g.val)).setWidth 32).toInt : ℝ) : EReal)) * v = _
  by_cases hw : w = BitVec.ofNat 32 g.val
  · rw [if_pos ((toInt_eq_iff w g).2 hw)]
    have hc : IntOp.cmpi .eq w (BitVec.ofNat 32 g.val) = 1#1 := by
      unfold IntOp.cmpi
      simp only [hw, beq_self_eq_true, BitVec.ofBool_true]
      rfl
    rw [hc]
    have h1 : ((1#1).setWidth 32).toInt = 1 := by decide
    rw [h1]
    simp only [Int.cast_one, EReal.coe_one, one_mul]
  · rw [if_neg (fun h => hw ((toInt_eq_iff w g).1 h))]
    have hc : IntOp.cmpi .eq w (BitVec.ofNat 32 g.val) = 0#1 := by
      unfold IntOp.cmpi
      have : (w == BitVec.ofNat 32 g.val) = false := by simpa using hw
      simp only [this, BitVec.ofBool_false]
      rfl
    rw [hc]
    have h0 : ((0#1).setWidth 32).toInt = 0 := by decide
    rw [h0]
    simp only [Int.cast_zero, EReal.coe_zero, zero_mul]

theorem scatter_eq_indicator (x : FVec Ideal S100000x64 .f32) (bt : IVec S100000x1 32) (g : Fin 64) (j : Fin 64) :
    Host.scatterAdd (F := Ideal) scatter_S64x64_S100000x1_S100000x64_1_0_0_1
        (broadcastInDim S64x64 ![] bcast_S_S64x64 (constant (F := Ideal) S_ .f32 0x00000000#32)) bt x (ix2 g j)
      = ∑ n : Fin 100000, (FloatOps.sitofp (F := Ideal) .f32 ((IntOp.cmpi .eq (bt (ix2 n 0)) (BitVec.ofNat 32 g.val)).setWidth 32)) * x (ix2 n j) := by
  have hz : broadcastInDim S64x64 ![] bcast_S_S64x64 (constant (F := Ideal) S_ .f32 0x00000000#32) (ix2 g j) = 0 := by
    rw [broadcastInDim_scalar_apply, constant_apply, Ideal.ofBits_zero_f32]
  unfold Host.scatterAdd
  rw [Ideal.hostScatterAdd_def]
  unfold Ideal.hostScatterAdd
  rw [hz, zero_add, Finset.sum_filter, sum_idx2]
  refine Finset.sum_congr rfl fun n _ => ?_
  rw [indicator_mul]
  have hcond : ∀ j' : Fin 64, (sd.resultIdx? (ix2 n j') bt = some (ix2 g j)) ↔
      ((bt (ix2 n 0)).toInt = (g.val : Int) ∧ j' = j) := by
    intro j'
    rw [resultIdx?_eq_some_iff]
    exact and_congr Iff.rfl (Fin.val_inj)
  by_cases hn : (bt (ix2 n 0)).toInt = (g.val : Int)
  · rw [if_pos hn]
    rw [Finset.sum_eq_single j]
    · rw [if_pos ((hcond j).2 ⟨hn, rfl⟩)]
    · intro j' _ hj'
      rw [if_neg (fun h => hj' ((hcond j').1 h).2)]
    · intro h; exact absurd (Finset.mem_univ j) h
  · rw [if_neg hn]
    refine Finset.sum_eq_zero fun j' _ => ?_
    rw [if_neg (fun h => hn ((hcond j').1 h).1)]

theorem scatter_eq_sum_ite (x : FVec Ideal S100000x64 .f32) (bt : IVec S100000x1 32) (g : Fin 64) (j : Fin 64) :
    Host.scatterAdd (F := Ideal) scatter_S64x64_S100000x1_S100000x64_1_0_0_1
        (broadcastInDim S64x64 ![] bcast_S_S64x64 (constant (F := Ideal) S_ .f32 0x00000000#32)) bt x (ix2 g j)
      = ∑ n : Fin 100000, if bt (ix2 n 0) = BitVec.ofNat 32 g.val then x (ix2 n j) else 0 := by
  rw [scatter_eq_indicator]
  refine Finset.sum_congr rfl fun n _ => ?_
  rw [indicator_mul]
  exact if_congr (toInt_eq_iff _ g) rfl rfl

end Cert.PoolLaw

end
-- ==== Proof.PoolBridge.lean ====
import proofs.«426483_j67748814127260_1_alg».proof.Proof.PoolLaw
import proofs.«426483_j67748814127260_1_alg».proof.Proof.Spec

noncomputable section
open scoped BigOperators

namespace Cert.PoolBridge
open Idealize.ShloMosaic Idealize.ShloMosaic.ValueIdx

theorem col_eq (a2 : IVec Cert.KernelIdeal.S100000 32) :
    shapeCast Cert.KernelIdeal.S100000x1 a2 Cert.KernelIdeal.Facts₀.shapeCasts_S100000_S100000x1
      = broadcastInDim Cert.ReferenceIdeal.S100000x1 ![0] Cert.ReferenceIdeal.Facts₀.bcast_S100000_S100000x1_0 a2 := by
  funext i
  obtain ⟨n, c, rfl⟩ : ∃ n c, i = ix2 n c := ⟨i 0, i 1, eq_ix2 i⟩
  obtain rfl : c = 0 := Subsingleton.elim _ _
  have hL : shapeCast Cert.KernelIdeal.S100000x1 a2 Cert.KernelIdeal.Facts₀.shapeCasts_S100000_S100000x1 (ix2 n 0)
      = a2 (ix1 n) := by
    unfold shapeCast
    refine congrArg a2 (Shape.reshapeEquiv_eq_of_rowMajor _ ?_)
    rw [Shape.rowMajor_val_one, Shape.rowMajor_val_two]
    show n.val = n.val * 1 + 0
    omega
  have hR : broadcastInDim Cert.ReferenceIdeal.S100000x1 ![0] Cert.ReferenceIdeal.Facts₀.bcast_S100000_S100000x1_0 a2 (ix2 n 0)
      = a2 (ix1 n) := by
    unfold broadcastInDim
    refine congrArg a2 (funext fun a => Fin.ext ?_)
    obtain rfl : a = 0 := Subsingleton.elim _ _
    rw [dif_neg (by decide)]
    rfl
  rw [hL, hR]

theorem pool_eq (x : FVec Ideal Cert.KernelIdeal.S100000x64 .f32) (a2 : IVec Cert.KernelIdeal.S100000 32) :
    Cert.Spec.poolIndicator x (shapeCast Cert.KernelIdeal.S100000x1 a2 Cert.KernelIdeal.Facts₀.shapeCasts_S100000_S100000x1)
      = Host.scatterAdd (F := Ideal) Cert.ReferenceIdeal.scatter_S64x64_S100000x1_S100000x64_1_0_0_1
          (broadcastInDim Cert.ReferenceIdeal.S64x64 ![] Cert.ReferenceIdeal.Facts₀.bcast_S_S64x64 (constant (F := Ideal) Cert.ReferenceIdeal.S_ .f32 0x00000000#32))
          (broadcastInDim Cert.ReferenceIdeal.S100000x1 ![0] Cert.ReferenceIdeal.Facts₀.bcast_S100000_S100000x1_0 a2) x := by
  funext i
  obtain ⟨g, j, rfl⟩ : ∃ g j, i = ix2 g j := ⟨i 0, i 1, eq_ix2 i⟩
  rw [Cert.PoolLaw.scatter_eq_indicator, col_eq]
  rfl

end Cert.PoolBridge

end
-- ==== Proof.Bridge.lean ====
import proofs.«426483_j67748814127260_1_alg».proof.Proof.Spec
import proofs.«426483_j67748814127260_1_alg».proof.Proof.LayerLaw
import proofs.«426483_j67748814127260_1_alg».proof.Proof.PoolBridge

noncomputable section

namespace Cert.Bridge
open Idealize.ShloMosaic Idealize.ShloMosaic.ValueIdx Cert.KernelIdeal Cert.KernelIdeal.Facts₀ Cert.Spec Cert.BNLaw Cert.LayerLaw

variable (a1 : IVec S2x1600000 32) (a5 : FVec Ideal S4x64x128 .f32) (a6 a7 a8 : FVec Ideal S4x128 .f32)
  (a9 : FVec Ideal S4x128x64 .f32) (a10 : FVec Ideal S4x64 .f32) (a11 : FVec Ideal S4 .f32)

def stepM (o : Nat) (h11 : S4.Slices ![o] S1) (h5 : S4x64x128.Slices ![o, 0, 0] S1x64x128) (h6 : S4x128.Slices ![o, 0] S1x128)
    (h9 : S4x128x64.Slices ![o, 0, 0] S1x128x64) (h10 : S4x64.Slices ![o, 0] S1x64) (x : FVec Ideal S100000x64 .f32) :
    FVec Ideal S100000x64 .f32 :=
  layerMoment (coefOf o h11 a11) x (aggOf x a1) (w1Of o h5 a5) (row128Of o h6 a6) (row128Of o h6 a7) (row128Of o h6 a8)
    (w2Of o h9 a9) (row64Of o h10 a10)

def stepC (o : Nat) (h11 : S4.Slices ![o] S1) (h5 : S4x64x128.Slices ![o, 0, 0] S1x64x128) (h6 : S4x128.Slices ![o, 0] S1x128)
    (h9 : S4x128x64.Slices ![o, 0, 0] S1x128x64) (h10 : S4x64.Slices ![o, 0] S1x64) (x : FVec Ideal S100000x64 .f32) :
    FVec Ideal S100000x64 .f32 :=
  layerCentred (coefOf o h11 a11) x (aggOf x a1) (w1Of o h5 a5) (row128Of o h6 a6) (row128Of o h6 a7) (row128Of o h6 a8)
    (w2Of o h9 a9) (row64Of o h10 a10)

variable {a1 a5 a6 a7 a8 a9 a10 a11}

theorem shapeCast_real {s t : Shape} {v : s.Idx → EReal} (hv : RealArr v) (h : s.ShapeCasts t) : RealArr (shapeCast t v h) :=
  fun _ => hv _

theorem slice_real {s t : Shape} {v : s.Idx → EReal} (hv : RealArr v) (off : Fin s.rank → Nat) (h : s.Slices off t) :
    RealArr (extractStridedSlice t off v h) :=
  fun _ => hv _

theorem w1Of_real (h5a : RealArr a5) (o : Nat) (h : S4x64x128.Slices ![o, 0, 0] S1x64x128) : RealArr (w1Of o h a5) :=
  shapeCast_real (slice_real h5a _ h) _

theorem row128Of_real {a : FVec Ideal S4x128 .f32} (ha : RealArr a) (o : Nat) (h : S4x128.Slices ![o, 0] S1x128) : RealArr (row128Of o h a) :=
  shapeCast_real (slice_real ha _ h) _

theorem w2Of_real (h9a : RealArr a9) (o : Nat) (h : S4x128x64.Slices ![o, 0, 0] S1x128x64) : RealArr (w2Of o h a9) :=
  shapeCast_real (slice_real h9a _ h) _

theorem row64Of_real (h10a : RealArr a10) (o : Nat) (h : S4x64.Slices ![o, 0] S1x64) : RealArr (row64Of o h a10) :=
  shapeCast_real (slice_real h10a _ h) _

theorem coefOf_real (h11a : RealArr a11) (o : Nat) (h : S4.Slices ![o] S1) : IsReal (coefOf o h a11) := by
  unfold coefOf
  rw [addf_apply]
  exact coef_real (shapeCast_real (slice_real h11a _ h) _ _)

section Steps

variable (h5a : RealArr a5) (h6a : RealArr a6) (h7a : RealArr a7) (h8a : RealArr a8) (h9a : RealArr a9) (h10a : RealArr a10)
  (h11a : RealArr a11)

variable (o : Nat) (h11 : S4.Slices ![o] S1) (h5 : S4x64x128.Slices ![o, 0, 0] S1x64x128) (h6 : S4x128.Slices ![o, 0] S1x128)
    (h9 : S4x128x64.Slices ![o, 0, 0] S1x128x64) (h10 : S4x64.Slices ![o, 0] S1x64)
include h5a h6a h7a h8a h11a in

theorem step_eq {x : FVec Ideal S100000x64 .f32} (hx : RealArr x) :
    stepM a1 a5 a6 a7 a8 a9 a10 a11 o h11 h5 h6 h9 h10 x = stepC a1 a5 a6 a7 a8 a9 a10 a11 o h11 h5 h6 h9 h10 x :=
  layer_eq (coefOf_real h11a o h11) hx (aggOf_real hx a1) (w1Of_real h5a o h5) (row128Of_real h6a o h6)
    (row128Of_real h7a o h6) (row128Of_real h8a o h6)
include h5a h6a h7a h8a h9a h10a h11a in

theorem step_real {x : FVec Ideal S100000x64 .f32} (hx : RealArr x) :
    RealArr (stepM a1 a5 a6 a7 a8 a9 a10 a11 o h11 h5 h6 h9 h10 x) :=
  layer_real (coefOf_real h11a o h11) hx (aggOf_real hx a1) (w1Of_real h5a o h5) (row128Of_real h6a o h6)
    (row128Of_real h7a o h6) (row128Of_real h8a o h6) (w2Of_real h9a o h9) (row64Of_real h10a o h10)

end Steps

section Net

variable (a0 : FVec Ideal S100000x32 .f32) (a1 : IVec S2x1600000 32) (a3 : FVec Ideal S32x64 .f32)
  (a4 : FVec Ideal S64 .f32) (a5 : FVec Ideal S4x64x128 .f32) (a6 a7 a8 : FVec Ideal S4x128 .f32)
  (a9 : FVec Ideal S4x128x64 .f32) (a10 : FVec Ideal S4x64 .f32) (a11 : FVec Ideal S4 .f32)

abbrev m0 (x : FVec Ideal S100000x64 .f32) := stepM a1 a5 a6 a7 a8 a9 a10 a11 0 slices_S4_S1_0 slices_S4x64x128_S1x64x128_0_0_0 slices_S4x128_S1x128_0_0 slices_S4x128x64_S1x128x64_0_0_0 slices_S4x64_S1x64_0_0 x

abbrev m1 (x : FVec Ideal S100000x64 .f32) := stepM a1 a5 a6 a7 a8 a9 a10 a11 1 slices_S4_S1_1 slices_S4x64x128_S1x64x128_1_0_0 slices_S4x128_S1x128_1_0 slices_S4x128x64_S1x128x64_1_0_0 slices_S4x64_S1x64_1_0 x

abbrev m2 (x : FVec Ideal S100000x64 .f32) := stepM a1 a5 a6 a7 a8 a9 a10 a11 2 slices_S4_S1_2 slices_S4x64x128_S1x64x128_2_0_0 slices_S4x128_S1x128_2_0 slices_S4x128x64_S1x128x64_2_0_0 slices_S4x64_S1x64_2_0 x

abbrev m3 (x : FVec Ideal S100000x64 .f32) := stepM a1 a5 a6 a7 a8 a9 a10 a11 3 slices_S4_S1_3 slices_S4x64x128_S1x64x128_3_0_0 slices_S4x128_S1x128_3_0 slices_S4x128x64_S1x128x64_3_0_0 slices_S4x64_S1x64_3_0 x

abbrev c0 (x : FVec Ideal S100000x64 .f32) := stepC a1 a5 a6 a7 a8 a9 a10 a11 0 slices_S4_S1_0 slices_S4x64x128_S1x64x128_0_0_0 slices_S4x128_S1x128_0_0 slices_S4x128x64_S1x128x64_0_0_0 slices_S4x64_S1x64_0_0 x

abbrev c1 (x : FVec Ideal S100000x64 .f32) := stepC a1 a5 a6 a7 a8 a9 a10 a11 1 slices_S4_S1_1 slices_S4x64x128_S1x64x128_1_0_0 slices_S4x128_S1x128_1_0 slices_S4x128x64_S1x128x64_1_0_0 slices_S4x64_S1x64_1_0 x

abbrev c2 (x : FVec Ideal S100000x64 .f32) := stepC a1 a5 a6 a7 a8 a9 a10 a11 2 slices_S4_S1_2 slices_S4x64x128_S1x64x128_2_0_0 slices_S4x128_S1x128_2_0 slices_S4x128x64_S1x128x64_2_0_0 slices_S4x64_S1x64_2_0 x

abbrev c3 (x : FVec Ideal S100000x64 .f32) := stepC a1 a5 a6 a7 a8 a9 a10 a11 3 slices_S4_S1_3 slices_S4x64x128_S1x64x128_3_0_0 slices_S4x128_S1x128_3_0 slices_S4x128x64_S1x128x64_3_0_0 slices_S4x64_S1x64_3_0 x

def featM : FVec Ideal S100000x64 .f32 :=
  m3 a1 a5 a6 a7 a8 a9 a10 a11 (m2 a1 a5 a6 a7 a8 a9 a10 a11 (m1 a1 a5 a6 a7 a8 a9 a10 a11 (m0 a1 a5 a6 a7 a8 a9 a10 a11 (proj a0 a3 a4))))

def featC : FVec Ideal S100000x64 .f32 :=
  c3 a1 a5 a6 a7 a8 a9 a10 a11 (c2 a1 a5 a6 a7 a8 a9 a10 a11 (c1 a1 a5 a6 a7 a8 a9 a10 a11 (c0 a1 a5 a6 a7 a8 a9 a10 a11 (proj a0 a3 a4))))

variable {a0 a1 a3 a4 a5 a6 a7 a8 a9 a10 a11}

variable (h0 : RealArr a0) (h3 : RealArr a3) (h4 : RealArr a4) (h5a : RealArr a5) (h6a : RealArr a6) (h7a : RealArr a7)
  (h8a : RealArr a8) (h9a : RealArr a9) (h10a : RealArr a10) (h11a : RealArr a11)
include h0 h3 h4 h5a h6a h7a h8a h9a h10a h11a in

theorem feat_eq : featM a0 a1 a3 a4 a5 a6 a7 a8 a9 a10 a11 = featC a0 a1 a3 a4 a5 a6 a7 a8 a9 a10 a11 := by
  have r0 : RealArr (proj a0 a3 a4) := proj_real h0 h3 h4
  have e0 := step_eq (a1 := a1) (a9 := a9) (a10 := a10) h5a h6a h7a h8a h11a 0 slices_S4_S1_0 slices_S4x64x128_S1x64x128_0_0_0 slices_S4x128_S1x128_0_0 slices_S4x128x64_S1x128x64_0_0_0 slices_S4x64_S1x64_0_0 r0
  have r1 := step_real (a1 := a1) h5a h6a h7a h8a h9a h10a h11a 0 slices_S4_S1_0 slices_S4x64x128_S1x64x128_0_0_0 slices_S4x128_S1x128_0_0 slices_S4x128x64_S1x128x64_0_0_0 slices_S4x64_S1x64_0_0 r0
  have e1 := step_eq (a1 := a1) (a9 := a9) (a10 := a10) h5a h6a h7a h8a h11a 1 slices_S4_S1_1 slices_S4x64x128_S1x64x128_1_0_0 slices_S4x128_S1x128_1_0 slices_S4x128x64_S1x128x64_1_0_0 slices_S4x64_S1x64_1_0 r1
  have r2 := step_real (a1 := a1) h5a h6a h7a h8a h9a h10a h11a 1 slices_S4_S1_1 slices_S4x64x128_S1x64x128_1_0_0 slices_S4x128_S1x128_1_0 slices_S4x128x64_S1x128x64_1_0_0 slices_S4x64_S1x64_1_0 r1
  have e2 := step_eq (a1 := a1) (a9 := a9) (a10 := a10) h5a h6a h7a h8a h11a 2 slices_S4_S1_2 slices_S4x64x128_S1x64x128_2_0_0 slices_S4x128_S1x128_2_0 slices_S4x128x64_S1x128x64_2_0_0 slices_S4x64_S1x64_2_0 r2
  have r3 := step_real (a1 := a1) h5a h6a h7a h8a h9a h10a h11a 2 slices_S4_S1_2 slices_S4x64x128_S1x64x128_2_0_0 slices_S4x128_S1x128_2_0 slices_S4x128x64_S1x128x64_2_0_0 slices_S4x64_S1x64_2_0 r2
  have e3 := step_eq (a1 := a1) (a9 := a9) (a10 := a10) h5a h6a h7a h8a h11a 3 slices_S4_S1_3 slices_S4x64x128_S1x64x128_3_0_0 slices_S4x128_S1x128_3_0 slices_S4x128x64_S1x128x64_3_0_0 slices_S4x64_S1x64_3_0 r3
  unfold featM featC m3 m2 m1 m0 c3 c2 c1 c0
  rw [e3, e2, e1, e0]
include h0 h3 h4 h5a h6a h7a h8a h9a h10a h11a in

theorem out_eq (a2 : IVec S100000 32) (a12 : FVec Ideal S64x1 .f32) (a13 : FVec Ideal S1 .f32) :
    Spec.headOf (Spec.poolIndicator (featM a0 a1 a3 a4 a5 a6 a7 a8 a9 a10 a11)
        (shapeCast S100000x1 a2 shapeCasts_S100000_S100000x1)) a12 a13
      = Spec.headOf (Host.scatterAdd (F := Ideal) Cert.ReferenceIdeal.scatter_S64x64_S100000x1_S100000x64_1_0_0_1
          (broadcastInDim Cert.ReferenceIdeal.S64x64 ![] Cert.ReferenceIdeal.Facts₀.bcast_S_S64x64
            (constant (F := Ideal) Cert.ReferenceIdeal.S_ .f32 0x00000000#32))
          (broadcastInDim Cert.ReferenceIdeal.S100000x1 ![0] Cert.ReferenceIdeal.Facts₀.bcast_S100000_S100000x1_0 a2)
          (featC a0 a1 a3 a4 a5 a6 a7 a8 a9 a10 a11)) a12 a13 := by
  rw [Cert.PoolBridge.pool_eq, feat_eq h0 h3 h4 h5a h6a h7a h8a h9a h10a h11a]

end Net

end Cert.Bridge

end
-- ==== Proof.KernelValue.lean ====
import proofs.«426483_j67748814127260_1_alg».proof.Proof.KTail
import proofs.«426483_j67748814127260_1_alg».proof.Proof.KLayer1
import proofs.«426483_j67748814127260_1_alg».proof.Proof.KLayer2
import proofs.«426483_j67748814127260_1_alg».proof.Proof.KLayer3
import proofs.«426483_j67748814127260_1_alg».proof.Proof.KLayer4
import proofs.«426483_j67748814127260_1_alg».proof.Proof.Bridge

noncomputable section

namespace Cert.KernelIdeal.Whole
open Idealize.ShloMosaic Idealize.ShloMosaic.TcCoe Idealize.ShloMosaic.ValueIdx Cert.KernelIdeal Cert.KernelIdeal.Gen

variable (m : (ℓ : Loc nD τ sig) → Buf (Elt Ideal) ℓ) (ρ : Dev nD → PrngReg)

def out (c : Dev nD) : FVec Ideal S64 .f32 :=
  Cert.Spec.headOf
    (Cert.Spec.poolIndicator
      (Cert.Bridge.featM (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11)))
      (shapeCast S100000x1 (m ((c : Thread nD τ).loc main_arg2)) Facts₀.shapeCasts_S100000_S100000x1))
    (m ((c : Thread nD τ).loc main_arg12)) (m ((c : Thread nD τ).loc main_arg13))

theorem value (c : Dev nD) : W29 (F := Ideal) m ρ c (Proc.devRef .tc main_v191) = out m c := by
  rw [Cert.KernelIdeal.Layers.Ends.head_val m ρ c, Cert.KernelIdeal.Layers.Ends.pool_val m ρ c,
    Cert.KernelIdeal.Layers.L4.layer1_out m ρ c, Cert.KernelIdeal.Layers.L3.layer1_out m ρ c,
    Cert.KernelIdeal.Layers.L2.layer1_out m ρ c, Cert.KernelIdeal.Layers.L1.layer1_out m ρ c,
    Cert.KernelIdeal.Layers.Ends.proj_val m ρ c]
  rfl

end Cert.KernelIdeal.Whole

end
-- ==== Proof.RRead.lean ====
import proofs.«426483_j67748814127260_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws
noncomputable section
namespace Cert.ReferenceIdeal.ReadP
open Cert.ReferenceIdeal Cert.ReferenceIdeal.Gen Idealize.ShloMosaic Idealize.ShloMosaic.TcCoe Idealize.SL.Sem Idealize.ShloMosaic.StableHlo
variable {F : FTy → Type} [FloatOps F]

def val_main_v0 (x1 : (⟨S2x1600000, .i32⟩ : BufTy).Contents (Elt F)) : (⟨S1x1600000, .i32⟩ : BufTy).Contents (Elt F) :=
  extractStridedSlice S1x1600000 ![0, 0] (x1) slices_S2x1600000_S1x1600000_0_0

def val_main_v1 (x1 : (⟨S2x1600000, .i32⟩ : BufTy).Contents (Elt F)) : (⟨S1600000, .i32⟩ : BufTy).Contents (Elt F) :=
  shapeCast _ (val_main_v0 (F := F) x1) shapeCasts_S1x1600000_S1600000

def val_main_v2 (x1 : (⟨S2x1600000, .i32⟩ : BufTy).Contents (Elt F)) : (⟨S1x1600000, .i32⟩ : BufTy).Contents (Elt F) :=
  extractStridedSlice S1x1600000 ![1, 0] (x1) slices_S2x1600000_S1x1600000_1_0

def val_main_v3 (x1 : (⟨S2x1600000, .i32⟩ : BufTy).Contents (Elt F)) : (⟨S1600000, .i32⟩ : BufTy).Contents (Elt F) :=
  shapeCast _ (val_main_v2 (F := F) x1) shapeCasts_S1x1600000_S1600000

def val_main_v4 (x0 : (⟨S100000x32, .f32⟩ : BufTy).Contents (Elt F)) (x3 : (⟨S32x64, .f32⟩ : BufTy).Contents (Elt F)) : (⟨S100000x64, .f32⟩ : BufTy).Contents (Elt F) :=
  Host.dotGeneral dot_S100000x32_S32x64_S100000x64_1_0_0_1_n_n none (x0) (x3)

theorem lhs_main_v4_0 (i : S100000x64.Idx) (q : dot_S100000x32_S32x64_S100000x64_1_0_0_1_n_n.contr.Idx) :
    (dot_S100000x32_S32x64_S100000x64_1_0_0_1_n_n.lhsIdx i q 0).val = (i 0).val := by
  unfold DotDims.lhsIdx
  rw [dif_neg (show ¬(0 : Fin S100000x32.rank) ∈ dot_S100000x32_S32x64_S100000x64_1_0_0_1_n_n.lhsBatch by decide), dif_pos (show (0 : Fin S100000x32.rank) ∈ dot_S100000x32_S32x64_S100000x64_1_0_0_1_n_n.lhsNonContracting by decide)]
  rfl

theorem lhs_main_v4_1 (i : S100000x64.Idx) (q : dot_S100000x32_S32x64_S100000x64_1_0_0_1_n_n.contr.Idx) :
    (dot_S100000x32_S32x64_S100000x64_1_0_0_1_n_n.lhsIdx i q 1).val = (q ⟨0, by decide⟩).val :=
  dot_S100000x32_S32x64_S100000x64_1_0_0_1_n_n.lhsIdx_val_of_single rfl i q

theorem rhs_main_v4_0 (i : S100000x64.Idx) (q : dot_S100000x32_S32x64_S100000x64_1_0_0_1_n_n.contr.Idx) :
    (dot_S100000x32_S32x64_S100000x64_1_0_0_1_n_n.rhsIdx i q 0).val = (q ⟨0, by decide⟩).val :=
  dot_S100000x32_S32x64_S100000x64_1_0_0_1_n_n.rhsIdx_val_of_single rfl i q

theorem rhs_main_v4_1 (i : S100000x64.Idx) (q : dot_S100000x32_S32x64_S100000x64_1_0_0_1_n_n.contr.Idx) :
    (dot_S100000x32_S32x64_S100000x64_1_0_0_1_n_n.rhsIdx i q 1).val = (i 1).val := by
  unfold DotDims.rhsIdx
  rw [dif_neg (show ¬(1 : Fin S32x64.rank) ∈ dot_S100000x32_S32x64_S100000x64_1_0_0_1_n_n.rhsBatch by decide), dif_pos (show (1 : Fin S32x64.rank) ∈ dot_S100000x32_S32x64_S100000x64_1_0_0_1_n_n.rhsNonContracting by decide)]
  rfl

abbrev lidx_main_v4 (i : S100000x64.Idx) (k : Fin 32) : S100000x32.Idx := fun a => match a with
  | ⟨0, _⟩ => ⟨(i 0).val, (i 0).isLt⟩
  | ⟨1, _⟩ => ⟨k.val, k.isLt⟩

abbrev ridx_main_v4 (i : S100000x64.Idx) (k : Fin 32) : S32x64.Idx := fun a => match a with
  | ⟨0, _⟩ => ⟨k.val, k.isLt⟩
  | ⟨1, _⟩ => ⟨(i 1).val, (i 1).isLt⟩

theorem val_main_v4_apply (x0 : (⟨S100000x32, .f32⟩ : BufTy).Contents (Elt Ideal)) (x3 : (⟨S32x64, .f32⟩ : BufTy).Contents (Elt Ideal)) (i : S100000x64.Idx) :
    val_main_v4 (F := Ideal) x0 x3 i = ∑ k : Fin 32, x0 (lidx_main_v4 i k) * x3 (ridx_main_v4 i k) := by
  unfold val_main_v4
  simp only [Host.dotGeneral]
  rw [Ideal.dotGeneral_apply, ← Equiv.sum_comp (ValueIdx.contrEquiv1 dot_S100000x32_S32x64_S100000x64_1_0_0_1_n_n 32 rfl rfl).symm]
  refine Finset.sum_congr rfl fun k _ => ?_
  have hk := ValueIdx.contrEquiv1_symm_val dot_S100000x32_S32x64_S100000x64_1_0_0_1_n_n 32 rfl rfl k
  have el : dot_S100000x32_S32x64_S100000x64_1_0_0_1_n_n.lhsIdx i ((ValueIdx.contrEquiv1 dot_S100000x32_S32x64_S100000x64_1_0_0_1_n_n 32 rfl rfl).symm k) = lidx_main_v4 i k := funext fun a => Fin.ext (by
    match a with
    | ⟨0, _⟩ => exact lhs_main_v4_0 _ _
    | ⟨1, _⟩ => exact (lhs_main_v4_1 _ _).trans hk)
  have er : dot_S100000x32_S32x64_S100000x64_1_0_0_1_n_n.rhsIdx i ((ValueIdx.contrEquiv1 dot_S100000x32_S32x64_S100000x64_1_0_0_1_n_n 32 rfl rfl).symm k) = ridx_main_v4 i k := funext fun a => Fin.ext (by
    match a with
    | ⟨0, _⟩ => exact (rhs_main_v4_0 _ _).trans hk
    | ⟨1, _⟩ => exact rhs_main_v4_1 _ _)
  rw [el, er]

def val_main_v5 (x4 : (⟨S64, .f32⟩ : BufTy).Contents (Elt F)) : (⟨S1x64, .f32⟩ : BufTy).Contents (Elt F) :=
  broadcastInDim S1x64 ![1] bcast_S64_S1x64_1 (x4)

abbrev idx_main_v5 (i : S1x64.Idx) : S64.Idx := fun a => match a with
  | ⟨0, _⟩ => ⟨(i 1).val, (i 1).isLt⟩

theorem val_main_v5_apply (x4 : (⟨S64, .f32⟩ : BufTy).Contents (Elt F)) (i : S1x64.Idx) :
    val_main_v5 (F := F) x4 i = x4 (idx_main_v5 i) := by
  unfold val_main_v5
  exact broadcastInDim_apply _ bcast_S64_S1x64_1 x4 i (idx_main_v5 i) (fun a => match a with
    | ⟨0, _⟩ => by show (i 1).val = if (64 : Nat) = 1 then 0 else (i 1).val; rw [if_neg (by decide)])

def val_main_v6 (x4 : (⟨S64, .f32⟩ : BufTy).Contents (Elt F)) : (⟨S100000x64, .f32⟩ : BufTy).Contents (Elt F) :=
  broadcastInDim S100000x64 ![0, 1] bcast_S1x64_S100000x64_0_1 (val_main_v5 (F := F) x4)

abbrev idx_main_v6 (i : S100000x64.Idx) : S1x64.Idx := fun a => match a with
  | ⟨0, _⟩ => ⟨0, Nat.one_pos⟩
  | ⟨1, _⟩ => ⟨(i 1).val, (i 1).isLt⟩

theorem val_main_v6_apply (x4 : (⟨S64, .f32⟩ : BufTy).Contents (Elt F)) (i : S100000x64.Idx) :
    val_main_v6 (F := F) x4 i = val_main_v5 (F := F) x4 (idx_main_v6 i) := by
  unfold val_main_v6
  generalize val_main_v5 (F := F) x4 = y
  exact broadcastInDim_apply _ bcast_S1x64_S100000x64_0_1 y i (idx_main_v6 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v7 (x0 : (⟨S100000x32, .f32⟩ : BufTy).Contents (Elt F)) (x3 : (⟨S32x64, .f32⟩ : BufTy).Contents (Elt F)) (x4 : (⟨S64, .f32⟩ : BufTy).Contents (Elt F)) : (⟨S100000x64, .f32⟩ : BufTy).Contents (Elt F) :=
  addf (val_main_v4 (F := F) x0 x3) (val_main_v6 (F := F) x4)

theorem val_main_v7_apply (x0 : (⟨S100000x32, .f32⟩ : BufTy).Contents (Elt F)) (x3 : (⟨S32x64, .f32⟩ : BufTy).Contents (Elt F)) (x4 : (⟨S64, .f32⟩ : BufTy).Contents (Elt F)) (i : S100000x64.Idx) :
    val_main_v7 (F := F) x0 x3 x4 i = FloatOps.addf (val_main_v4 (F := F) x0 x3 i) (val_main_v6 (F := F) x4 i) := rfl

def val_main_v8 (x5 : (⟨S4x64x128, .f32⟩ : BufTy).Contents (Elt F)) : (⟨S1x64x128, .f32⟩ : BufTy).Contents (Elt F) :=
  extractStridedSlice S1x64x128 ![0, 0, 0] (x5) slices_S4x64x128_S1x64x128_0_0_0

def val_main_v9 (x5 : (⟨S4x64x128, .f32⟩ : BufTy).Contents (Elt F)) : (⟨S64x128, .f32⟩ : BufTy).Contents (Elt F) :=
  shapeCast _ (val_main_v8 (F := F) x5) shapeCasts_S1x64x128_S64x128

def val_main_v10 (x6 : (⟨S4x128, .f32⟩ : BufTy).Contents (Elt F)) : (⟨S1x128, .f32⟩ : BufTy).Contents (Elt F) :=
  extractStridedSlice S1x128 ![0, 0] (x6) slices_S4x128_S1x128_0_0

def val_main_v11 (x6 : (⟨S4x128, .f32⟩ : BufTy).Contents (Elt F)) : (⟨S128, .f32⟩ : BufTy).Contents (Elt F) :=
  shapeCast _ (val_main_v10 (F := F) x6) shapeCasts_S1x128_S128

def val_main_v12 (x7 : (⟨S4x128, .f32⟩ : BufTy).Contents (Elt F)) : (⟨S1x128, .f32⟩ : BufTy).Contents (Elt F) :=
  extractStridedSlice S1x128 ![0, 0] (x7) slices_S4x128_S1x128_0_0

def val_main_v13 (x7 : (⟨S4x128, .f32⟩ : BufTy).Contents (Elt F)) : (⟨S128, .f32⟩ : BufTy).Contents (Elt F) :=
  shapeCast _ (val_main_v12 (F := F) x7) shapeCasts_S1x128_S128

def val_main_v14 (x8 : (⟨S4x128, .f32⟩ : BufTy).Contents (Elt F)) : (⟨S1x128, .f32⟩ : BufTy).Contents (Elt F) :=
  extractStridedSlice S1x128 ![0, 0] (x8) slices_S4x128_S1x128_0_0

def val_main_v15 (x8 : (⟨S4x128, .f32⟩ : BufTy).Contents (Elt F)) : (⟨S128, .f32⟩ : BufTy).Contents (Elt F) :=
  shapeCast _ (val_main_v14 (F := F) x8) shapeCasts_S1x128_S128

def val_main_v16 (x9 : (⟨S4x128x64, .f32⟩ : BufTy).Contents (Elt F)) : (⟨S1x128x64, .f32⟩ : BufTy).Contents (Elt F) :=
  extractStridedSlice S1x128x64 ![0, 0, 0] (x9) slices_S4x128x64_S1x128x64_0_0_0

def val_main_v17 (x9 : (⟨S4x128x64, .f32⟩ : BufTy).Contents (Elt F)) : (⟨S128x64, .f32⟩ : BufTy).Contents (Elt F) :=
  shapeCast _ (val_main_v16 (F := F) x9) shapeCasts_S1x128x64_S128x64

def val_main_v18 (x10 : (⟨S4x64, .f32⟩ : BufTy).Contents (Elt F)) : (⟨S1x64, .f32⟩ : BufTy).Contents (Elt F) :=
  extractStridedSlice S1x64 ![0, 0] (x10) slices_S4x64_S1x64_0_0

def val_main_v19 (x10 : (⟨S4x64, .f32⟩ : BufTy).Contents (Elt F)) : (⟨S64, .f32⟩ : BufTy).Contents (Elt F) :=
  shapeCast _ (val_main_v18 (F := F) x10) shapeCasts_S1x64_S64

def val_main_v20 (x11 : (⟨S4, .f32⟩ : BufTy).Contents (Elt F)) : (⟨S1, .f32⟩ : BufTy).Contents (Elt F) :=
  extractStridedSlice S1 ![0] (x11) slices_S4_S1_0

def val_main_v21 (x11 : (⟨S4, .f32⟩ : BufTy).Contents (Elt F)) : (⟨S_, .f32⟩ : BufTy).Contents (Elt F) :=
  shapeCast _ (val_main_v20 (F := F) x11) shapeCasts_S1_S_

def val_main_c : (⟨S_, .i32⟩ : BufTy).Contents (Elt F) :=
  constantI S_ 32 0#32

def val_main_v22 : (⟨S1600000, .i32⟩ : BufTy).Contents (Elt F) :=
  broadcastInDim S1600000 ![] bcast_S_S1600000 (val_main_c (F := F))

def val_main_v23 (x1 : (⟨S2x1600000, .i32⟩ : BufTy).Contents (Elt F)) : (⟨S1600000, .i1⟩ : BufTy).Contents (Elt F) :=
  cmpi .slt (val_main_v1 (F := F) x1) (val_main_v22 (F := F))

def val_main_c_0 : (⟨S_, .i32⟩ : BufTy).Contents (Elt F) :=
  constantI S_ 32 100000#32

def val_main_v24 : (⟨S1600000, .i32⟩ : BufTy).Contents (Elt F) :=
  broadcastInDim S1600000 ![] bcast_S_S1600000 (val_main_c_0 (F := F))

def val_main_v25 (x1 : (⟨S2x1600000, .i32⟩ : BufTy).Contents (Elt F)) : (⟨S1600000, .i32⟩ : BufTy).Contents (Elt F) :=
  addi (val_main_v1 (F := F) x1) (val_main_v24 (F := F))

def val_main_v26 (x1 : (⟨S2x1600000, .i32⟩ : BufTy).Contents (Elt F)) : (⟨S1600000, .i32⟩ : BufTy).Contents (Elt F) :=
  select (val_main_v23 (F := F) x1) (val_main_v25 (F := F) x1) (val_main_v1 (F := F) x1)

def val_main_v27 (x1 : (⟨S2x1600000, .i32⟩ : BufTy).Contents (Elt F)) : (⟨S1600000x1, .i32⟩ : BufTy).Contents (Elt F) :=
  broadcastInDim S1600000x1 ![0] bcast_S1600000_S1600000x1_0 (val_main_v26 (F := F) x1)

def val_main_v28 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) : (⟨S1600000x64, .f32⟩ : BufTy).Contents (Elt F) :=
  Host.gather gather_S100000x64_S1600000x1_S1600000x64_1_0_n_n_0_1_164 (val_main_v7 (F := F) x0 x3 x4) (val_main_v27 (F := F) x1)

def val_main_call0_cst : (⟨S_, .f32⟩ : BufTy).Contents (Elt F) :=
  constant S_ .f32 0x00000000#32

def val_main_call0_v0 : (⟨S1600000x64, .f32⟩ : BufTy).Contents (Elt F) :=
  broadcastInDim S1600000x64 ![] bcast_S_S1600000x64 (val_main_call0_cst (F := F))

def val_main_v29 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) : (⟨S1600000x64, .f32⟩ : BufTy).Contents (Elt F) :=
  maximumf (val_main_v28 (F := F) x0 x1 x3 x4) (val_main_call0_v0 (F := F))

def val_main_cst : (⟨S_, .f32⟩ : BufTy).Contents (Elt F) :=
  constant S_ .f32 0x00000000#32

def val_main_v30 : (⟨S100000x64, .f32⟩ : BufTy).Contents (Elt F) :=
  broadcastInDim S100000x64 ![] bcast_S_S100000x64 (val_main_cst (F := F))

def val_main_v31 (x1 : (⟨S2x1600000, .i32⟩ : BufTy).Contents (Elt F)) : (⟨S1600000x1, .i32⟩ : BufTy).Contents (Elt F) :=
  broadcastInDim S1600000x1 ![0] bcast_S1600000_S1600000x1_0 (val_main_v3 (F := F) x1)

def val_main_v32 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) : (⟨S100000x64, .f32⟩ : BufTy).Contents (Elt F) :=
  Host.scatterAdd scatter_S100000x64_S1600000x1_S1600000x64_1_0_0_1 (val_main_v30 (F := F)) (val_main_v31 (F := F) x1) (val_main_v29 (F := F) x0 x1 x3 x4)

def val_main_cst_1 : (⟨S_, .f32⟩ : BufTy).Contents (Elt F) :=
  constant S_ .f32 0x3F800000#32

def val_main_v33 (x11 : (⟨S4, .f32⟩ : BufTy).Contents (Elt F)) : (⟨S_, .f32⟩ : BufTy).Contents (Elt F) :=
  addf (val_main_cst_1 (F := F)) (val_main_v21 (F := F) x11)

def val_main_v34 (x11 : (⟨S4, .f32⟩ : BufTy).Contents (Elt F)) : (⟨S100000x64, .f32⟩ : BufTy).Contents (Elt F) :=
  broadcastInDim S100000x64 ![] bcast_S_S100000x64 (val_main_v33 (F := F) x11)

def val_main_v35 (x0 : (⟨S100000x32, .f32⟩ : BufTy).Contents (Elt F)) (x3 : (⟨S32x64, .f32⟩ : BufTy).Contents (Elt F)) (x4 : (⟨S64, .f32⟩ : BufTy).Contents (Elt F)) (x11 : (⟨S4, .f32⟩ : BufTy).Contents (Elt F)) : (⟨S100000x64, .f32⟩ : BufTy).Contents (Elt F) :=
  mulf (val_main_v34 (F := F) x11) (val_main_v7 (F := F) x0 x3 x4)

def val_main_v36 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x11 : (⟨S4, .f32⟩ : BufTy).Contents (Elt F)) : (⟨S100000x64, .f32⟩ : BufTy).Contents (Elt F) :=
  addf (val_main_v35 (F := F) x0 x3 x4 x11) (val_main_v32 (F := F) x0 x1 x3 x4)

def val_main_v37 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x11 : (⟨S4, .f32⟩ : BufTy).Contents (Elt F)) : (⟨S100000x128, .f32⟩ : BufTy).Contents (Elt F) :=
  Host.dotGeneral dot_S100000x64_S64x128_S100000x128_1_0_0_1_n_n none (val_main_v36 (F := F) x0 x1 x3 x4 x11) (val_main_v9 (F := F) x5)

theorem lhs_main_v37_0 (i : S100000x128.Idx) (q : dot_S100000x64_S64x128_S100000x128_1_0_0_1_n_n.contr.Idx) :
    (dot_S100000x64_S64x128_S100000x128_1_0_0_1_n_n.lhsIdx i q 0).val = (i 0).val := by
  unfold DotDims.lhsIdx
  rw [dif_neg (show ¬(0 : Fin S100000x64.rank) ∈ dot_S100000x64_S64x128_S100000x128_1_0_0_1_n_n.lhsBatch by decide), dif_pos (show (0 : Fin S100000x64.rank) ∈ dot_S100000x64_S64x128_S100000x128_1_0_0_1_n_n.lhsNonContracting by decide)]
  rfl

theorem lhs_main_v37_1 (i : S100000x128.Idx) (q : dot_S100000x64_S64x128_S100000x128_1_0_0_1_n_n.contr.Idx) :
    (dot_S100000x64_S64x128_S100000x128_1_0_0_1_n_n.lhsIdx i q 1).val = (q ⟨0, by decide⟩).val :=
  dot_S100000x64_S64x128_S100000x128_1_0_0_1_n_n.lhsIdx_val_of_single rfl i q

theorem rhs_main_v37_0 (i : S100000x128.Idx) (q : dot_S100000x64_S64x128_S100000x128_1_0_0_1_n_n.contr.Idx) :
    (dot_S100000x64_S64x128_S100000x128_1_0_0_1_n_n.rhsIdx i q 0).val = (q ⟨0, by decide⟩).val :=
  dot_S100000x64_S64x128_S100000x128_1_0_0_1_n_n.rhsIdx_val_of_single rfl i q

theorem rhs_main_v37_1 (i : S100000x128.Idx) (q : dot_S100000x64_S64x128_S100000x128_1_0_0_1_n_n.contr.Idx) :
    (dot_S100000x64_S64x128_S100000x128_1_0_0_1_n_n.rhsIdx i q 1).val = (i 1).val := by
  unfold DotDims.rhsIdx
  rw [dif_neg (show ¬(1 : Fin S64x128.rank) ∈ dot_S100000x64_S64x128_S100000x128_1_0_0_1_n_n.rhsBatch by decide), dif_pos (show (1 : Fin S64x128.rank) ∈ dot_S100000x64_S64x128_S100000x128_1_0_0_1_n_n.rhsNonContracting by decide)]
  rfl

def val_main_v38 (x6 : (⟨S4x128, .f32⟩ : BufTy).Contents (Elt F)) : (⟨S1x128, .f32⟩ : BufTy).Contents (Elt F) :=
  broadcastInDim S1x128 ![1] bcast_S128_S1x128_1 (val_main_v11 (F := F) x6)

def val_main_v39 (x6 : (⟨S4x128, .f32⟩ : BufTy).Contents (Elt F)) : (⟨S100000x128, .f32⟩ : BufTy).Contents (Elt F) :=
  broadcastInDim S100000x128 ![0, 1] bcast_S1x128_S100000x128_0_1 (val_main_v38 (F := F) x6)

def val_main_v40 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 : (⟨S4x128, .f32⟩ : BufTy).Contents (Elt F)) (x11 : (⟨S4, .f32⟩ : BufTy).Contents (Elt F)) : (⟨S100000x128, .f32⟩ : BufTy).Contents (Elt F) :=
  addf (val_main_v37 (F := F) x0 x1 x3 x4 x5 x11) (val_main_v39 (F := F) x6)

def val_main_cst_2 : (⟨S_, .f32⟩ : BufTy).Contents (Elt F) :=
  constant S_ .f32 0x00000000#32

def val_main_v41 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 : (⟨S4x128, .f32⟩ : BufTy).Contents (Elt F)) (x11 : (⟨S4, .f32⟩ : BufTy).Contents (Elt F)) : (⟨S128, .f32⟩ : BufTy).Contents (Elt F) :=
  Host.reduceAdd (val_main_v40 (F := F) x0 x1 x3 x4 x5 x6 x11) (val_main_cst_2 (F := F)) reducesTo_S100000x128_S128_d0 h_S_

def val_main_cst_3 : (⟨S_, .f32⟩ : BufTy).Contents (Elt F) :=
  constant S_ .f32 0x47C35000#32

def val_main_v42 : (⟨S128, .f32⟩ : BufTy).Contents (Elt F) :=
  broadcastInDim S128 ![] bcast_S_S128 (val_main_cst_3 (F := F))

def val_main_v43 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 : (⟨S4x128, .f32⟩ : BufTy).Contents (Elt F)) (x11 : (⟨S4, .f32⟩ : BufTy).Contents (Elt F)) : (⟨S128, .f32⟩ : BufTy).Contents (Elt F) :=
  Host.divf (val_main_v41 (F := F) x0 x1 x3 x4 x5 x6 x11) (val_main_v42 (F := F))

def val_main_v44 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 : (⟨S4x128, .f32⟩ : BufTy).Contents (Elt F)) (x11 : (⟨S4, .f32⟩ : BufTy).Contents (Elt F)) : (⟨S1x128, .f32⟩ : BufTy).Contents (Elt F) :=
  broadcastInDim S1x128 ![1] bcast_S128_S1x128_1 (val_main_v43 (F := F) x0 x1 x3 x4 x5 x6 x11)

def val_main_v45 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 : (⟨S4x128, .f32⟩ : BufTy).Contents (Elt F)) (x11 : (⟨S4, .f32⟩ : BufTy).Contents (Elt F)) : (⟨S100000x128, .f32⟩ : BufTy).Contents (Elt F) :=
  broadcastInDim S100000x128 ![0, 1] bcast_S1x128_S100000x128_0_1 (val_main_v44 (F := F) x0 x1 x3 x4 x5 x6 x11)

def val_main_v46 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 : (⟨S4x128, .f32⟩ : BufTy).Contents (Elt F)) (x11 : (⟨S4, .f32⟩ : BufTy).Contents (Elt F)) : (⟨S100000x128, .f32⟩ : BufTy).Contents (Elt F) :=
  subf (val_main_v40 (F := F) x0 x1 x3 x4 x5 x6 x11) (val_main_v45 (F := F) x0 x1 x3 x4 x5 x6 x11)

def val_main_v47 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 : (⟨S4x128, .f32⟩ : BufTy).Contents (Elt F)) (x11 : (⟨S4, .f32⟩ : BufTy).Contents (Elt F)) : (⟨S100000x128, .f32⟩ : BufTy).Contents (Elt F) :=
  mulf (val_main_v46 (F := F) x0 x1 x3 x4 x5 x6 x11) (val_main_v46 (F := F) x0 x1 x3 x4 x5 x6 x11)

def val_main_cst_4 : (⟨S_, .f32⟩ : BufTy).Contents (Elt F) :=
  constant S_ .f32 0x00000000#32

def val_main_v48 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 : (⟨S4x128, .f32⟩ : BufTy).Contents (Elt F)) (x11 : (⟨S4, .f32⟩ : BufTy).Contents (Elt F)) : (⟨S128, .f32⟩ : BufTy).Contents (Elt F) :=
  Host.reduceAdd (val_main_v47 (F := F) x0 x1 x3 x4 x5 x6 x11) (val_main_cst_4 (F := F)) reducesTo_S100000x128_S128_d0 h_S_

def val_main_cst_5 : (⟨S_, .f32⟩ : BufTy).Contents (Elt F) :=
  constant S_ .f32 0x47C35000#32

def val_main_v49 : (⟨S128, .f32⟩ : BufTy).Contents (Elt F) :=
  broadcastInDim S128 ![] bcast_S_S128 (val_main_cst_5 (F := F))

def val_main_v50 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 : (⟨S4x128, .f32⟩ : BufTy).Contents (Elt F)) (x11 : (⟨S4, .f32⟩ : BufTy).Contents (Elt F)) : (⟨S128, .f32⟩ : BufTy).Contents (Elt F) :=
  Host.divf (val_main_v48 (F := F) x0 x1 x3 x4 x5 x6 x11) (val_main_v49 (F := F))

def val_main_v51 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 : (⟨S4x128, .f32⟩ : BufTy).Contents (Elt F)) (x11 : (⟨S4, .f32⟩ : BufTy).Contents (Elt F)) : (⟨S1x128, .f32⟩ : BufTy).Contents (Elt F) :=
  broadcastInDim S1x128 ![1] bcast_S128_S1x128_1 (val_main_v43 (F := F) x0 x1 x3 x4 x5 x6 x11)

def val_main_v52 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 : (⟨S4x128, .f32⟩ : BufTy).Contents (Elt F)) (x11 : (⟨S4, .f32⟩ : BufTy).Contents (Elt F)) : (⟨S100000x128, .f32⟩ : BufTy).Contents (Elt F) :=
  broadcastInDim S100000x128 ![0, 1] bcast_S1x128_S100000x128_0_1 (val_main_v51 (F := F) x0 x1 x3 x4 x5 x6 x11)

def val_main_v53 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 : (⟨S4x128, .f32⟩ : BufTy).Contents (Elt F)) (x11 : (⟨S4, .f32⟩ : BufTy).Contents (Elt F)) : (⟨S100000x128, .f32⟩ : BufTy).Contents (Elt F) :=
  subf (val_main_v40 (F := F) x0 x1 x3 x4 x5 x6 x11) (val_main_v52 (F := F) x0 x1 x3 x4 x5 x6 x11)

def val_main_cst_6 : (⟨S_, .f32⟩ : BufTy).Contents (Elt F) :=
  constant S_ .f32 0x3727C5AC#32

def val_main_v54 : (⟨S128, .f32⟩ : BufTy).Contents (Elt F) :=
  broadcastInDim S128 ![] bcast_S_S128 (val_main_cst_6 (F := F))

def val_main_v55 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 : (⟨S4x128, .f32⟩ : BufTy).Contents (Elt F)) (x11 : (⟨S4, .f32⟩ : BufTy).Contents (Elt F)) : (⟨S128, .f32⟩ : BufTy).Contents (Elt F) :=
  addf (val_main_v50 (F := F) x0 x1 x3 x4 x5 x6 x11) (val_main_v54 (F := F))

def val_main_v56 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 : (⟨S4x128, .f32⟩ : BufTy).Contents (Elt F)) (x11 : (⟨S4, .f32⟩ : BufTy).Contents (Elt F)) : (⟨S128, .f32⟩ : BufTy).Contents (Elt F) :=
  Host.rsqrt (val_main_v55 (F := F) x0 x1 x3 x4 x5 x6 x11)

def val_main_v57 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 : (⟨S4x128, .f32⟩ : BufTy).Contents (Elt F)) (x11 : (⟨S4, .f32⟩ : BufTy).Contents (Elt F)) : (⟨S1x128, .f32⟩ : BufTy).Contents (Elt F) :=
  broadcastInDim S1x128 ![1] bcast_S128_S1x128_1 (val_main_v56 (F := F) x0 x1 x3 x4 x5 x6 x11)

def val_main_v58 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 : (⟨S4x128, .f32⟩ : BufTy).Contents (Elt F)) (x11 : (⟨S4, .f32⟩ : BufTy).Contents (Elt F)) : (⟨S100000x128, .f32⟩ : BufTy).Contents (Elt F) :=
  broadcastInDim S100000x128 ![0, 1] bcast_S1x128_S100000x128_0_1 (val_main_v57 (F := F) x0 x1 x3 x4 x5 x6 x11)

def val_main_v59 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 : (⟨S4x128, .f32⟩ : BufTy).Contents (Elt F)) (x11 : (⟨S4, .f32⟩ : BufTy).Contents (Elt F)) : (⟨S100000x128, .f32⟩ : BufTy).Contents (Elt F) :=
  mulf (val_main_v53 (F := F) x0 x1 x3 x4 x5 x6 x11) (val_main_v58 (F := F) x0 x1 x3 x4 x5 x6 x11)

def val_main_v60 (x7 : (⟨S4x128, .f32⟩ : BufTy).Contents (Elt F)) : (⟨S1x128, .f32⟩ : BufTy).Contents (Elt F) :=
  broadcastInDim S1x128 ![1] bcast_S128_S1x128_1 (val_main_v13 (F := F) x7)

def val_main_v61 (x7 : (⟨S4x128, .f32⟩ : BufTy).Contents (Elt F)) : (⟨S100000x128, .f32⟩ : BufTy).Contents (Elt F) :=
  broadcastInDim S100000x128 ![0, 1] bcast_S1x128_S100000x128_0_1 (val_main_v60 (F := F) x7)

def val_main_v62 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 : (⟨S4x128, .f32⟩ : BufTy).Contents (Elt F)) (x11 : (⟨S4, .f32⟩ : BufTy).Contents (Elt F)) : (⟨S100000x128, .f32⟩ : BufTy).Contents (Elt F) :=
  mulf (val_main_v59 (F := F) x0 x1 x3 x4 x5 x6 x11) (val_main_v61 (F := F) x7)

def val_main_v63 (x8 : (⟨S4x128, .f32⟩ : BufTy).Contents (Elt F)) : (⟨S1x128, .f32⟩ : BufTy).Contents (Elt F) :=
  broadcastInDim S1x128 ![1] bcast_S128_S1x128_1 (val_main_v15 (F := F) x8)

def val_main_v64 (x8 : (⟨S4x128, .f32⟩ : BufTy).Contents (Elt F)) : (⟨S100000x128, .f32⟩ : BufTy).Contents (Elt F) :=
  broadcastInDim S100000x128 ![0, 1] bcast_S1x128_S100000x128_0_1 (val_main_v63 (F := F) x8)

def val_main_v65 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x11 : (⟨S4, .f32⟩ : BufTy).Contents (Elt F)) : (⟨S100000x128, .f32⟩ : BufTy).Contents (Elt F) :=
  addf (val_main_v62 (F := F) x0 x1 x3 x4 x5 x6 x7 x11) (val_main_v64 (F := F) x8)

def val_main_call1_cst : (⟨S_, .f32⟩ : BufTy).Contents (Elt F) :=
  constant S_ .f32 0x00000000#32

def val_main_call1_v0 : (⟨S100000x128, .f32⟩ : BufTy).Contents (Elt F) :=
  broadcastInDim S100000x128 ![] bcast_S_S100000x128 (val_main_call1_cst (F := F))

def val_main_v66 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x11 : (⟨S4, .f32⟩ : BufTy).Contents (Elt F)) : (⟨S100000x128, .f32⟩ : BufTy).Contents (Elt F) :=
  maximumf (val_main_v65 (F := F) x0 x1 x3 x4 x5 x6 x7 x8 x11) (val_main_call1_v0 (F := F))

def val_main_v67 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x11 : (⟨S4, .f32⟩ : BufTy).Contents (Elt F)) : (⟨S100000x64, .f32⟩ : BufTy).Contents (Elt F) :=
  Host.dotGeneral dot_S100000x128_S128x64_S100000x64_1_0_0_1_n_n none (val_main_v66 (F := F) x0 x1 x3 x4 x5 x6 x7 x8 x11) (val_main_v17 (F := F) x9)

theorem lhs_main_v67_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl

theorem lhs_main_v67_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q

theorem rhs_main_v67_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q

theorem rhs_main_v67_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

def val_main_v68 (x10 : (⟨S4x64, .f32⟩ : BufTy).Contents (Elt F)) : (⟨S1x64, .f32⟩ : BufTy).Contents (Elt F) :=
  broadcastInDim S1x64 ![1] bcast_S64_S1x64_1 (val_main_v19 (F := F) x10)

def val_main_v69 (x10 : (⟨S4x64, .f32⟩ : BufTy).Contents (Elt F)) : (⟨S100000x64, .f32⟩ : BufTy).Contents (Elt F) :=
  broadcastInDim S100000x64 ![0, 1] bcast_S1x64_S100000x64_0_1 (val_main_v68 (F := F) x10)

def val_main_v70 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  addf (val_main_v67 (F := F) x0 x1 x3 x4 x5 x6 x7 x8 x9 x11) (val_main_v69 (F := F) x10)

def val_main_v71 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  addf (val_main_v7 (F := F) x0 x3 x4) (val_main_v70 (F := F) x0 x1 x3 x4 x5 x6 x7 x8 x9 x10 x11)

def val_main_v72 (x5 : (⟨S4x64x128, .f32⟩ : BufTy).Contents (Elt F)) : (⟨S1x64x128, .f32⟩ : BufTy).Contents (Elt F) :=
  extractStridedSlice S1x64x128 ![1, 0, 0] (x5) slices_S4x64x128_S1x64x128_1_0_0

def val_main_v73 (x5 : (⟨S4x64x128, .f32⟩ : BufTy).Contents (Elt F)) : (⟨S64x128, .f32⟩ : BufTy).Contents (Elt F) :=
  shapeCast _ (val_main_v72 (F := F) x5) shapeCasts_S1x64x128_S64x128

def val_main_v74 (x6 : (⟨S4x128, .f32⟩ : BufTy).Contents (Elt F)) : (⟨S1x128, .f32⟩ : BufTy).Contents (Elt F) :=
  extractStridedSlice S1x128 ![1, 0] (x6) slices_S4x128_S1x128_1_0

def val_main_v75 (x6 : (⟨S4x128, .f32⟩ : BufTy).Contents (Elt F)) : (⟨S128, .f32⟩ : BufTy).Contents (Elt F) :=
  shapeCast _ (val_main_v74 (F := F) x6) shapeCasts_S1x128_S128

def val_main_v76 (x7 : (⟨S4x128, .f32⟩ : BufTy).Contents (Elt F)) : (⟨S1x128, .f32⟩ : BufTy).Contents (Elt F) :=
  extractStridedSlice S1x128 ![1, 0] (x7) slices_S4x128_S1x128_1_0

def val_main_v77 (x7 : (⟨S4x128, .f32⟩ : BufTy).Contents (Elt F)) : (⟨S128, .f32⟩ : BufTy).Contents (Elt F) :=
  shapeCast _ (val_main_v76 (F := F) x7) shapeCasts_S1x128_S128

def val_main_v78 (x8 : (⟨S4x128, .f32⟩ : BufTy).Contents (Elt F)) : (⟨S1x128, .f32⟩ : BufTy).Contents (Elt F) :=
  extractStridedSlice S1x128 ![1, 0] (x8) slices_S4x128_S1x128_1_0

def val_main_v79 (x8 : (⟨S4x128, .f32⟩ : BufTy).Contents (Elt F)) : (⟨S128, .f32⟩ : BufTy).Contents (Elt F) :=
  shapeCast _ (val_main_v78 (F := F) x8) shapeCasts_S1x128_S128

def val_main_v80 (x9 : (⟨S4x128x64, .f32⟩ : BufTy).Contents (Elt F)) : (⟨S1x128x64, .f32⟩ : BufTy).Contents (Elt F) :=
  extractStridedSlice S1x128x64 ![1, 0, 0] (x9) slices_S4x128x64_S1x128x64_1_0_0

def val_main_v81 (x9 : (⟨S4x128x64, .f32⟩ : BufTy).Contents (Elt F)) : (⟨S128x64, .f32⟩ : BufTy).Contents (Elt F) :=
  shapeCast _ (val_main_v80 (F := F) x9) shapeCasts_S1x128x64_S128x64

def val_main_v82 (x10 : (⟨S4x64, .f32⟩ : BufTy).Contents (Elt F)) : (⟨S1x64, .f32⟩ : BufTy).Contents (Elt F) :=
  extractStridedSlice S1x64 ![1, 0] (x10) slices_S4x64_S1x64_1_0

def val_main_v83 (x10 : (⟨S4x64, .f32⟩ : BufTy).Contents (Elt F)) : (⟨S64, .f32⟩ : BufTy).Contents (Elt F) :=
  shapeCast _ (val_main_v82 (F := F) x10) shapeCasts_S1x64_S64

def val_main_v84 (x11 : (⟨S4, .f32⟩ : BufTy).Contents (Elt F)) : (⟨S1, .f32⟩ : BufTy).Contents (Elt F) :=
  extractStridedSlice S1 ![1] (x11) slices_S4_S1_1

def val_main_v85 (x11 : (⟨S4, .f32⟩ : BufTy).Contents (Elt F)) : (⟨S_, .f32⟩ : BufTy).Contents (Elt F) :=
  shapeCast _ (val_main_v84 (F := F) x11) shapeCasts_S1_S_

def val_main_c_7 : (⟨S_, .i32⟩ : BufTy).Contents (Elt F) :=
  constantI S_ 32 0#32

def val_main_v86 : (⟨S1600000, .i32⟩ : BufTy).Contents (Elt F) :=
  broadcastInDim S1600000 ![] bcast_S_S1600000 (val_main_c_7 (F := F))

def val_main_v87 (x1 : (⟨S2x1600000, .i32⟩ : BufTy).Contents (Elt F)) : (⟨S1600000, .i1⟩ : BufTy).Contents (Elt F) :=
  cmpi .slt (val_main_v1 (F := F) x1) (val_main_v86 (F := F))

def val_main_c_8 : (⟨S_, .i32⟩ : BufTy).Contents (Elt F) :=
  constantI S_ 32 100000#32

def val_main_v88 : (⟨S1600000, .i32⟩ : BufTy).Contents (Elt F) :=
  broadcastInDim S1600000 ![] bcast_S_S1600000 (val_main_c_8 (F := F))

def val_main_v89 (x1 : (⟨S2x1600000, .i32⟩ : BufTy).Contents (Elt F)) : (⟨S1600000, .i32⟩ : BufTy).Contents (Elt F) :=
  addi (val_main_v1 (F := F) x1) (val_main_v88 (F := F))

def val_main_v90 (x1 : (⟨S2x1600000, .i32⟩ : BufTy).Contents (Elt F)) : (⟨S1600000, .i32⟩ : BufTy).Contents (Elt F) :=
  select (val_main_v87 (F := F) x1) (val_main_v89 (F := F) x1) (val_main_v1 (F := F) x1)

def val_main_v91 (x1 : (⟨S2x1600000, .i32⟩ : BufTy).Contents (Elt F)) : (⟨S1600000x1, .i32⟩ : BufTy).Contents (Elt F) :=
  broadcastInDim S1600000x1 ![0] bcast_S1600000_S1600000x1_0 (val_main_v90 (F := F) x1)

def val_main_v92 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S1600000x64, .f32⟩ : BufTy).Contents (Elt F) :=
  Host.gather gather_S100000x64_S1600000x1_S1600000x64_1_0_n_n_0_1_164 (val_main_v71 (F := F) x0 x1 x3 x4 x5 x6 x7 x8 x9 x10 x11) (val_main_v91 (F := F) x1)

def val_main_call2_cst : (⟨S_, .f32⟩ : BufTy).Contents (Elt F) :=
  constant S_ .f32 0x00000000#32

def val_main_call2_v0 : (⟨S1600000x64, .f32⟩ : BufTy).Contents (Elt F) :=
  broadcastInDim S1600000x64 ![] bcast_S_S1600000x64 (val_main_call2_cst (F := F))

def val_main_v93 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S1600000x64, .f32⟩ : BufTy).Contents (Elt F) :=
  maximumf (val_main_v92 (F := F) x0 x1 x3 x4 x5 x6 x7 x8 x9 x10 x11) (val_main_call2_v0 (F := F))

def val_main_cst_9 : (⟨S_, .f32⟩ : BufTy).Contents (Elt F) :=
  constant S_ .f32 0x00000000#32

def val_main_v94 : (⟨S100000x64, .f32⟩ : BufTy).Contents (Elt F) :=
  broadcastInDim S100000x64 ![] bcast_S_S100000x64 (val_main_cst_9 (F := F))

def val_main_v95 (x1 : (⟨S2x1600000, .i32⟩ : BufTy).Contents (Elt F)) : (⟨S1600000x1, .i32⟩ : BufTy).Contents (Elt F) :=
  broadcastInDim S1600000x1 ![0] bcast_S1600000_S1600000x1_0 (val_main_v3 (F := F) x1)

def val_main_v96 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  Host.scatterAdd scatter_S100000x64_S1600000x1_S1600000x64_1_0_0_1 (val_main_v94 (F := F)) (val_main_v95 (F := F) x1) (val_main_v93 (F := F) x0 x1 x3 x4 x5 x6 x7 x8 x9 x10 x11)

def val_main_cst_10 : (⟨S_, .f32⟩ : BufTy).Contents (Elt F) :=
  constant S_ .f32 0x3F800000#32

def val_main_v97 (x11 : (⟨S4, .f32⟩ : BufTy).Contents (Elt F)) : (⟨S_, .f32⟩ : BufTy).Contents (Elt F) :=
  addf (val_main_cst_10 (F := F)) (val_main_v85 (F := F) x11)

def val_main_v98 (x11 : (⟨S4, .f32⟩ : BufTy).Contents (Elt F)) : (⟨S100000x64, .f32⟩ : BufTy).Contents (Elt F) :=
  broadcastInDim S100000x64 ![] bcast_S_S100000x64 (val_main_v97 (F := F) x11)

def val_main_v99 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  mulf (val_main_v98 (F := F) x11) (val_main_v71 (F := F) x0 x1 x3 x4 x5 x6 x7 x8 x9 x10 x11)

def val_main_v100 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  addf (val_main_v99 (F := F) x0 x1 x3 x4 x5 x6 x7 x8 x9 x10 x11) (val_main_v96 (F := F) x0 x1 x3 x4 x5 x6 x7 x8 x9 x10 x11)

def val_main_v101 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  Host.dotGeneral dot_S100000x64_S64x128_S100000x128_1_0_0_1_n_n none (val_main_v100 (F := F) x0 x1 x3 x4 x5 x6 x7 x8 x9 x10 x11) (val_main_v73 (F := F) x5)

def val_main_v102 (x6 : (⟨S4x128, .f32⟩ : BufTy).Contents (Elt F)) : (⟨S1x128, .f32⟩ : BufTy).Contents (Elt F) :=
  broadcastInDim S1x128 ![1] bcast_S128_S1x128_1 (val_main_v75 (F := F) x6)

def val_main_v103 (x6 : (⟨S4x128, .f32⟩ : BufTy).Contents (Elt F)) : (⟨S100000x128, .f32⟩ : BufTy).Contents (Elt F) :=
  broadcastInDim S100000x128 ![0, 1] bcast_S1x128_S100000x128_0_1 (val_main_v102 (F := F) x6)

def val_main_v104 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  addf (val_main_v101 (F := F) x0 x1 x3 x4 x5 x6 x7 x8 x9 x10 x11) (val_main_v103 (F := F) x6)

def val_main_cst_11 : (⟨S_, .f32⟩ : BufTy).Contents (Elt F) :=
  constant S_ .f32 0x00000000#32

def val_main_v105 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  Host.reduceAdd (val_main_v104 (F := F) x0 x1 x3 x4 x5 x6 x7 x8 x9 x10 x11) (val_main_cst_11 (F := F)) reducesTo_S100000x128_S128_d0 h_S_

def val_main_cst_12 : (⟨S_, .f32⟩ : BufTy).Contents (Elt F) :=
  constant S_ .f32 0x47C35000#32

def val_main_v106 : (⟨S128, .f32⟩ : BufTy).Contents (Elt F) :=
  broadcastInDim S128 ![] bcast_S_S128 (val_main_cst_12 (F := F))

def val_main_v107 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  Host.divf (val_main_v105 (F := F) x0 x1 x3 x4 x5 x6 x7 x8 x9 x10 x11) (val_main_v106 (F := F))

def val_main_v108 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S1x128, .f32⟩ : BufTy).Contents (Elt F) :=
  broadcastInDim S1x128 ![1] bcast_S128_S1x128_1 (val_main_v107 (F := F) x0 x1 x3 x4 x5 x6 x7 x8 x9 x10 x11)

def val_main_v109 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  broadcastInDim S100000x128 ![0, 1] bcast_S1x128_S100000x128_0_1 (val_main_v108 (F := F) x0 x1 x3 x4 x5 x6 x7 x8 x9 x10 x11)

def val_main_v110 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  subf (val_main_v104 (F := F) x0 x1 x3 x4 x5 x6 x7 x8 x9 x10 x11) (val_main_v109 (F := F) x0 x1 x3 x4 x5 x6 x7 x8 x9 x10 x11)

def val_main_v111 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  mulf (val_main_v110 (F := F) x0 x1 x3 x4 x5 x6 x7 x8 x9 x10 x11) (val_main_v110 (F := F) x0 x1 x3 x4 x5 x6 x7 x8 x9 x10 x11)

def val_main_cst_13 : (⟨S_, .f32⟩ : BufTy).Contents (Elt F) :=
  constant S_ .f32 0x00000000#32

def val_main_v112 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  Host.reduceAdd (val_main_v111 (F := F) x0 x1 x3 x4 x5 x6 x7 x8 x9 x10 x11) (val_main_cst_13 (F := F)) reducesTo_S100000x128_S128_d0 h_S_

def val_main_cst_14 : (⟨S_, .f32⟩ : BufTy).Contents (Elt F) :=
  constant S_ .f32 0x47C35000#32

def val_main_v113 : (⟨S128, .f32⟩ : BufTy).Contents (Elt F) :=
  broadcastInDim S128 ![] bcast_S_S128 (val_main_cst_14 (F := F))

def val_main_v114 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  Host.divf (val_main_v112 (F := F) x0 x1 x3 x4 x5 x6 x7 x8 x9 x10 x11) (val_main_v113 (F := F))

def val_main_v115 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S1x128, .f32⟩ : BufTy).Contents (Elt F) :=
  broadcastInDim S1x128 ![1] bcast_S128_S1x128_1 (val_main_v107 (F := F) x0 x1 x3 x4 x5 x6 x7 x8 x9 x10 x11)

def val_main_v116 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  broadcastInDim S100000x128 ![0, 1] bcast_S1x128_S100000x128_0_1 (val_main_v115 (F := F) x0 x1 x3 x4 x5 x6 x7 x8 x9 x10 x11)

def val_main_v117 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  subf (val_main_v104 (F := F) x0 x1 x3 x4 x5 x6 x7 x8 x9 x10 x11) (val_main_v116 (F := F) x0 x1 x3 x4 x5 x6 x7 x8 x9 x10 x11)

def val_main_cst_15 : (⟨S_, .f32⟩ : BufTy).Contents (Elt F) :=
  constant S_ .f32 0x3727C5AC#32

def val_main_v118 : (⟨S128, .f32⟩ : BufTy).Contents (Elt F) :=
  broadcastInDim S128 ![] bcast_S_S128 (val_main_cst_15 (F := F))

def val_main_v119 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  addf (val_main_v114 (F := F) x0 x1 x3 x4 x5 x6 x7 x8 x9 x10 x11) (val_main_v118 (F := F))

def val_main_v120 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  Host.rsqrt (val_main_v119 (F := F) x0 x1 x3 x4 x5 x6 x7 x8 x9 x10 x11)

def val_main_v121 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S1x128, .f32⟩ : BufTy).Contents (Elt F) :=
  broadcastInDim S1x128 ![1] bcast_S128_S1x128_1 (val_main_v120 (F := F) x0 x1 x3 x4 x5 x6 x7 x8 x9 x10 x11)

def val_main_v122 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  broadcastInDim S100000x128 ![0, 1] bcast_S1x128_S100000x128_0_1 (val_main_v121 (F := F) x0 x1 x3 x4 x5 x6 x7 x8 x9 x10 x11)

def val_main_v123 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  mulf (val_main_v117 (F := F) x0 x1 x3 x4 x5 x6 x7 x8 x9 x10 x11) (val_main_v122 (F := F) x0 x1 x3 x4 x5 x6 x7 x8 x9 x10 x11)

def val_main_v124 (x7 : (⟨S4x128, .f32⟩ : BufTy).Contents (Elt F)) : (⟨S1x128, .f32⟩ : BufTy).Contents (Elt F) :=
  broadcastInDim S1x128 ![1] bcast_S128_S1x128_1 (val_main_v77 (F := F) x7)

def val_main_v125 (x7 : (⟨S4x128, .f32⟩ : BufTy).Contents (Elt F)) : (⟨S100000x128, .f32⟩ : BufTy).Contents (Elt F) :=
  broadcastInDim S100000x128 ![0, 1] bcast_S1x128_S100000x128_0_1 (val_main_v124 (F := F) x7)

def val_main_v126 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  mulf (val_main_v123 (F := F) x0 x1 x3 x4 x5 x6 x7 x8 x9 x10 x11) (val_main_v125 (F := F) x7)

def val_main_v127 (x8 : (⟨S4x128, .f32⟩ : BufTy).Contents (Elt F)) : (⟨S1x128, .f32⟩ : BufTy).Contents (Elt F) :=
  broadcastInDim S1x128 ![1] bcast_S128_S1x128_1 (val_main_v79 (F := F) x8)

def val_main_v128 (x8 : (⟨S4x128, .f32⟩ : BufTy).Contents (Elt F)) : (⟨S100000x128, .f32⟩ : BufTy).Contents (Elt F) :=
  broadcastInDim S100000x128 ![0, 1] bcast_S1x128_S100000x128_0_1 (val_main_v127 (F := F) x8)

def val_main_v129 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  addf (val_main_v126 (F := F) x0 x1 x3 x4 x5 x6 x7 x8 x9 x10 x11) (val_main_v128 (F := F) x8)

def val_main_call3_cst : (⟨S_, .f32⟩ : BufTy).Contents (Elt F) :=
  constant S_ .f32 0x00000000#32

def val_main_call3_v0 : (⟨S100000x128, .f32⟩ : BufTy).Contents (Elt F) :=
  broadcastInDim S100000x128 ![] bcast_S_S100000x128 (val_main_call3_cst (F := F))

def val_main_v130 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  maximumf (val_main_v129 (F := F) x0 x1 x3 x4 x5 x6 x7 x8 x9 x10 x11) (val_main_call3_v0 (F := F))

def val_main_v131 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  Host.dotGeneral dot_S100000x128_S128x64_S100000x64_1_0_0_1_n_n none (val_main_v130 (F := F) x0 x1 x3 x4 x5 x6 x7 x8 x9 x10 x11) (val_main_v81 (F := F) x9)

def val_main_v132 (x10 : (⟨S4x64, .f32⟩ : BufTy).Contents (Elt F)) : (⟨S1x64, .f32⟩ : BufTy).Contents (Elt F) :=
  broadcastInDim S1x64 ![1] bcast_S64_S1x64_1 (val_main_v83 (F := F) x10)

def val_main_v133 (x10 : (⟨S4x64, .f32⟩ : BufTy).Contents (Elt F)) : (⟨S100000x64, .f32⟩ : BufTy).Contents (Elt F) :=
  broadcastInDim S100000x64 ![0, 1] bcast_S1x64_S100000x64_0_1 (val_main_v132 (F := F) x10)

def val_main_v134 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  addf (val_main_v131 (F := F) x0 x1 x3 x4 x5 x6 x7 x8 x9 x10 x11) (val_main_v133 (F := F) x10)

def val_main_v135 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  addf (val_main_v71 (F := F) x0 x1 x3 x4 x5 x6 x7 x8 x9 x10 x11) (val_main_v134 (F := F) x0 x1 x3 x4 x5 x6 x7 x8 x9 x10 x11)

def val_main_v136 (x5 : (⟨S4x64x128, .f32⟩ : BufTy).Contents (Elt F)) : (⟨S1x64x128, .f32⟩ : BufTy).Contents (Elt F) :=
  extractStridedSlice S1x64x128 ![2, 0, 0] (x5) slices_S4x64x128_S1x64x128_2_0_0

def val_main_v137 (x5 : (⟨S4x64x128, .f32⟩ : BufTy).Contents (Elt F)) : (⟨S64x128, .f32⟩ : BufTy).Contents (Elt F) :=
  shapeCast _ (val_main_v136 (F := F) x5) shapeCasts_S1x64x128_S64x128

def val_main_v138 (x6 : (⟨S4x128, .f32⟩ : BufTy).Contents (Elt F)) : (⟨S1x128, .f32⟩ : BufTy).Contents (Elt F) :=
  extractStridedSlice S1x128 ![2, 0] (x6) slices_S4x128_S1x128_2_0

def val_main_v139 (x6 : (⟨S4x128, .f32⟩ : BufTy).Contents (Elt F)) : (⟨S128, .f32⟩ : BufTy).Contents (Elt F) :=
  shapeCast _ (val_main_v138 (F := F) x6) shapeCasts_S1x128_S128

def val_main_v140 (x7 : (⟨S4x128, .f32⟩ : BufTy).Contents (Elt F)) : (⟨S1x128, .f32⟩ : BufTy).Contents (Elt F) :=
  extractStridedSlice S1x128 ![2, 0] (x7) slices_S4x128_S1x128_2_0

def val_main_v141 (x7 : (⟨S4x128, .f32⟩ : BufTy).Contents (Elt F)) : (⟨S128, .f32⟩ : BufTy).Contents (Elt F) :=
  shapeCast _ (val_main_v140 (F := F) x7) shapeCasts_S1x128_S128

def val_main_v142 (x8 : (⟨S4x128, .f32⟩ : BufTy).Contents (Elt F)) : (⟨S1x128, .f32⟩ : BufTy).Contents (Elt F) :=
  extractStridedSlice S1x128 ![2, 0] (x8) slices_S4x128_S1x128_2_0

def val_main_v143 (x8 : (⟨S4x128, .f32⟩ : BufTy).Contents (Elt F)) : (⟨S128, .f32⟩ : BufTy).Contents (Elt F) :=
  shapeCast _ (val_main_v142 (F := F) x8) shapeCasts_S1x128_S128

def val_main_v144 (x9 : (⟨S4x128x64, .f32⟩ : BufTy).Contents (Elt F)) : (⟨S1x128x64, .f32⟩ : BufTy).Contents (Elt F) :=
  extractStridedSlice S1x128x64 ![2, 0, 0] (x9) slices_S4x128x64_S1x128x64_2_0_0

def val_main_v145 (x9 : (⟨S4x128x64, .f32⟩ : BufTy).Contents (Elt F)) : (⟨S128x64, .f32⟩ : BufTy).Contents (Elt F) :=
  shapeCast _ (val_main_v144 (F := F) x9) shapeCasts_S1x128x64_S128x64

def val_main_v146 (x10 : (⟨S4x64, .f32⟩ : BufTy).Contents (Elt F)) : (⟨S1x64, .f32⟩ : BufTy).Contents (Elt F) :=
  extractStridedSlice S1x64 ![2, 0] (x10) slices_S4x64_S1x64_2_0

def val_main_v147 (x10 : (⟨S4x64, .f32⟩ : BufTy).Contents (Elt F)) : (⟨S64, .f32⟩ : BufTy).Contents (Elt F) :=
  shapeCast _ (val_main_v146 (F := F) x10) shapeCasts_S1x64_S64

def val_main_v148 (x11 : (⟨S4, .f32⟩ : BufTy).Contents (Elt F)) : (⟨S1, .f32⟩ : BufTy).Contents (Elt F) :=
  extractStridedSlice S1 ![2] (x11) slices_S4_S1_2

def val_main_v149 (x11 : (⟨S4, .f32⟩ : BufTy).Contents (Elt F)) : (⟨S_, .f32⟩ : BufTy).Contents (Elt F) :=
  shapeCast _ (val_main_v148 (F := F) x11) shapeCasts_S1_S_

def val_main_c_16 : (⟨S_, .i32⟩ : BufTy).Contents (Elt F) :=
  constantI S_ 32 0#32

def val_main_v150 : (⟨S1600000, .i32⟩ : BufTy).Contents (Elt F) :=
  broadcastInDim S1600000 ![] bcast_S_S1600000 (val_main_c_16 (F := F))

def val_main_v151 (x1 : (⟨S2x1600000, .i32⟩ : BufTy).Contents (Elt F)) : (⟨S1600000, .i1⟩ : BufTy).Contents (Elt F) :=
  cmpi .slt (val_main_v1 (F := F) x1) (val_main_v150 (F := F))

def val_main_c_17 : (⟨S_, .i32⟩ : BufTy).Contents (Elt F) :=
  constantI S_ 32 100000#32

def val_main_v152 : (⟨S1600000, .i32⟩ : BufTy).Contents (Elt F) :=
  broadcastInDim S1600000 ![] bcast_S_S1600000 (val_main_c_17 (F := F))

def val_main_v153 (x1 : (⟨S2x1600000, .i32⟩ : BufTy).Contents (Elt F)) : (⟨S1600000, .i32⟩ : BufTy).Contents (Elt F) :=
  addi (val_main_v1 (F := F) x1) (val_main_v152 (F := F))

def val_main_v154 (x1 : (⟨S2x1600000, .i32⟩ : BufTy).Contents (Elt F)) : (⟨S1600000, .i32⟩ : BufTy).Contents (Elt F) :=
  select (val_main_v151 (F := F) x1) (val_main_v153 (F := F) x1) (val_main_v1 (F := F) x1)

def val_main_v155 (x1 : (⟨S2x1600000, .i32⟩ : BufTy).Contents (Elt F)) : (⟨S1600000x1, .i32⟩ : BufTy).Contents (Elt F) :=
  broadcastInDim S1600000x1 ![0] bcast_S1600000_S1600000x1_0 (val_main_v154 (F := F) x1)

def val_main_v156 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S1600000x64, .f32⟩ : BufTy).Contents (Elt F) :=
  Host.gather gather_S100000x64_S1600000x1_S1600000x64_1_0_n_n_0_1_164 (val_main_v135 (F := F) x0 x1 x3 x4 x5 x6 x7 x8 x9 x10 x11) (val_main_v155 (F := F) x1)

def val_main_call4_cst : (⟨S_, .f32⟩ : BufTy).Contents (Elt F) :=
  constant S_ .f32 0x00000000#32

def val_main_call4_v0 : (⟨S1600000x64, .f32⟩ : BufTy).Contents (Elt F) :=
  broadcastInDim S1600000x64 ![] bcast_S_S1600000x64 (val_main_call4_cst (F := F))

def val_main_v157 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S1600000x64, .f32⟩ : BufTy).Contents (Elt F) :=
  maximumf (val_main_v156 (F := F) x0 x1 x3 x4 x5 x6 x7 x8 x9 x10 x11) (val_main_call4_v0 (F := F))

def val_main_cst_18 : (⟨S_, .f32⟩ : BufTy).Contents (Elt F) :=
  constant S_ .f32 0x00000000#32

def val_main_v158 : (⟨S100000x64, .f32⟩ : BufTy).Contents (Elt F) :=
  broadcastInDim S100000x64 ![] bcast_S_S100000x64 (val_main_cst_18 (F := F))

def val_main_v159 (x1 : (⟨S2x1600000, .i32⟩ : BufTy).Contents (Elt F)) : (⟨S1600000x1, .i32⟩ : BufTy).Contents (Elt F) :=
  broadcastInDim S1600000x1 ![0] bcast_S1600000_S1600000x1_0 (val_main_v3 (F := F) x1)

def val_main_v160 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  Host.scatterAdd scatter_S100000x64_S1600000x1_S1600000x64_1_0_0_1 (val_main_v158 (F := F)) (val_main_v159 (F := F) x1) (val_main_v157 (F := F) x0 x1 x3 x4 x5 x6 x7 x8 x9 x10 x11)

def val_main_cst_19 : (⟨S_, .f32⟩ : BufTy).Contents (Elt F) :=
  constant S_ .f32 0x3F800000#32

def val_main_v161 (x11 : (⟨S4, .f32⟩ : BufTy).Contents (Elt F)) : (⟨S_, .f32⟩ : BufTy).Contents (Elt F) :=
  addf (val_main_cst_19 (F := F)) (val_main_v149 (F := F) x11)

def val_main_v162 (x11 : (⟨S4, .f32⟩ : BufTy).Contents (Elt F)) : (⟨S100000x64, .f32⟩ : BufTy).Contents (Elt F) :=
  broadcastInDim S100000x64 ![] bcast_S_S100000x64 (val_main_v161 (F := F) x11)

def val_main_v163 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  mulf (val_main_v162 (F := F) x11) (val_main_v135 (F := F) x0 x1 x3 x4 x5 x6 x7 x8 x9 x10 x11)

def val_main_v164 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  addf (val_main_v163 (F := F) x0 x1 x3 x4 x5 x6 x7 x8 x9 x10 x11) (val_main_v160 (F := F) x0 x1 x3 x4 x5 x6 x7 x8 x9 x10 x11)

def val_main_v165 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  Host.dotGeneral dot_S100000x64_S64x128_S100000x128_1_0_0_1_n_n none (val_main_v164 (F := F) x0 x1 x3 x4 x5 x6 x7 x8 x9 x10 x11) (val_main_v137 (F := F) x5)

def val_main_v166 (x6 : (⟨S4x128, .f32⟩ : BufTy).Contents (Elt F)) : (⟨S1x128, .f32⟩ : BufTy).Contents (Elt F) :=
  broadcastInDim S1x128 ![1] bcast_S128_S1x128_1 (val_main_v139 (F := F) x6)

def val_main_v167 (x6 : (⟨S4x128, .f32⟩ : BufTy).Contents (Elt F)) : (⟨S100000x128, .f32⟩ : BufTy).Contents (Elt F) :=
  broadcastInDim S100000x128 ![0, 1] bcast_S1x128_S100000x128_0_1 (val_main_v166 (F := F) x6)

def val_main_v168 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  addf (val_main_v165 (F := F) x0 x1 x3 x4 x5 x6 x7 x8 x9 x10 x11) (val_main_v167 (F := F) x6)

def val_main_cst_20 : (⟨S_, .f32⟩ : BufTy).Contents (Elt F) :=
  constant S_ .f32 0x00000000#32

def val_main_v169 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  Host.reduceAdd (val_main_v168 (F := F) x0 x1 x3 x4 x5 x6 x7 x8 x9 x10 x11) (val_main_cst_20 (F := F)) reducesTo_S100000x128_S128_d0 h_S_

def val_main_cst_21 : (⟨S_, .f32⟩ : BufTy).Contents (Elt F) :=
  constant S_ .f32 0x47C35000#32

def val_main_v170 : (⟨S128, .f32⟩ : BufTy).Contents (Elt F) :=
  broadcastInDim S128 ![] bcast_S_S128 (val_main_cst_21 (F := F))

def val_main_v171 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  Host.divf (val_main_v169 (F := F) x0 x1 x3 x4 x5 x6 x7 x8 x9 x10 x11) (val_main_v170 (F := F))

def val_main_v172 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S1x128, .f32⟩ : BufTy).Contents (Elt F) :=
  broadcastInDim S1x128 ![1] bcast_S128_S1x128_1 (val_main_v171 (F := F) x0 x1 x3 x4 x5 x6 x7 x8 x9 x10 x11)

def val_main_v173 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  broadcastInDim S100000x128 ![0, 1] bcast_S1x128_S100000x128_0_1 (val_main_v172 (F := F) x0 x1 x3 x4 x5 x6 x7 x8 x9 x10 x11)

def val_main_v174 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  subf (val_main_v168 (F := F) x0 x1 x3 x4 x5 x6 x7 x8 x9 x10 x11) (val_main_v173 (F := F) x0 x1 x3 x4 x5 x6 x7 x8 x9 x10 x11)

def val_main_v175 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  mulf (val_main_v174 (F := F) x0 x1 x3 x4 x5 x6 x7 x8 x9 x10 x11) (val_main_v174 (F := F) x0 x1 x3 x4 x5 x6 x7 x8 x9 x10 x11)

def val_main_cst_22 : (⟨S_, .f32⟩ : BufTy).Contents (Elt F) :=
  constant S_ .f32 0x00000000#32

def val_main_v176 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  Host.reduceAdd (val_main_v175 (F := F) x0 x1 x3 x4 x5 x6 x7 x8 x9 x10 x11) (val_main_cst_22 (F := F)) reducesTo_S100000x128_S128_d0 h_S_

def val_main_cst_23 : (⟨S_, .f32⟩ : BufTy).Contents (Elt F) :=
  constant S_ .f32 0x47C35000#32

def val_main_v177 : (⟨S128, .f32⟩ : BufTy).Contents (Elt F) :=
  broadcastInDim S128 ![] bcast_S_S128 (val_main_cst_23 (F := F))

def val_main_v178 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  Host.divf (val_main_v176 (F := F) x0 x1 x3 x4 x5 x6 x7 x8 x9 x10 x11) (val_main_v177 (F := F))

def val_main_v179 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S1x128, .f32⟩ : BufTy).Contents (Elt F) :=
  broadcastInDim S1x128 ![1] bcast_S128_S1x128_1 (val_main_v171 (F := F) x0 x1 x3 x4 x5 x6 x7 x8 x9 x10 x11)

def val_main_v180 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  broadcastInDim S100000x128 ![0, 1] bcast_S1x128_S100000x128_0_1 (val_main_v179 (F := F) x0 x1 x3 x4 x5 x6 x7 x8 x9 x10 x11)

def val_main_v181 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  subf (val_main_v168 (F := F) x0 x1 x3 x4 x5 x6 x7 x8 x9 x10 x11) (val_main_v180 (F := F) x0 x1 x3 x4 x5 x6 x7 x8 x9 x10 x11)

def val_main_cst_24 : (⟨S_, .f32⟩ : BufTy).Contents (Elt F) :=
  constant S_ .f32 0x3727C5AC#32

def val_main_v182 : (⟨S128, .f32⟩ : BufTy).Contents (Elt F) :=
  broadcastInDim S128 ![] bcast_S_S128 (val_main_cst_24 (F := F))

def val_main_v183 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  addf (val_main_v178 (F := F) x0 x1 x3 x4 x5 x6 x7 x8 x9 x10 x11) (val_main_v182 (F := F))

def val_main_v184 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  Host.rsqrt (val_main_v183 (F := F) x0 x1 x3 x4 x5 x6 x7 x8 x9 x10 x11)

def val_main_v185 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S1x128, .f32⟩ : BufTy).Contents (Elt F) :=
  broadcastInDim S1x128 ![1] bcast_S128_S1x128_1 (val_main_v184 (F := F) x0 x1 x3 x4 x5 x6 x7 x8 x9 x10 x11)

def val_main_v186 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  broadcastInDim S100000x128 ![0, 1] bcast_S1x128_S100000x128_0_1 (val_main_v185 (F := F) x0 x1 x3 x4 x5 x6 x7 x8 x9 x10 x11)

def val_main_v187 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  mulf (val_main_v181 (F := F) x0 x1 x3 x4 x5 x6 x7 x8 x9 x10 x11) (val_main_v186 (F := F) x0 x1 x3 x4 x5 x6 x7 x8 x9 x10 x11)

def val_main_v188 (x7 : (⟨S4x128, .f32⟩ : BufTy).Contents (Elt F)) : (⟨S1x128, .f32⟩ : BufTy).Contents (Elt F) :=
  broadcastInDim S1x128 ![1] bcast_S128_S1x128_1 (val_main_v141 (F := F) x7)

def val_main_v189 (x7 : (⟨S4x128, .f32⟩ : BufTy).Contents (Elt F)) : (⟨S100000x128, .f32⟩ : BufTy).Contents (Elt F) :=
  broadcastInDim S100000x128 ![0, 1] bcast_S1x128_S100000x128_0_1 (val_main_v188 (F := F) x7)

def val_main_v190 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  mulf (val_main_v187 (F := F) x0 x1 x3 x4 x5 x6 x7 x8 x9 x10 x11) (val_main_v189 (F := F) x7)

def val_main_v191 (x8 : (⟨S4x128, .f32⟩ : BufTy).Contents (Elt F)) : (⟨S1x128, .f32⟩ : BufTy).Contents (Elt F) :=
  broadcastInDim S1x128 ![1] bcast_S128_S1x128_1 (val_main_v143 (F := F) x8)

def val_main_v192 (x8 : (⟨S4x128, .f32⟩ : BufTy).Contents (Elt F)) : (⟨S100000x128, .f32⟩ : BufTy).Contents (Elt F) :=
  broadcastInDim S100000x128 ![0, 1] bcast_S1x128_S100000x128_0_1 (val_main_v191 (F := F) x8)

def val_main_v193 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  addf (val_main_v190 (F := F) x0 x1 x3 x4 x5 x6 x7 x8 x9 x10 x11) (val_main_v192 (F := F) x8)

def val_main_call5_cst : (⟨S_, .f32⟩ : BufTy).Contents (Elt F) :=
  constant S_ .f32 0x00000000#32

def val_main_call5_v0 : (⟨S100000x128, .f32⟩ : BufTy).Contents (Elt F) :=
  broadcastInDim S100000x128 ![] bcast_S_S100000x128 (val_main_call5_cst (F := F))

def val_main_v194 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  maximumf (val_main_v193 (F := F) x0 x1 x3 x4 x5 x6 x7 x8 x9 x10 x11) (val_main_call5_v0 (F := F))

def val_main_v195 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  Host.dotGeneral dot_S100000x128_S128x64_S100000x64_1_0_0_1_n_n none (val_main_v194 (F := F) x0 x1 x3 x4 x5 x6 x7 x8 x9 x10 x11) (val_main_v145 (F := F) x9)

def val_main_v196 (x10 : (⟨S4x64, .f32⟩ : BufTy).Contents (Elt F)) : (⟨S1x64, .f32⟩ : BufTy).Contents (Elt F) :=
  broadcastInDim S1x64 ![1] bcast_S64_S1x64_1 (val_main_v147 (F := F) x10)

def val_main_v197 (x10 : (⟨S4x64, .f32⟩ : BufTy).Contents (Elt F)) : (⟨S100000x64, .f32⟩ : BufTy).Contents (Elt F) :=
  broadcastInDim S100000x64 ![0, 1] bcast_S1x64_S100000x64_0_1 (val_main_v196 (F := F) x10)

def val_main_v198 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  addf (val_main_v195 (F := F) x0 x1 x3 x4 x5 x6 x7 x8 x9 x10 x11) (val_main_v197 (F := F) x10)

def val_main_v199 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  addf (val_main_v135 (F := F) x0 x1 x3 x4 x5 x6 x7 x8 x9 x10 x11) (val_main_v198 (F := F) x0 x1 x3 x4 x5 x6 x7 x8 x9 x10 x11)

def val_main_v200 (x5 : (⟨S4x64x128, .f32⟩ : BufTy).Contents (Elt F)) : (⟨S1x64x128, .f32⟩ : BufTy).Contents (Elt F) :=
  extractStridedSlice S1x64x128 ![3, 0, 0] (x5) slices_S4x64x128_S1x64x128_3_0_0

def val_main_v201 (x5 : (⟨S4x64x128, .f32⟩ : BufTy).Contents (Elt F)) : (⟨S64x128, .f32⟩ : BufTy).Contents (Elt F) :=
  shapeCast _ (val_main_v200 (F := F) x5) shapeCasts_S1x64x128_S64x128

def val_main_v202 (x6 : (⟨S4x128, .f32⟩ : BufTy).Contents (Elt F)) : (⟨S1x128, .f32⟩ : BufTy).Contents (Elt F) :=
  extractStridedSlice S1x128 ![3, 0] (x6) slices_S4x128_S1x128_3_0

def val_main_v203 (x6 : (⟨S4x128, .f32⟩ : BufTy).Contents (Elt F)) : (⟨S128, .f32⟩ : BufTy).Contents (Elt F) :=
  shapeCast _ (val_main_v202 (F := F) x6) shapeCasts_S1x128_S128

def val_main_v204 (x7 : (⟨S4x128, .f32⟩ : BufTy).Contents (Elt F)) : (⟨S1x128, .f32⟩ : BufTy).Contents (Elt F) :=
  extractStridedSlice S1x128 ![3, 0] (x7) slices_S4x128_S1x128_3_0

def val_main_v205 (x7 : (⟨S4x128, .f32⟩ : BufTy).Contents (Elt F)) : (⟨S128, .f32⟩ : BufTy).Contents (Elt F) :=
  shapeCast _ (val_main_v204 (F := F) x7) shapeCasts_S1x128_S128

def val_main_v206 (x8 : (⟨S4x128, .f32⟩ : BufTy).Contents (Elt F)) : (⟨S1x128, .f32⟩ : BufTy).Contents (Elt F) :=
  extractStridedSlice S1x128 ![3, 0] (x8) slices_S4x128_S1x128_3_0

def val_main_v207 (x8 : (⟨S4x128, .f32⟩ : BufTy).Contents (Elt F)) : (⟨S128, .f32⟩ : BufTy).Contents (Elt F) :=
  shapeCast _ (val_main_v206 (F := F) x8) shapeCasts_S1x128_S128

def val_main_v208 (x9 : (⟨S4x128x64, .f32⟩ : BufTy).Contents (Elt F)) : (⟨S1x128x64, .f32⟩ : BufTy).Contents (Elt F) :=
  extractStridedSlice S1x128x64 ![3, 0, 0] (x9) slices_S4x128x64_S1x128x64_3_0_0

def val_main_v209 (x9 : (⟨S4x128x64, .f32⟩ : BufTy).Contents (Elt F)) : (⟨S128x64, .f32⟩ : BufTy).Contents (Elt F) :=
  shapeCast _ (val_main_v208 (F := F) x9) shapeCasts_S1x128x64_S128x64

def val_main_v210 (x10 : (⟨S4x64, .f32⟩ : BufTy).Contents (Elt F)) : (⟨S1x64, .f32⟩ : BufTy).Contents (Elt F) :=
  extractStridedSlice S1x64 ![3, 0] (x10) slices_S4x64_S1x64_3_0

def val_main_v211 (x10 : (⟨S4x64, .f32⟩ : BufTy).Contents (Elt F)) : (⟨S64, .f32⟩ : BufTy).Contents (Elt F) :=
  shapeCast _ (val_main_v210 (F := F) x10) shapeCasts_S1x64_S64

def val_main_v212 (x11 : (⟨S4, .f32⟩ : BufTy).Contents (Elt F)) : (⟨S1, .f32⟩ : BufTy).Contents (Elt F) :=
  extractStridedSlice S1 ![3] (x11) slices_S4_S1_3

def val_main_v213 (x11 : (⟨S4, .f32⟩ : BufTy).Contents (Elt F)) : (⟨S_, .f32⟩ : BufTy).Contents (Elt F) :=
  shapeCast _ (val_main_v212 (F := F) x11) shapeCasts_S1_S_

def val_main_c_25 : (⟨S_, .i32⟩ : BufTy).Contents (Elt F) :=
  constantI S_ 32 0#32

def val_main_v214 : (⟨S1600000, .i32⟩ : BufTy).Contents (Elt F) :=
  broadcastInDim S1600000 ![] bcast_S_S1600000 (val_main_c_25 (F := F))

def val_main_v215 (x1 : (⟨S2x1600000, .i32⟩ : BufTy).Contents (Elt F)) : (⟨S1600000, .i1⟩ : BufTy).Contents (Elt F) :=
  cmpi .slt (val_main_v1 (F := F) x1) (val_main_v214 (F := F))

def val_main_c_26 : (⟨S_, .i32⟩ : BufTy).Contents (Elt F) :=
  constantI S_ 32 100000#32

def val_main_v216 : (⟨S1600000, .i32⟩ : BufTy).Contents (Elt F) :=
  broadcastInDim S1600000 ![] bcast_S_S1600000 (val_main_c_26 (F := F))

def val_main_v217 (x1 : (⟨S2x1600000, .i32⟩ : BufTy).Contents (Elt F)) : (⟨S1600000, .i32⟩ : BufTy).Contents (Elt F) :=
  addi (val_main_v1 (F := F) x1) (val_main_v216 (F := F))

def val_main_v218 (x1 : (⟨S2x1600000, .i32⟩ : BufTy).Contents (Elt F)) : (⟨S1600000, .i32⟩ : BufTy).Contents (Elt F) :=
  select (val_main_v215 (F := F) x1) (val_main_v217 (F := F) x1) (val_main_v1 (F := F) x1)

def val_main_v219 (x1 : (⟨S2x1600000, .i32⟩ : BufTy).Contents (Elt F)) : (⟨S1600000x1, .i32⟩ : BufTy).Contents (Elt F) :=
  broadcastInDim S1600000x1 ![0] bcast_S1600000_S1600000x1_0 (val_main_v218 (F := F) x1)

def val_main_v220 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S1600000x64, .f32⟩ : BufTy).Contents (Elt F) :=
  Host.gather gather_S100000x64_S1600000x1_S1600000x64_1_0_n_n_0_1_164 (val_main_v199 (F := F) x0 x1 x3 x4 x5 x6 x7 x8 x9 x10 x11) (val_main_v219 (F := F) x1)

def val_main_call6_cst : (⟨S_, .f32⟩ : BufTy).Contents (Elt F) :=
  constant S_ .f32 0x00000000#32

def val_main_call6_v0 : (⟨S1600000x64, .f32⟩ : BufTy).Contents (Elt F) :=
  broadcastInDim S1600000x64 ![] bcast_S_S1600000x64 (val_main_call6_cst (F := F))

def val_main_v221 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S1600000x64, .f32⟩ : BufTy).Contents (Elt F) :=
  maximumf (val_main_v220 (F := F) x0 x1 x3 x4 x5 x6 x7 x8 x9 x10 x11) (val_main_call6_v0 (F := F))

def val_main_cst_27 : (⟨S_, .f32⟩ : BufTy).Contents (Elt F) :=
  constant S_ .f32 0x00000000#32

def val_main_v222 : (⟨S100000x64, .f32⟩ : BufTy).Contents (Elt F) :=
  broadcastInDim S100000x64 ![] bcast_S_S100000x64 (val_main_cst_27 (F := F))

def val_main_v223 (x1 : (⟨S2x1600000, .i32⟩ : BufTy).Contents (Elt F)) : (⟨S1600000x1, .i32⟩ : BufTy).Contents (Elt F) :=
  broadcastInDim S1600000x1 ![0] bcast_S1600000_S1600000x1_0 (val_main_v3 (F := F) x1)

def val_main_v224 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  Host.scatterAdd scatter_S100000x64_S1600000x1_S1600000x64_1_0_0_1 (val_main_v222 (F := F)) (val_main_v223 (F := F) x1) (val_main_v221 (F := F) x0 x1 x3 x4 x5 x6 x7 x8 x9 x10 x11)

def val_main_cst_28 : (⟨S_, .f32⟩ : BufTy).Contents (Elt F) :=
  constant S_ .f32 0x3F800000#32

def val_main_v225 (x11 : (⟨S4, .f32⟩ : BufTy).Contents (Elt F)) : (⟨S_, .f32⟩ : BufTy).Contents (Elt F) :=
  addf (val_main_cst_28 (F := F)) (val_main_v213 (F := F) x11)

def val_main_v226 (x11 : (⟨S4, .f32⟩ : BufTy).Contents (Elt F)) : (⟨S100000x64, .f32⟩ : BufTy).Contents (Elt F) :=
  broadcastInDim S100000x64 ![] bcast_S_S100000x64 (val_main_v225 (F := F) x11)

def val_main_v227 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  mulf (val_main_v226 (F := F) x11) (val_main_v199 (F := F) x0 x1 x3 x4 x5 x6 x7 x8 x9 x10 x11)

def val_main_v228 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  addf (val_main_v227 (F := F) x0 x1 x3 x4 x5 x6 x7 x8 x9 x10 x11) (val_main_v224 (F := F) x0 x1 x3 x4 x5 x6 x7 x8 x9 x10 x11)

def val_main_v229 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  Host.dotGeneral dot_S100000x64_S64x128_S100000x128_1_0_0_1_n_n none (val_main_v228 (F := F) x0 x1 x3 x4 x5 x6 x7 x8 x9 x10 x11) (val_main_v201 (F := F) x5)

def val_main_v230 (x6 : (⟨S4x128, .f32⟩ : BufTy).Contents (Elt F)) : (⟨S1x128, .f32⟩ : BufTy).Contents (Elt F) :=
  broadcastInDim S1x128 ![1] bcast_S128_S1x128_1 (val_main_v203 (F := F) x6)

def val_main_v231 (x6 : (⟨S4x128, .f32⟩ : BufTy).Contents (Elt F)) : (⟨S100000x128, .f32⟩ : BufTy).Contents (Elt F) :=
  broadcastInDim S100000x128 ![0, 1] bcast_S1x128_S100000x128_0_1 (val_main_v230 (F := F) x6)

def val_main_v232 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  addf (val_main_v229 (F := F) x0 x1 x3 x4 x5 x6 x7 x8 x9 x10 x11) (val_main_v231 (F := F) x6)

def val_main_cst_29 : (⟨S_, .f32⟩ : BufTy).Contents (Elt F) :=
  constant S_ .f32 0x00000000#32

def val_main_v233 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  Host.reduceAdd (val_main_v232 (F := F) x0 x1 x3 x4 x5 x6 x7 x8 x9 x10 x11) (val_main_cst_29 (F := F)) reducesTo_S100000x128_S128_d0 h_S_

def val_main_cst_30 : (⟨S_, .f32⟩ : BufTy).Contents (Elt F) :=
  constant S_ .f32 0x47C35000#32

def val_main_v234 : (⟨S128, .f32⟩ : BufTy).Contents (Elt F) :=
  broadcastInDim S128 ![] bcast_S_S128 (val_main_cst_30 (F := F))

def val_main_v235 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  Host.divf (val_main_v233 (F := F) x0 x1 x3 x4 x5 x6 x7 x8 x9 x10 x11) (val_main_v234 (F := F))

def val_main_v236 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S1x128, .f32⟩ : BufTy).Contents (Elt F) :=
  broadcastInDim S1x128 ![1] bcast_S128_S1x128_1 (val_main_v235 (F := F) x0 x1 x3 x4 x5 x6 x7 x8 x9 x10 x11)

def val_main_v237 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  broadcastInDim S100000x128 ![0, 1] bcast_S1x128_S100000x128_0_1 (val_main_v236 (F := F) x0 x1 x3 x4 x5 x6 x7 x8 x9 x10 x11)

def val_main_v238 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  subf (val_main_v232 (F := F) x0 x1 x3 x4 x5 x6 x7 x8 x9 x10 x11) (val_main_v237 (F := F) x0 x1 x3 x4 x5 x6 x7 x8 x9 x10 x11)

def val_main_v239 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  mulf (val_main_v238 (F := F) x0 x1 x3 x4 x5 x6 x7 x8 x9 x10 x11) (val_main_v238 (F := F) x0 x1 x3 x4 x5 x6 x7 x8 x9 x10 x11)

def val_main_cst_31 : (⟨S_, .f32⟩ : BufTy).Contents (Elt F) :=
  constant S_ .f32 0x00000000#32

def val_main_v240 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  Host.reduceAdd (val_main_v239 (F := F) x0 x1 x3 x4 x5 x6 x7 x8 x9 x10 x11) (val_main_cst_31 (F := F)) reducesTo_S100000x128_S128_d0 h_S_

def val_main_cst_32 : (⟨S_, .f32⟩ : BufTy).Contents (Elt F) :=
  constant S_ .f32 0x47C35000#32

def val_main_v241 : (⟨S128, .f32⟩ : BufTy).Contents (Elt F) :=
  broadcastInDim S128 ![] bcast_S_S128 (val_main_cst_32 (F := F))

def val_main_v242 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  Host.divf (val_main_v240 (F := F) x0 x1 x3 x4 x5 x6 x7 x8 x9 x10 x11) (val_main_v241 (F := F))

def val_main_v243 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S1x128, .f32⟩ : BufTy).Contents (Elt F) :=
  broadcastInDim S1x128 ![1] bcast_S128_S1x128_1 (val_main_v235 (F := F) x0 x1 x3 x4 x5 x6 x7 x8 x9 x10 x11)

def val_main_v244 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  broadcastInDim S100000x128 ![0, 1] bcast_S1x128_S100000x128_0_1 (val_main_v243 (F := F) x0 x1 x3 x4 x5 x6 x7 x8 x9 x10 x11)

def val_main_v245 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  subf (val_main_v232 (F := F) x0 x1 x3 x4 x5 x6 x7 x8 x9 x10 x11) (val_main_v244 (F := F) x0 x1 x3 x4 x5 x6 x7 x8 x9 x10 x11)

def val_main_cst_33 : (⟨S_, .f32⟩ : BufTy).Contents (Elt F) :=
  constant S_ .f32 0x3727C5AC#32

def val_main_v246 : (⟨S128, .f32⟩ : BufTy).Contents (Elt F) :=
  broadcastInDim S128 ![] bcast_S_S128 (val_main_cst_33 (F := F))

def val_main_v247 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  addf (val_main_v242 (F := F) x0 x1 x3 x4 x5 x6 x7 x8 x9 x10 x11) (val_main_v246 (F := F))

def val_main_v248 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S128, .f32⟩ : BufTy).Contents (Elt F) :=
  Host.rsqrt (val_main_v247 (F := F) x0 x1 x3 x4 x5 x6 x7 x8 x9 x10 x11)

def val_main_v249 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S1x128, .f32⟩ : BufTy).Contents (Elt F) :=
  broadcastInDim S1x128 ![1] bcast_S128_S1x128_1 (val_main_v248 (F := F) x0 x1 x3 x4 x5 x6 x7 x8 x9 x10 x11)

def val_main_v250 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  broadcastInDim S100000x128 ![0, 1] bcast_S1x128_S100000x128_0_1 (val_main_v249 (F := F) x0 x1 x3 x4 x5 x6 x7 x8 x9 x10 x11)

def val_main_v251 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  mulf (val_main_v245 (F := F) x0 x1 x3 x4 x5 x6 x7 x8 x9 x10 x11) (val_main_v250 (F := F) x0 x1 x3 x4 x5 x6 x7 x8 x9 x10 x11)

def val_main_v252 (x7 : (⟨S4x128, .f32⟩ : BufTy).Contents (Elt F)) : (⟨S1x128, .f32⟩ : BufTy).Contents (Elt F) :=
  broadcastInDim S1x128 ![1] bcast_S128_S1x128_1 (val_main_v205 (F := F) x7)

def val_main_v253 (x7 : (⟨S4x128, .f32⟩ : BufTy).Contents (Elt F)) : (⟨S100000x128, .f32⟩ : BufTy).Contents (Elt F) :=
  broadcastInDim S100000x128 ![0, 1] bcast_S1x128_S100000x128_0_1 (val_main_v252 (F := F) x7)

def val_main_v254 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  mulf (val_main_v251 (F := F) x0 x1 x3 x4 x5 x6 x7 x8 x9 x10 x11) (val_main_v253 (F := F) x7)

def val_main_v255 (x8 : (⟨S4x128, .f32⟩ : BufTy).Contents (Elt F)) : (⟨S1x128, .f32⟩ : BufTy).Contents (Elt F) :=
  broadcastInDim S1x128 ![1] bcast_S128_S1x128_1 (val_main_v207 (F := F) x8)

def val_main_v256 (x8 : (⟨S4x128, .f32⟩ : BufTy).Contents (Elt F)) : (⟨S100000x128, .f32⟩ : BufTy).Contents (Elt F) :=
  broadcastInDim S100000x128 ![0, 1] bcast_S1x128_S100000x128_0_1 (val_main_v255 (F := F) x8)

def val_main_v257 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  addf (val_main_v254 (F := F) x0 x1 x3 x4 x5 x6 x7 x8 x9 x10 x11) (val_main_v256 (F := F) x8)

def val_main_call7_cst : (⟨S_, .f32⟩ : BufTy).Contents (Elt F) :=
  constant S_ .f32 0x00000000#32

def val_main_call7_v0 : (⟨S100000x128, .f32⟩ : BufTy).Contents (Elt F) :=
  broadcastInDim S100000x128 ![] bcast_S_S100000x128 (val_main_call7_cst (F := F))

def val_main_v258 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x128, .f32⟩ : BufTy).Contents (Elt F) :=
  maximumf (val_main_v257 (F := F) x0 x1 x3 x4 x5 x6 x7 x8 x9 x10 x11) (val_main_call7_v0 (F := F))

def val_main_v259 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  Host.dotGeneral dot_S100000x128_S128x64_S100000x64_1_0_0_1_n_n none (val_main_v258 (F := F) x0 x1 x3 x4 x5 x6 x7 x8 x9 x10 x11) (val_main_v209 (F := F) x9)

def val_main_v260 (x10 : (⟨S4x64, .f32⟩ : BufTy).Contents (Elt F)) : (⟨S1x64, .f32⟩ : BufTy).Contents (Elt F) :=
  broadcastInDim S1x64 ![1] bcast_S64_S1x64_1 (val_main_v211 (F := F) x10)

def val_main_v261 (x10 : (⟨S4x64, .f32⟩ : BufTy).Contents (Elt F)) : (⟨S100000x64, .f32⟩ : BufTy).Contents (Elt F) :=
  broadcastInDim S100000x64 ![0, 1] bcast_S1x64_S100000x64_0_1 (val_main_v260 (F := F) x10)

def val_main_v262 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  addf (val_main_v259 (F := F) x0 x1 x3 x4 x5 x6 x7 x8 x9 x10 x11) (val_main_v261 (F := F) x10)

def val_main_v263 (x0 : (⟨S100000x32, .f32⟩ : BufTy).Contents (Elt F)) (x1 : (⟨S2x1600000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S100000x64, .f32⟩ : BufTy).Contents (Elt F) :=
  addf (val_main_v199 (F := F) x0 x1 x3 x4 x5 x6 x7 x8 x9 x10 x11) (val_main_v262 (F := F) x0 x1 x3 x4 x5 x6 x7 x8 x9 x10 x11)

def val_main_cst_34 : (⟨S_, .f32⟩ : BufTy).Contents (Elt F) :=
  constant S_ .f32 0x00000000#32

def val_main_v264 : (⟨S64x64, .f32⟩ : BufTy).Contents (Elt F) :=
  broadcastInDim S64x64 ![] bcast_S_S64x64 (val_main_cst_34 (F := F))

def val_main_v265 (x2 : (⟨S100000, .i32⟩ : BufTy).Contents (Elt F)) : (⟨S100000x1, .i32⟩ : BufTy).Contents (Elt F) :=
  broadcastInDim S100000x1 ![0] bcast_S100000_S100000x1_0 (x2)

def val_main_v266 (x0 : (⟨S100000x32, .f32⟩ : BufTy).Contents (Elt F)) (x1 : (⟨S2x1600000, .i32⟩ : BufTy).Contents (Elt F)) (x2 : (⟨S100000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) : (⟨S64x64, .f32⟩ : BufTy).Contents (Elt F) :=
  Host.scatterAdd scatter_S64x64_S100000x1_S100000x64_1_0_0_1 (val_main_v264 (F := F)) (val_main_v265 (F := F) x2) (val_main_v263 (F := F) x0 x1 x3 x4 x5 x6 x7 x8 x9 x10 x11)

def val_main_v267 (x0 : (⟨S100000x32, .f32⟩ : BufTy).Contents (Elt F)) (x1 : (⟨S2x1600000, .i32⟩ : BufTy).Contents (Elt F)) (x2 : (⟨S100000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) (x12 : (⟨S64x1, .f32⟩ : BufTy).Contents (Elt F)) : (⟨S64x1, .f32⟩ : BufTy).Contents (Elt F) :=
  Host.dotGeneral dot_S64x64_S64x1_S64x1_1_0_0_1_n_n none (val_main_v266 (F := F) x0 x1 x2 x3 x4 x5 x6 x7 x8 x9 x10 x11) (x12)

def val_main_v268 (x13 : (⟨S1, .f32⟩ : BufTy).Contents (Elt F)) : (⟨S1x1, .f32⟩ : BufTy).Contents (Elt F) :=
  broadcastInDim S1x1 ![1] bcast_S1_S1x1_1 (x13)

def val_main_v269 (x13 : (⟨S1, .f32⟩ : BufTy).Contents (Elt F)) : (⟨S64x1, .f32⟩ : BufTy).Contents (Elt F) :=
  broadcastInDim S64x1 ![0, 1] bcast_S1x1_S64x1_0_1 (val_main_v268 (F := F) x13)

def val_main_v270 (x0 : (⟨S100000x32, .f32⟩ : BufTy).Contents (Elt F)) (x1 : (⟨S2x1600000, .i32⟩ : BufTy).Contents (Elt F)) (x2 : (⟨S100000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) (x12 : (⟨S64x1, .f32⟩ : BufTy).Contents (Elt F)) (x13 : (⟨S1, .f32⟩ : BufTy).Contents (Elt F)) : (⟨S64x1, .f32⟩ : BufTy).Contents (Elt F) :=
  addf (val_main_v267 (F := F) x0 x1 x2 x3 x4 x5 x6 x7 x8 x9 x10 x11 x12) (val_main_v269 (F := F) x13)

def val_main_v271 (x0 : (⟨S100000x32, .f32⟩ : BufTy).Contents (Elt F)) (x1 : (⟨S2x1600000, .i32⟩ : BufTy).Contents (Elt F)) (x2 : (⟨S100000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) (x12 : (⟨S64x1, .f32⟩ : BufTy).Contents (Elt F)) (x13 : (⟨S1, .f32⟩ : BufTy).Contents (Elt F)) : (⟨S64, .f32⟩ : BufTy).Contents (Elt F) :=
  shapeCast _ (val_main_v270 (F := F) x0 x1 x2 x3 x4 x5 x6 x7 x8 x9 x10 x11 x12 x13) shapeCasts_S64x1_S64

end Cert.ReferenceIdeal.ReadP

end
-- ==== Proof.RLink.lean ====
import proofs.«426483_j67748814127260_1_alg».proof.Proof.RRun
import proofs.«426483_j67748814127260_1_alg».proof.Proof.RRead
import Idealize.ShloMosaic.Lib.StableHlo.Run
import Idealize.ShloMosaic.Lib.Pipeline.Frame

noncomputable section

namespace Cert.ReferenceIdeal.Link
open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

section Folds

variable (m : (ℓ : Loc nD τ sig) → Buf (Elt F) ℓ) (d : Dev nD)

abbrev fold0 : Valuation τ sig (Elt F) := launchContents m d

def fold1 : Valuation τ sig (Elt F) := after opsProj (fold0 m d)

def fold2 : Valuation τ sig (Elt F) := after opsL1 (fold1 m d)

def fold3 : Valuation τ sig (Elt F) := after opsL2 (fold2 m d)

def fold4 : Valuation τ sig (Elt F) := after opsL3 (fold3 m d)

def fold5 : Valuation τ sig (Elt F) := after opsL4 (fold4 m d)

def fold6 : Valuation τ sig (Elt F) := after opsHead (fold5 m d)

theorem fold1_eq : fold1 m d = after opsProj (fold0 m d) := rfl

theorem fold2_eq : fold2 m d = after opsL1 (fold1 m d) := rfl

theorem fold3_eq : fold3 m d = after opsL2 (fold2 m d) := rfl

theorem fold4_eq : fold4 m d = after opsL3 (fold3 m d) := rfl

theorem fold5_eq : fold5 m d = after opsL4 (fold4 m d) := rfl

theorem fold6_eq : fold6 m d = after opsHead (fold5 m d) := rfl

theorem fold_all : after ops (launchContents m d) = fold6 m d := by
  rw [ops_cut]
  simp only [after_append]
  rfl

end Folds

abbrev Below (n : Nat) (b : Ref sig .tc) : Prop := b.space = .hbm ∧ b.idx.val < n

abbrev IsArg (b : Ref sig .tc) : Prop := Below 14 b

theorem Below.mono {n n' : Nat} {b : Ref sig .tc} (hb : Below n b) (h : n ≤ n') : Below n' b :=
  ⟨hb.1, Nat.lt_of_lt_of_le hb.2 h⟩

theorem ne_of_below {n : Nat} {b y : Ref sig .tc} (hb : Below n b) (hy : ¬ Below n y) : b ≠ y :=
  fun e => hy (e ▸ hb)

local macro "stretch_frame" hb:ident : tactic =>
  `(tactic| (
    refine after_of_forall_not_mem _ _ (List.forall_iff_forall_mem.mp ?_)
    simp only [opsProj, opsL1, opsL2, opsL3, opsL4, opsHead, List.Forall, TRef.nullary, TRef.unary, TRef.binary,
      nullary_writes, unary_writes, binary_writes, ternary_writes, reshape_writes, Finset.mem_singleton]
    repeat' apply And.intro
    all_goals exact devRef_ne_of_ne (ne_of_below $hb (by decide))))

section Frames

variable (V : Valuation τ sig (Elt F)) {b : Ref sig .tc}

theorem opsProj_frame (hb : Below 14 b) : after opsProj V (Proc.devRef .tc b) = V (Proc.devRef .tc b) := by
  stretch_frame hb

theorem opsL1_frame (hb : Below 22 b) : after opsL1 V (Proc.devRef .tc b) = V (Proc.devRef .tc b) := by
  stretch_frame hb

theorem opsL2_frame (hb : Below 22 b) : after opsL2 V (Proc.devRef .tc b) = V (Proc.devRef .tc b) := by
  stretch_frame hb

theorem opsL3_frame (hb : Below 22 b) : after opsL3 V (Proc.devRef .tc b) = V (Proc.devRef .tc b) := by
  stretch_frame hb

theorem opsL4_frame (hb : Below 22 b) : after opsL4 V (Proc.devRef .tc b) = V (Proc.devRef .tc b) := by
  stretch_frame hb

theorem opsHead_frame (hb : Below 22 b) : after opsHead V (Proc.devRef .tc b) = V (Proc.devRef .tc b) := by
  stretch_frame hb

end Frames

section Carry

variable (m : (ℓ : Loc nD τ sig) → Buf (Elt F) ℓ) (d : Dev nD) {b : Ref sig .tc}

theorem fold1_arg (hb : IsArg b) : fold1 m d (Proc.devRef .tc b) = m ((d.tc : Thread nD τ).loc b) :=
  opsProj_frame (fold0 m d) hb

theorem fold2_arg (hb : IsArg b) : fold2 m d (Proc.devRef .tc b) = m ((d.tc : Thread nD τ).loc b) :=
  (opsL1_frame (fold1 m d) (hb.mono (by decide))).trans (fold1_arg m d hb)

theorem fold3_arg (hb : IsArg b) : fold3 m d (Proc.devRef .tc b) = m ((d.tc : Thread nD τ).loc b) :=
  (opsL2_frame (fold2 m d) (hb.mono (by decide))).trans (fold2_arg m d hb)

theorem fold4_arg (hb : IsArg b) : fold4 m d (Proc.devRef .tc b) = m ((d.tc : Thread nD τ).loc b) :=
  (opsL3_frame (fold3 m d) (hb.mono (by decide))).trans (fold3_arg m d hb)

theorem fold5_arg (hb : IsArg b) : fold5 m d (Proc.devRef .tc b) = m ((d.tc : Thread nD τ).loc b) :=
  (opsL4_frame (fold4 m d) (hb.mono (by decide))).trans (fold4_arg m d hb)

theorem fold6_arg (hb : IsArg b) : fold6 m d (Proc.devRef .tc b) = m ((d.tc : Thread nD τ).loc b) :=
  (opsHead_frame (fold5 m d) (hb.mono (by decide))).trans (fold5_arg m d hb)

theorem fold2_early (hb : Below 22 b) : fold2 m d (Proc.devRef .tc b) = fold1 m d (Proc.devRef .tc b) :=
  opsL1_frame (fold1 m d) hb

theorem fold3_early (hb : Below 22 b) : fold3 m d (Proc.devRef .tc b) = fold1 m d (Proc.devRef .tc b) :=
  (opsL2_frame (fold2 m d) hb).trans (fold2_early m d hb)

theorem fold4_early (hb : Below 22 b) : fold4 m d (Proc.devRef .tc b) = fold1 m d (Proc.devRef .tc b) :=
  (opsL3_frame (fold3 m d) hb).trans (fold3_early m d hb)

theorem fold5_early (hb : Below 22 b) : fold5 m d (Proc.devRef .tc b) = fold1 m d (Proc.devRef .tc b) :=
  (opsL4_frame (fold4 m d) hb).trans (fold4_early m d hb)

end Carry

section Proj

variable (m : (ℓ : Loc nD τ sig) → Buf (Elt F) ℓ) (d : Dev nD)

theorem fold1_v1 : fold1 m d (Proc.devRef .tc main_v1) = val_main_v1 (F := F) (m ((d.tc : Thread nD τ).loc main_arg1)) := by
  show after opsProj (fold0 m d) (Proc.devRef .tc main_v1) = _
  after_results
  rfl

theorem fold1_v3 : fold1 m d (Proc.devRef .tc main_v3) = val_main_v3 (F := F) (m ((d.tc : Thread nD τ).loc main_arg1)) := by
  show after opsProj (fold0 m d) (Proc.devRef .tc main_v3) = _
  after_results
  rfl

theorem fold1_v7 : fold1 m d (Proc.devRef .tc main_v7)
    = val_main_v7 (F := F) (m ((d.tc : Thread nD τ).loc main_arg0)) (m ((d.tc : Thread nD τ).loc main_arg3)) (m ((d.tc : Thread nD τ).loc main_arg4)) := by
  show after opsProj (fold0 m d) (Proc.devRef .tc main_v7) = _
  after_results
  rfl

theorem fold2_v1 : fold2 m d (Proc.devRef .tc main_v1) = val_main_v1 (F := F) (m ((d.tc : Thread nD τ).loc main_arg1)) :=
  (fold2_early m d (by decide)).trans (fold1_v1 m d)

theorem fold3_v1 : fold3 m d (Proc.devRef .tc main_v1) = val_main_v1 (F := F) (m ((d.tc : Thread nD τ).loc main_arg1)) :=
  (fold3_early m d (by decide)).trans (fold1_v1 m d)

theorem fold4_v1 : fold4 m d (Proc.devRef .tc main_v1) = val_main_v1 (F := F) (m ((d.tc : Thread nD τ).loc main_arg1)) :=
  (fold4_early m d (by decide)).trans (fold1_v1 m d)

theorem fold2_v3 : fold2 m d (Proc.devRef .tc main_v3) = val_main_v3 (F := F) (m ((d.tc : Thread nD τ).loc main_arg1)) :=
  (fold2_early m d (by decide)).trans (fold1_v3 m d)

theorem fold3_v3 : fold3 m d (Proc.devRef .tc main_v3) = val_main_v3 (F := F) (m ((d.tc : Thread nD τ).loc main_arg1)) :=
  (fold3_early m d (by decide)).trans (fold1_v3 m d)

theorem fold4_v3 : fold4 m d (Proc.devRef .tc main_v3) = val_main_v3 (F := F) (m ((d.tc : Thread nD τ).loc main_arg1)) :=
  (fold4_early m d (by decide)).trans (fold1_v3 m d)

end Proj

end Cert.ReferenceIdeal.Link

end
-- ==== Proof.RLinkL1.lean ====
import proofs.«426483_j67748814127260_1_alg».proof.Proof.RLink

namespace Cert.ReferenceIdeal.Link.L1

open Cert.ReferenceIdeal.Gen Cert.ReferenceIdeal.ReadP Idealize.ShloMosaic Idealize.SL.Sem Idealize.ShloMosaic.StableHlo

variable {F : FTy → Type} [FloatOps F] (m : (ℓ : Loc nD τ sig) → Buf (Elt F) ℓ) (d : Dev nD)

set_option maxRecDepth 8192 in
set_option maxHeartbeats 4000000 in
theorem link
    (hx : fold1 m d (Proc.devRef .tc main_v7) = val_main_v7 (F := F) (m ((d.tc : Thread nD τ).loc main_arg0)) (m ((d.tc : Thread nD τ).loc main_arg3)) (m ((d.tc : Thread nD τ).loc main_arg4))) :
    fold2 m d (Proc.devRef .tc main_v71)
      = val_main_v71 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) := by
  rw [fold2_eq]
  after_results_simp
  rw [hx]
  rfl

end Cert.ReferenceIdeal.Link.L1
-- ==== Proof.RLinkL2.lean ====
import proofs.«426483_j67748814127260_1_alg».proof.Proof.RLink

namespace Cert.ReferenceIdeal.Link.L2

open Cert.ReferenceIdeal.Gen Cert.ReferenceIdeal.ReadP Idealize.ShloMosaic Idealize.SL.Sem Idealize.ShloMosaic.StableHlo

variable {F : FTy → Type} [FloatOps F] (m : (ℓ : Loc nD τ sig) → Buf (Elt F) ℓ) (d : Dev nD)

set_option maxRecDepth 8192 in
set_option maxHeartbeats 4000000 in
theorem link
    (hx : fold2 m d (Proc.devRef .tc main_v71) = val_main_v71 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11))) :
    fold3 m d (Proc.devRef .tc main_v135)
      = val_main_v135 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) := by
  rw [fold3_eq]
  after_results_simp
  rw [hx]
  rfl

end Cert.ReferenceIdeal.Link.L2
-- ==== Proof.RLinkL3.lean ====
import proofs.«426483_j67748814127260_1_alg».proof.Proof.RLink

namespace Cert.ReferenceIdeal.Link.L3

open Cert.ReferenceIdeal.Gen Cert.ReferenceIdeal.ReadP Idealize.ShloMosaic Idealize.SL.Sem Idealize.ShloMosaic.StableHlo

variable {F : FTy → Type} [FloatOps F] (m : (ℓ : Loc nD τ sig) → Buf (Elt F) ℓ) (d : Dev nD)

set_option maxRecDepth 8192 in
set_option maxHeartbeats 4000000 in
theorem link
    (hx : fold3 m d (Proc.devRef .tc main_v135) = val_main_v135 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11))) :
    fold4 m d (Proc.devRef .tc main_v199)
      = val_main_v199 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) := by
  rw [fold4_eq]
  after_results_simp
  rw [hx]
  rfl

end Cert.ReferenceIdeal.Link.L3
-- ==== Proof.RLinkL4.lean ====
import proofs.«426483_j67748814127260_1_alg».proof.Proof.RLink

namespace Cert.ReferenceIdeal.Link.L4

open Cert.ReferenceIdeal.Gen Cert.ReferenceIdeal.ReadP Idealize.ShloMosaic Idealize.SL.Sem Idealize.ShloMosaic.StableHlo

variable {F : FTy → Type} [FloatOps F] (m : (ℓ : Loc nD τ sig) → Buf (Elt F) ℓ) (d : Dev nD)

set_option maxRecDepth 8192 in
set_option maxHeartbeats 4000000 in
theorem link
    (hx : fold4 m d (Proc.devRef .tc main_v199) = val_main_v199 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11))) :
    fold5 m d (Proc.devRef .tc main_v263)
      = val_main_v263 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) := by
  rw [fold5_eq]
  after_results_simp
  rw [hx]
  rfl

end Cert.ReferenceIdeal.Link.L4
-- ==== Proof.RLinkHead.lean ====
import proofs.«426483_j67748814127260_1_alg».proof.Proof.RLink

noncomputable section

namespace Cert.ReferenceIdeal.Link
open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

theorem head_after (W : Valuation τ sig (Elt F))
    (x0 : (⟨S100000x32, .f32⟩ : BufTy).Contents (Elt F)) (x1 : (⟨S2x1600000, .i32⟩ : BufTy).Contents (Elt F)) (x2 : (⟨S100000, .i32⟩ : BufTy).Contents (Elt F)) (x3 : (⟨S32x64, .f32⟩ : BufTy).Contents (Elt F)) (x4 : (⟨S64, .f32⟩ : BufTy).Contents (Elt F)) (x5 : (⟨S4x64x128, .f32⟩ : BufTy).Contents (Elt F)) (x6 x7 x8 : (⟨S4x128, .f32⟩ : BufTy).Contents (Elt F)) (x9 : (⟨S4x128x64, .f32⟩ : BufTy).Contents (Elt F)) (x10 : (⟨S4x64, .f32⟩ : BufTy).Contents (Elt F)) (x11 : (⟨S4, .f32⟩ : BufTy).Contents (Elt F)) (x12 : (⟨S64x1, .f32⟩ : BufTy).Contents (Elt F)) (x13 : (⟨S1, .f32⟩ : BufTy).Contents (Elt F))
    (h263 : W (Proc.devRef .tc main_v263) = val_main_v263 (F := F) x0 x1 x3 x4 x5 x6 x7 x8 x9 x10 x11)
    (h2 : W (Proc.devRef .tc main_arg2) = x2) (h12 : W (Proc.devRef .tc main_arg12) = x12)
    (h13 : W (Proc.devRef .tc main_arg13) = x13) :
    after (opsHead (F := F)) W (Proc.devRef .tc main_v271) = val_main_v271 (F := F) x0 x1 x2 x3 x4 x5 x6 x7 x8 x9 x10 x11 x12 x13 := by
  after_results
  rw [h263, h2, h12, h13]
  unfold val_main_v271 val_main_v270 val_main_v269 val_main_v268 val_main_v267 val_main_v266 val_main_v265 val_main_v264 val_main_cst_34
  rfl

theorem link_head (m : (ℓ : Loc nD τ sig) → Buf (Elt F) ℓ) (d : Dev nD)
    (hx : fold5 m d (Proc.devRef .tc main_v263) = val_main_v263 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11))) :
    fold6 m d (Proc.devRef .tc main_v271) = val_main_v271 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) := by
  show after (opsHead (F := F)) (fold5 m d) (Proc.devRef .tc main_v271) = _
  exact head_after (fold5 m d) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) hx
    (fold5_arg m d (b := main_arg2) (by decide)) (fold5_arg m d (b := main_arg12) (by decide))
    (fold5_arg m d (b := main_arg13) (by decide))

end Cert.ReferenceIdeal.Link

end
-- ==== Proof.RefRun.lean ====
import proofs.«426483_j67748814127260_1_alg».proof.Proof.RLink
import proofs.«426483_j67748814127260_1_alg».proof.Proof.RLinkL1
import proofs.«426483_j67748814127260_1_alg».proof.Proof.RLinkL2
import proofs.«426483_j67748814127260_1_alg».proof.Proof.RLinkL3
import proofs.«426483_j67748814127260_1_alg».proof.Proof.RLinkL4
import proofs.«426483_j67748814127260_1_alg».proof.Proof.RLinkHead

noncomputable section

namespace Cert.ReferenceIdeal.Whole
open Cert.ReferenceIdeal Cert.ReferenceIdeal.Gen Cert.ReferenceIdeal.ValueP Cert.ReferenceIdeal.ReadP Cert.ReferenceIdeal.Link Idealize.ShloMosaic Idealize.ShloMosaic.TcCoe Idealize.SL.Sem Idealize.ShloMosaic.StableHlo

variable {F : FTy → Type} [FloatOps F]

theorem fold_value (m : (ℓ : Loc nD τ sig) → Buf (Elt F) ℓ) (d : Dev nD) :
    after ops (launchContents m d) (Proc.devRef .tc main_v271)
      = val_main_v271 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) := by
  rw [fold_all]
  exact link_head m d (L4.link m d (L3.link m d (L2.link m d (L1.link m d (fold1_v7 m d)))))

theorem fold_arg (m : (ℓ : Loc nD τ sig) → Buf (Elt F) ℓ) (d : Dev nD) {b : Ref sig .tc} (hb : IsArg b) :
    after ops (launchContents m d) (Proc.devRef .tc b) = m ((d.tc : Thread nD τ).loc b) := by
  rw [fold_all]
  exact fold6_arg m d hb

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v271)
        = val_main_v271 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c =>
    ⟨(h c main_v271).trans (fold_value m c),
     (h c main_arg0).trans (fold_arg m c (by decide)), (h c main_arg1).trans (fold_arg m c (by decide)),
     (h c main_arg2).trans (fold_arg m c (by decide)), (h c main_arg3).trans (fold_arg m c (by decide)),
     (h c main_arg4).trans (fold_arg m c (by decide)), (h c main_arg5).trans (fold_arg m c (by decide)),
     (h c main_arg6).trans (fold_arg m c (by decide)), (h c main_arg7).trans (fold_arg m c (by decide)),
     (h c main_arg8).trans (fold_arg m c (by decide)), (h c main_arg9).trans (fold_arg m c (by decide)),
     (h c main_arg10).trans (fold_arg m c (by decide)), (h c main_arg11).trans (fold_arg m c (by decide)),
     (h c main_arg12).trans (fold_arg m c (by decide)), (h c main_arg13).trans (fold_arg m c (by decide))⟩)
    (run_fold m ρ)

end Cert.ReferenceIdeal.Whole

end
-- ==== Proof.RefValue.lean ====
import proofs.«426483_j67748814127260_1_alg».proof.Proof.RRead
import proofs.«426483_j67748814127260_1_alg».proof.Proof.Spec

noncomputable section

namespace Cert.ReferenceIdeal.RefValue
open Cert.ReferenceIdeal Cert.ReferenceIdeal.Facts₀ Cert.ReferenceIdeal.ReadP Idealize.ShloMosaic Idealize.ShloMosaic.ValueIdx

variable (x0 : (⟨S100000x32, .f32⟩ : BufTy).Contents (Elt Ideal)) (x1 : (⟨S2x1600000, .i32⟩ : BufTy).Contents (Elt Ideal))
  (x2 : (⟨S100000, .i32⟩ : BufTy).Contents (Elt Ideal)) (x3 : (⟨S32x64, .f32⟩ : BufTy).Contents (Elt Ideal))
  (x4 : (⟨S64, .f32⟩ : BufTy).Contents (Elt Ideal)) (x5 : (⟨S4x64x128, .f32⟩ : BufTy).Contents (Elt Ideal))
  (x6 x7 x8 : (⟨S4x128, .f32⟩ : BufTy).Contents (Elt Ideal)) (x9 : (⟨S4x128x64, .f32⟩ : BufTy).Contents (Elt Ideal))
  (x10 : (⟨S4x64, .f32⟩ : BufTy).Contents (Elt Ideal)) (x11 : (⟨S4, .f32⟩ : BufTy).Contents (Elt Ideal))
  (x12 : (⟨S64x1, .f32⟩ : BufTy).Contents (Elt Ideal)) (x13 : (⟨S1, .f32⟩ : BufTy).Contents (Elt Ideal))

theorem proj_ref : val_main_v7 (F := Ideal) x0 x3 x4 = Cert.Spec.proj x0 x3 x4 := by
  funext i
  obtain ⟨p, q, rfl⟩ : ∃ (p : Fin 100000) (q : Fin 64), i = ix2 p q := ⟨i 0, i 1, eq_ix2 i⟩
  rw [val_main_v7_apply, val_main_v4_apply, val_main_v6_apply, val_main_v5_apply]
  have el : ∀ k : Fin 32, lidx_main_v4 (ix2 p q) k = ix2 p k := fun k => funext fun a => Fin.ext (by
    match a with
    | ⟨0, _⟩ => rfl
    | ⟨1, _⟩ => rfl)
  have er : ∀ k : Fin 32, ridx_main_v4 (ix2 p q) k = ix2 k q := fun k => funext fun a => Fin.ext (by
    match a with
    | ⟨0, _⟩ => rfl
    | ⟨1, _⟩ => rfl)
  have eb : idx_main_v5 (idx_main_v6 (ix2 p q)) = ix1 q := funext fun a => Fin.ext (by
    match a with
    | ⟨0, _⟩ => rfl)
  simp only [el, er, eb]
  rfl

theorem head_ref : val_main_v271 (F := Ideal) x0 x1 x2 x3 x4 x5 x6 x7 x8 x9 x10 x11 x12 x13 =
    Cert.Spec.headOf (Host.scatterAdd (F := Ideal) scatter_S64x64_S100000x1_S100000x64_1_0_0_1
      (broadcastInDim S64x64 ![] bcast_S_S64x64 (constant (F := Ideal) S_ .f32 0x00000000#32))
      (broadcastInDim S100000x1 ![0] bcast_S100000_S100000x1_0 x2)
      (val_main_v263 (F := Ideal) x0 x1 x3 x4 x5 x6 x7 x8 x9 x10 x11)) x12 x13 := by
  unfold val_main_v271 val_main_v270 val_main_v267 val_main_v266
  generalize val_main_v263 (F := Ideal) x0 x1 x3 x4 x5 x6 x7 x8 x9 x10 x11 = y
  unfold val_main_v269 val_main_v268 val_main_v265 val_main_v264 val_main_cst_34
  rfl

end Cert.ReferenceIdeal.RefValue

end
-- ==== Proof.LayerOps.lean ====
import proofs.«426483_j67748814127260_1_alg».proof.Proof.RRead
import proofs.«426483_j67748814127260_1_alg».proof.Proof.Spec
import Idealize.ShloMosaic.Lib.IdealHost

noncomputable section

namespace Cert.ReferenceIdeal.RefValue

open Cert.ReferenceIdeal Cert.ReferenceIdeal.Facts₀ Cert.ReferenceIdeal.ReadP Idealize.ShloMosaic Idealize.ShloMosaic.ValueIdx

variable (c : FVec Ideal S_ .f32) (x agg : FVec Ideal S100000x64 .f32) (w1 : FVec Ideal S64x128 .f32) (b1 g bt v : FVec Ideal S128 .f32)
  (w2 : FVec Ideal S128x64 .f32) (b2 : FVec Ideal S64 .f32) (h : FVec Ideal S100000x128 .f32)

/-- A row of 128 column values repeated down the 100000 rows. -/
def rows128 : FVec Ideal S100000x128 .f32 :=
  broadcastInDim S100000x128 ![0, 1] bcast_S1x128_S100000x128_0_1 (broadcastInDim S1x128 ![1] bcast_S128_S1x128_1 v)

/-- The first linear map on the mixed features `c · x + agg`, as whole-array operations. -/
def preOps : FVec Ideal S100000x128 .f32 :=
  addf (Host.dotGeneral dot_S100000x64_S64x128_S100000x128_1_0_0_1_n_n none
    (addf (mulf (broadcastInDim S100000x64 ![] bcast_S_S100000x64 c) x) agg) w1) (rows128 b1)

/-- The column means: each column's sum from zero over the row count. -/
def meanOps : FVec Ideal S128 .f32 :=
  Host.divf (Host.reduceAdd h (constant S_ .f32 0x00000000#32) reducesTo_S100000x128_S128_d0 h_S_)
    (broadcastInDim S128 ![] bcast_S_S128 (constant S_ .f32 0x47C35000#32))

/-- The reciprocal standard deviations of the columns, from the centred squares. -/
def rstdOps : FVec Ideal S128 .f32 :=
  Host.rsqrt (addf (Host.divf (Host.reduceAdd (mulf (subf h (rows128 (meanOps h))) (subf h (rows128 (meanOps h))))
      (constant S_ .f32 0x00000000#32) reducesTo_S100000x128_S128_d0 h_S_)
    (broadcastInDim S128 ![] bcast_S_S128 (constant S_ .f32 0x47C35000#32)))
    (broadcastInDim S128 ![] bcast_S_S128 (constant S_ .f32 0x3727C5AC#32)))

/-- A layer: normalise the pre-activation's columns, scale, shift, clamp at zero, map back, add the input. -/
def layerOps : FVec Ideal S100000x64 .f32 :=
  addf x (addf (Host.dotGeneral dot_S100000x128_S128x64_S100000x64_1_0_0_1_n_n none
      (maximumf (addf (mulf (mulf (subf (preOps c x agg w1 b1) (rows128 (meanOps (preOps c x agg w1 b1))))
          (rows128 (rstdOps (preOps c x agg w1 b1)))) (rows128 g)) (rows128 bt))
        (broadcastInDim S100000x128 ![] bcast_S_S100000x128 (constant S_ .f32 0x00000000#32))) w2)
    (broadcastInDim S100000x64 ![0, 1] bcast_S1x64_S100000x64_0_1 (broadcastInDim S1x64 ![1] bcast_S64_S1x64_1 b2)))

/-- A vector laid out as one row and repeated down `m` rows reads its own entry in every row. -/
theorem rows_apply {m w : Nat} (h1 : (⟨1, ![w]⟩ : Shape).BroadcastsInDim ⟨2, ![1, w]⟩ ![1])
    (h2 : (⟨2, ![1, w]⟩ : Shape).BroadcastsInDim ⟨2, ![m, w]⟩ ![0, 1]) (hw : w ≠ 1) {α : Type} (u : (⟨1, ![w]⟩ : Shape).Idx → α)
    (n : Fin m) (k : Fin w) :
    broadcastInDim ⟨2, ![m, w]⟩ ![0, 1] h2 (broadcastInDim ⟨2, ![1, w]⟩ ![1] h1 u) (ix2 n k) = u (ix1 k) :=
  (broadcastInDim_apply _ h2 _ (ix2 n k) (ix2 (0 : Fin 1) k) (fun a => match a with
    | ⟨0, _⟩ => by show 0 = if (1 : Nat) = 1 then 0 else n.val; rw [if_pos rfl]
    | ⟨1, _⟩ => by show k.val = if w = 1 then 0 else k.val; rw [if_neg hw])).trans
  (broadcastInDim_apply _ h1 u (ix2 (0 : Fin 1) k) (ix1 k) (fun a => match a with
    | ⟨0, _⟩ => by show k.val = if w = 1 then 0 else k.val; rw [if_neg hw]))

theorem rows128_apply (n : Fin 100000) (k : Fin 128) : rows128 v (ix2 n k) = v (ix1 k) :=
  rows_apply _ _ (by decide) v n k

/-- A product of two matrices over one contracted axis is the sum over that axis. -/
theorem dot_apply {m p q : Nat} (D : DotDims ⟨2, ![m, p]⟩ ⟨2, ![p, q]⟩ ⟨2, ![m, q]⟩) (hr : D.contr.rank = 1)
    (hs : D.contr.size ⟨0, by omega⟩ = p)
    (l0 : ∀ i t, (D.lhsIdx i t 0).val = (i 0).val) (l1 : ∀ i t, (D.lhsIdx i t 1).val = (t ⟨0, by omega⟩).val)
    (r0 : ∀ i t, (D.rhsIdx i t 0).val = (t ⟨0, by omega⟩).val) (r1 : ∀ i t, (D.rhsIdx i t 1).val = (i 1).val)
    (y : FVec Ideal ⟨2, ![m, p]⟩ .f32) (w : FVec Ideal ⟨2, ![p, q]⟩ .f32) (n : Fin m) (j : Fin q) :
    Host.dotGeneral D none y w (ix2 n j) = ∑ k : Fin p, y (ix2 n k) * w (ix2 k j) := by
  simp only [Host.dotGeneral]
  rw [Ideal.dotGeneral_apply, ← Equiv.sum_comp (contrEquiv1 D p hr hs).symm]
  refine Finset.sum_congr rfl fun k _ => ?_
  have hk := contrEquiv1_symm_val D p hr hs k
  rw [show D.lhsIdx (ix2 n j) ((contrEquiv1 D p hr hs).symm k) = ix2 n k from funext fun a => Fin.ext (by
      match a with
      | ⟨0, _⟩ => exact l0 _ _
      | ⟨1, _⟩ => exact (l1 _ _).trans hk),
    show D.rhsIdx (ix2 n j) ((contrEquiv1 D p hr hs).symm k) = ix2 k j from funext fun a => Fin.ext (by
      match a with
      | ⟨0, _⟩ => exact (r0 _ _).trans hk
      | ⟨1, _⟩ => exact r1 _ _)]

theorem colsum_apply (k : Fin 128) :
    Host.reduceAdd h (constant S_ .f32 0x00000000#32) reducesTo_S100000x128_S128_d0 h_S_ (ix1 k) =
      Cert.Spec.z + ∑ n : Fin 100000, h (ix2 n k) := by
  simp only [Host.reduceAdd, Ideal.hostReduceAdd_def]
  rw [Ideal.hostReduceAdd_single reducesTo_S100000x128_S128_d0 (by decide)]
  refine congrArg (_ + ·) (Finset.sum_congr rfl fun n _ => ?_)
  exact congrArg h (funext fun a => Fin.ext (by match a with | ⟨0, _⟩ => rfl | ⟨1, _⟩ => rfl))

theorem pre_ops : preOps c x agg w1 b1 = Cert.Spec.pre (c ix0) x agg w1 b1 := by
  funext i
  obtain ⟨n, j, rfl⟩ : ∃ (n : Fin 100000) (j : Fin 128), i = ix2 n j := ⟨i 0, i 1, eq_ix2 i⟩
  simp only [preOps, addf_apply, mulf_apply, rows128_apply,
    fun i => broadcastInDim_apply _ bcast_S_S100000x64 c i ix0 (fun a => a.elim0),
    dot_apply dot_S100000x64_S64x128_S100000x128_1_0_0_1_n_n rfl rfl lhs_main_v37_0 lhs_main_v37_1 rhs_main_v37_0 rhs_main_v37_1]
  rfl

theorem mean_ops : meanOps h = Cert.Spec.meanC h := by
  funext i
  obtain ⟨k, rfl⟩ : ∃ k : Fin 128, i = ix1 k := ⟨i 0, eq_ix1 i⟩
  simp only [meanOps, hostDivf_apply, colsum_apply]
  rfl

theorem rstd_ops : rstdOps h = Cert.Spec.rstdC h := by
  funext i
  obtain ⟨k, rfl⟩ : ∃ k : Fin 128, i = ix1 k := ⟨i 0, eq_ix1 i⟩
  simp only [rstdOps, Host.rsqrt, addf_apply, mulf_apply, subf_apply, hostDivf_apply, colsum_apply, rows128_apply,
    mean_ops]
  rfl

/-- The whole-array operations of a layer compute Spec's centred layer. -/
theorem layer_ops : layerOps c x agg w1 b1 g bt w2 b2 = Cert.Spec.layerCentred (c ix0) x agg w1 b1 g bt w2 b2 := by
  funext i
  obtain ⟨n, j, rfl⟩ : ∃ (n : Fin 100000) (j : Fin 64), i = ix2 n j := ⟨i 0, i 1, eq_ix2 i⟩
  simp only [layerOps, addf_apply, mulf_apply, subf_apply, maximumf_apply, rows128_apply,
    rows_apply _ _ (by decide : 64 ≠ 1), pre_ops, mean_ops, rstd_ops,
    dot_apply dot_S100000x128_S128x64_S100000x64_1_0_0_1_n_n rfl rfl lhs_main_v67_0 lhs_main_v67_1 rhs_main_v67_0 rhs_main_v67_1]
  rfl

end Cert.ReferenceIdeal.RefValue

end
-- ==== Proof.RefValueL1.lean ====
import proofs.«426483_j67748814127260_1_alg».proof.Proof.LayerOps

namespace Cert.ReferenceIdeal.RefValue

open Cert.ReferenceIdeal Cert.ReferenceIdeal.Facts₀ Cert.ReferenceIdeal.ReadP Idealize.ShloMosaic

variable (x0 : (⟨S100000x32, .f32⟩ : BufTy).Contents (Elt Ideal)) (x1 : (⟨S2x1600000, .i32⟩ : BufTy).Contents (Elt Ideal))
  (x3 : (⟨S32x64, .f32⟩ : BufTy).Contents (Elt Ideal)) (x4 : (⟨S64, .f32⟩ : BufTy).Contents (Elt Ideal))
  (x5 : (⟨S4x64x128, .f32⟩ : BufTy).Contents (Elt Ideal)) (x6 x7 x8 : (⟨S4x128, .f32⟩ : BufTy).Contents (Elt Ideal))
  (x9 : (⟨S4x128x64, .f32⟩ : BufTy).Contents (Elt Ideal)) (x10 : (⟨S4x64, .f32⟩ : BufTy).Contents (Elt Ideal))
  (x11 : (⟨S4, .f32⟩ : BufTy).Contents (Elt Ideal))

theorem layer1_ref : val_main_v71 (F := Ideal) x0 x1 x3 x4 x5 x6 x7 x8 x9 x10 x11 =
    Cert.Spec.layerCentred (Cert.Spec.coefOf 0 Cert.KernelIdeal.Facts₀.slices_S4_S1_0 x11) (val_main_v7 (F := Ideal) x0 x3 x4)
      (Cert.Spec.aggOf (val_main_v7 (F := Ideal) x0 x3 x4) x1)
      (Cert.Spec.w1Of 0 Cert.KernelIdeal.Facts₀.slices_S4x64x128_S1x64x128_0_0_0 x5)
      (Cert.Spec.row128Of 0 Cert.KernelIdeal.Facts₀.slices_S4x128_S1x128_0_0 x6)
      (Cert.Spec.row128Of 0 Cert.KernelIdeal.Facts₀.slices_S4x128_S1x128_0_0 x7)
      (Cert.Spec.row128Of 0 Cert.KernelIdeal.Facts₀.slices_S4x128_S1x128_0_0 x8)
      (Cert.Spec.w2Of 0 Cert.KernelIdeal.Facts₀.slices_S4x128x64_S1x128x64_0_0_0 x9)
      (Cert.Spec.row64Of 0 Cert.KernelIdeal.Facts₀.slices_S4x64_S1x64_0_0 x10) :=
  layer_ops (val_main_v33 (F := Ideal) x11) _ _ _ _ _ _ _ _

end Cert.ReferenceIdeal.RefValue
-- ==== Proof.RefValueL2.lean ====
import proofs.«426483_j67748814127260_1_alg».proof.Proof.LayerOps

namespace Cert.ReferenceIdeal.RefValue

open Cert.ReferenceIdeal Cert.ReferenceIdeal.Facts₀ Cert.ReferenceIdeal.ReadP Idealize.ShloMosaic

variable (x0 : (⟨S100000x32, .f32⟩ : BufTy).Contents (Elt Ideal)) (x1 : (⟨S2x1600000, .i32⟩ : BufTy).Contents (Elt Ideal))
  (x3 : (⟨S32x64, .f32⟩ : BufTy).Contents (Elt Ideal)) (x4 : (⟨S64, .f32⟩ : BufTy).Contents (Elt Ideal))
  (x5 : (⟨S4x64x128, .f32⟩ : BufTy).Contents (Elt Ideal)) (x6 x7 x8 : (⟨S4x128, .f32⟩ : BufTy).Contents (Elt Ideal))
  (x9 : (⟨S4x128x64, .f32⟩ : BufTy).Contents (Elt Ideal)) (x10 : (⟨S4x64, .f32⟩ : BufTy).Contents (Elt Ideal))
  (x11 : (⟨S4, .f32⟩ : BufTy).Contents (Elt Ideal))

theorem layer2_ref : val_main_v135 (F := Ideal) x0 x1 x3 x4 x5 x6 x7 x8 x9 x10 x11 =
    Cert.Spec.layerCentred (Cert.Spec.coefOf 1 Cert.KernelIdeal.Facts₀.slices_S4_S1_1 x11) (val_main_v71 (F := Ideal) x0 x1 x3 x4 x5 x6 x7 x8 x9 x10 x11)
      (Cert.Spec.aggOf (val_main_v71 (F := Ideal) x0 x1 x3 x4 x5 x6 x7 x8 x9 x10 x11) x1)
      (Cert.Spec.w1Of 1 Cert.KernelIdeal.Facts₀.slices_S4x64x128_S1x64x128_1_0_0 x5)
      (Cert.Spec.row128Of 1 Cert.KernelIdeal.Facts₀.slices_S4x128_S1x128_1_0 x6)
      (Cert.Spec.row128Of 1 Cert.KernelIdeal.Facts₀.slices_S4x128_S1x128_1_0 x7)
      (Cert.Spec.row128Of 1 Cert.KernelIdeal.Facts₀.slices_S4x128_S1x128_1_0 x8)
      (Cert.Spec.w2Of 1 Cert.KernelIdeal.Facts₀.slices_S4x128x64_S1x128x64_1_0_0 x9)
      (Cert.Spec.row64Of 1 Cert.KernelIdeal.Facts₀.slices_S4x64_S1x64_1_0 x10) :=
  layer_ops (val_main_v97 (F := Ideal) x11) _ _ _ _ _ _ _ _

end Cert.ReferenceIdeal.RefValue
-- ==== Proof.RefValueL3.lean ====
import proofs.«426483_j67748814127260_1_alg».proof.Proof.LayerOps

namespace Cert.ReferenceIdeal.RefValue

open Cert.ReferenceIdeal Cert.ReferenceIdeal.Facts₀ Cert.ReferenceIdeal.ReadP Idealize.ShloMosaic

variable (x0 : (⟨S100000x32, .f32⟩ : BufTy).Contents (Elt Ideal)) (x1 : (⟨S2x1600000, .i32⟩ : BufTy).Contents (Elt Ideal))
  (x3 : (⟨S32x64, .f32⟩ : BufTy).Contents (Elt Ideal)) (x4 : (⟨S64, .f32⟩ : BufTy).Contents (Elt Ideal))
  (x5 : (⟨S4x64x128, .f32⟩ : BufTy).Contents (Elt Ideal)) (x6 x7 x8 : (⟨S4x128, .f32⟩ : BufTy).Contents (Elt Ideal))
  (x9 : (⟨S4x128x64, .f32⟩ : BufTy).Contents (Elt Ideal)) (x10 : (⟨S4x64, .f32⟩ : BufTy).Contents (Elt Ideal))
  (x11 : (⟨S4, .f32⟩ : BufTy).Contents (Elt Ideal))

theorem layer3_ref : val_main_v199 (F := Ideal) x0 x1 x3 x4 x5 x6 x7 x8 x9 x10 x11 =
    Cert.Spec.layerCentred (Cert.Spec.coefOf 2 Cert.KernelIdeal.Facts₀.slices_S4_S1_2 x11) (val_main_v135 (F := Ideal) x0 x1 x3 x4 x5 x6 x7 x8 x9 x10 x11)
      (Cert.Spec.aggOf (val_main_v135 (F := Ideal) x0 x1 x3 x4 x5 x6 x7 x8 x9 x10 x11) x1)
      (Cert.Spec.w1Of 2 Cert.KernelIdeal.Facts₀.slices_S4x64x128_S1x64x128_2_0_0 x5)
      (Cert.Spec.row128Of 2 Cert.KernelIdeal.Facts₀.slices_S4x128_S1x128_2_0 x6)
      (Cert.Spec.row128Of 2 Cert.KernelIdeal.Facts₀.slices_S4x128_S1x128_2_0 x7)
      (Cert.Spec.row128Of 2 Cert.KernelIdeal.Facts₀.slices_S4x128_S1x128_2_0 x8)
      (Cert.Spec.w2Of 2 Cert.KernelIdeal.Facts₀.slices_S4x128x64_S1x128x64_2_0_0 x9)
      (Cert.Spec.row64Of 2 Cert.KernelIdeal.Facts₀.slices_S4x64_S1x64_2_0 x10) :=
  layer_ops (val_main_v161 (F := Ideal) x11) _ _ _ _ _ _ _ _

end Cert.ReferenceIdeal.RefValue
-- ==== Proof.RefValueL4.lean ====
import proofs.«426483_j67748814127260_1_alg».proof.Proof.LayerOps

namespace Cert.ReferenceIdeal.RefValue

open Cert.ReferenceIdeal Cert.ReferenceIdeal.Facts₀ Cert.ReferenceIdeal.ReadP Idealize.ShloMosaic

variable (x0 : (⟨S100000x32, .f32⟩ : BufTy).Contents (Elt Ideal)) (x1 : (⟨S2x1600000, .i32⟩ : BufTy).Contents (Elt Ideal))
  (x3 : (⟨S32x64, .f32⟩ : BufTy).Contents (Elt Ideal)) (x4 : (⟨S64, .f32⟩ : BufTy).Contents (Elt Ideal))
  (x5 : (⟨S4x64x128, .f32⟩ : BufTy).Contents (Elt Ideal)) (x6 x7 x8 : (⟨S4x128, .f32⟩ : BufTy).Contents (Elt Ideal))
  (x9 : (⟨S4x128x64, .f32⟩ : BufTy).Contents (Elt Ideal)) (x10 : (⟨S4x64, .f32⟩ : BufTy).Contents (Elt Ideal))
  (x11 : (⟨S4, .f32⟩ : BufTy).Contents (Elt Ideal))

theorem layer4_ref : val_main_v263 (F := Ideal) x0 x1 x3 x4 x5 x6 x7 x8 x9 x10 x11 =
    Cert.Spec.layerCentred (Cert.Spec.coefOf 3 Cert.KernelIdeal.Facts₀.slices_S4_S1_3 x11) (val_main_v199 (F := Ideal) x0 x1 x3 x4 x5 x6 x7 x8 x9 x10 x11)
      (Cert.Spec.aggOf (val_main_v199 (F := Ideal) x0 x1 x3 x4 x5 x6 x7 x8 x9 x10 x11) x1)
      (Cert.Spec.w1Of 3 Cert.KernelIdeal.Facts₀.slices_S4x64x128_S1x64x128_3_0_0 x5)
      (Cert.Spec.row128Of 3 Cert.KernelIdeal.Facts₀.slices_S4x128_S1x128_3_0 x6)
      (Cert.Spec.row128Of 3 Cert.KernelIdeal.Facts₀.slices_S4x128_S1x128_3_0 x7)
      (Cert.Spec.row128Of 3 Cert.KernelIdeal.Facts₀.slices_S4x128_S1x128_3_0 x8)
      (Cert.Spec.w2Of 3 Cert.KernelIdeal.Facts₀.slices_S4x128x64_S1x128x64_3_0_0 x9)
      (Cert.Spec.row64Of 3 Cert.KernelIdeal.Facts₀.slices_S4x64_S1x64_3_0 x10) :=
  layer_ops (val_main_v225 (F := Ideal) x11) _ _ _ _ _ _ _ _

end Cert.ReferenceIdeal.RefValue
-- ==== Proof.RefNet.lean ====
import proofs.«426483_j67748814127260_1_alg».proof.Proof.RefValue
import proofs.«426483_j67748814127260_1_alg».proof.Proof.RefValueL1
import proofs.«426483_j67748814127260_1_alg».proof.Proof.RefValueL2
import proofs.«426483_j67748814127260_1_alg».proof.Proof.RefValueL3
import proofs.«426483_j67748814127260_1_alg».proof.Proof.RefValueL4
import proofs.«426483_j67748814127260_1_alg».proof.Proof.Bridge

noncomputable section

namespace Cert.ReferenceIdeal.RefValue
open Cert.ReferenceIdeal Cert.ReferenceIdeal.Facts₀ Cert.ReferenceIdeal.ReadP Idealize.ShloMosaic Idealize.ShloMosaic.ValueIdx

variable (x0 : (⟨S100000x32, .f32⟩ : BufTy).Contents (Elt Ideal)) (x1 : (⟨S2x1600000, .i32⟩ : BufTy).Contents (Elt Ideal))
  (x2 : (⟨S100000, .i32⟩ : BufTy).Contents (Elt Ideal)) (x3 : (⟨S32x64, .f32⟩ : BufTy).Contents (Elt Ideal))
  (x4 : (⟨S64, .f32⟩ : BufTy).Contents (Elt Ideal)) (x5 : (⟨S4x64x128, .f32⟩ : BufTy).Contents (Elt Ideal))
  (x6 x7 x8 : (⟨S4x128, .f32⟩ : BufTy).Contents (Elt Ideal)) (x9 : (⟨S4x128x64, .f32⟩ : BufTy).Contents (Elt Ideal))
  (x10 : (⟨S4x64, .f32⟩ : BufTy).Contents (Elt Ideal)) (x11 : (⟨S4, .f32⟩ : BufTy).Contents (Elt Ideal))
  (x12 : (⟨S64x1, .f32⟩ : BufTy).Contents (Elt Ideal)) (x13 : (⟨S1, .f32⟩ : BufTy).Contents (Elt Ideal))

theorem feat1_ref : val_main_v71 (F := Ideal) x0 x1 x3 x4 x5 x6 x7 x8 x9 x10 x11 =
    Cert.Bridge.c0 x1 x5 x6 x7 x8 x9 x10 x11 (Cert.Spec.proj x0 x3 x4) := by
  rw [layer1_ref, proj_ref]
  rfl

theorem feat2_ref : val_main_v135 (F := Ideal) x0 x1 x3 x4 x5 x6 x7 x8 x9 x10 x11 =
    Cert.Bridge.c1 x1 x5 x6 x7 x8 x9 x10 x11 (Cert.Bridge.c0 x1 x5 x6 x7 x8 x9 x10 x11 (Cert.Spec.proj x0 x3 x4)) := by
  rw [layer2_ref, feat1_ref]
  rfl

theorem feat3_ref : val_main_v199 (F := Ideal) x0 x1 x3 x4 x5 x6 x7 x8 x9 x10 x11 =
    Cert.Bridge.c2 x1 x5 x6 x7 x8 x9 x10 x11 (Cert.Bridge.c1 x1 x5 x6 x7 x8 x9 x10 x11 (Cert.Bridge.c0 x1 x5 x6 x7 x8 x9 x10 x11 (Cert.Spec.proj x0 x3 x4))) := by
  rw [layer3_ref, feat2_ref]
  rfl

theorem feat_ref : val_main_v263 (F := Ideal) x0 x1 x3 x4 x5 x6 x7 x8 x9 x10 x11 =
    Cert.Bridge.featC x0 x1 x3 x4 x5 x6 x7 x8 x9 x10 x11 := by
  rw [layer4_ref, feat3_ref]
  rfl

theorem net_ref : val_main_v271 (F := Ideal) x0 x1 x2 x3 x4 x5 x6 x7 x8 x9 x10 x11 x12 x13 =
    Cert.Spec.headOf (Host.scatterAdd (F := Ideal) scatter_S64x64_S100000x1_S100000x64_1_0_0_1
      (broadcastInDim S64x64 ![] bcast_S_S64x64 (constant (F := Ideal) S_ .f32 0x00000000#32))
      (broadcastInDim S100000x1 ![0] bcast_S100000_S100000x1_0 x2)
      (Cert.Bridge.featC x0 x1 x3 x4 x5 x6 x7 x8 x9 x10 x11)) x12 x13 := by
  rw [head_ref, feat_ref]

end Cert.ReferenceIdeal.RefValue

end
-- ==== Proof.PreReal.lean ====
import proofs.«426483_j67748814127260_1_alg».proof.Proof.Gen.Pre_finite_inputs
import Idealize.ShloMosaic.PureOps.Ideal
import Idealize.ShloMosaic.Lib.ReduceAll
import Idealize.ShloMosaic.Lib.ValueIdx

namespace Cert.PreReal
open Idealize.ShloMosaic Idealize.ShloMosaic.ValueIdx Cert.Pre_finite_inputs

instance : Subsingleton S_.Idx := ⟨fun a b => funext fun d => d.elim0⟩

theorem ofBits_inf : Ideal.ofBits .f32 0x7F800000#32 = ⊤ := by simp [Ideal.ofBits, Ideal.ieee]

theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

theorem real_of_block {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) :
    ∀ i, ∃ r : ℝ, a i = (r : EReal) := fun i =>
  real_of_abs_lt (a i) (Host.reduce_andi_all _ _ hr hu ix0 e i)

theorem real_of_pre (a0 : FVec Ideal S100000x32 .f32) (a1 : IVec S2x1600000 32) (a2 : IVec S100000 32)
    (a3 : FVec Ideal S32x64 .f32) (a4 : FVec Ideal S64 .f32) (a5 : FVec Ideal S4x64x128 .f32)
    (a6 a7 a8 : FVec Ideal S4x128 .f32) (a9 : FVec Ideal S4x128x64 .f32) (a10 : FVec Ideal S4x64 .f32)
    (a11 : FVec Ideal S4 .f32) (a12 : FVec Ideal S64x1 .f32) (a13 : FVec Ideal S1 .f32)
    (h : Cert.Pre_finite_inputs.fn (F := Ideal) a0 a1 a2 a3 a4 a5 a6 a7 a8 a9 a10 a11 a12 a13 = fun _ => 1#1) :
    (∀ i, ∃ r : ℝ, a0 i = (r : EReal)) ∧ (∀ i, ∃ r : ℝ, a3 i = (r : EReal)) ∧ (∀ i, ∃ r : ℝ, a4 i = (r : EReal)) ∧
    (∀ i, ∃ r : ℝ, a5 i = (r : EReal)) ∧ (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) ∧ (∀ i, ∃ r : ℝ, a10 i = (r : EReal)) ∧
    (∀ i, ∃ r : ℝ, a11 i = (r : EReal)) ∧ (∀ i, ∃ r : ℝ, a12 i = (r : EReal)) ∧ (∀ i, ∃ r : ℝ, a13 i = (r : EReal)) := by
  have h0 := congrFun h ix0
  dsimp only [fn, fn_part1, fn_part2, fn_part3] at h0
  simp only [andi, IntOp.andi_eq_one] at h0
  obtain ⟨⟨⟨⟨⟨⟨⟨⟨⟨⟨⟨e0, e3⟩, e4⟩, e5⟩, e6⟩, e7⟩, e8⟩, e9⟩, e10⟩, e11⟩, e12⟩, e13⟩ := h0
  exact ⟨real_of_block a0 _ _ _ e0, real_of_block a3 _ _ _ e3, real_of_block a4 _ _ _ e4,
    real_of_block a5 _ _ _ e5, real_of_block a6 _ _ _ e6, real_of_block a7 _ _ _ e7, real_of_block a8 _ _ _ e8,
    real_of_block a9 _ _ _ e9, real_of_block a10 _ _ _ e10, real_of_block a11 _ _ _ e11,
    real_of_block a12 _ _ _ e12, real_of_block a13 _ _ _ e13⟩

end Cert.PreReal
-- ==== Proof.lean ====
import proofs.«426483_j67748814127260_1_alg».proof.Defs
import proofs.«426483_j67748814127260_1_alg».proof.Proof.Gen.Kernel
import proofs.«426483_j67748814127260_1_alg».proof.Proof.Gen.Kernel.Skeleton
import proofs.«426483_j67748814127260_1_alg».proof.Proof.Gen.Kernel.Launch
import proofs.«426483_j67748814127260_1_alg».proof.Proof.Gen.Kernel.Points
import proofs.«426483_j67748814127260_1_alg».proof.Proof.Gen.Kernel.Frame
import proofs.«426483_j67748814127260_1_alg».proof.Proof.Gen.KernelIdeal
import proofs.«426483_j67748814127260_1_alg».proof.Proof.Gen.KernelIdeal.Skeleton
import proofs.«426483_j67748814127260_1_alg».proof.Proof.Gen.KernelIdeal.Launch
import proofs.«426483_j67748814127260_1_alg».proof.Proof.Gen.KernelIdeal.Points
import proofs.«426483_j67748814127260_1_alg».proof.Proof.Gen.KernelIdeal.Frame
import proofs.«426483_j67748814127260_1_alg».proof.Proof.Gen.ReferenceIdeal
import proofs.«426483_j67748814127260_1_alg».proof.Proof.Gen.Pre_finite_inputs
import proofs.«426483_j67748814127260_1_alg».proof.Proof.KRun
import proofs.«426483_j67748814127260_1_alg».proof.Proof.KernelValue
import proofs.«426483_j67748814127260_1_alg».proof.Proof.RefRun
import proofs.«426483_j67748814127260_1_alg».proof.Proof.RefNet
import proofs.«426483_j67748814127260_1_alg».proof.Proof.PreReal
import proofs.«426483_j67748814127260_1_alg».proof.Proof.Bridge
import Idealize.ShloMosaic.Adequacy
import Idealize.ShloMosaic.Init

noncomputable section

namespace Cert.Proof
open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Whole.run (F := Ideal) m ρ)

theorem algebraic : Cert.algebraic_KernelIdeal_ReferenceIdeal := by
  intro m ρ m' ρ' hpre hagree
  refine ⟨fun c => Cert.KernelIdeal.Whole.out m c, ?_, ?_⟩
  · exact (θ_run Cert.KernelIdeal.defs _ _).mono
      (fun r h c => ⟨(h c).1.trans (Cert.KernelIdeal.Whole.value m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Whole.run (F := Ideal) m' ρ')
    obtain ⟨e0, e1, e2, e3, e4, e5, e6, e7, e8, e9, e10, e11, e12, e13⟩ := hagree c
    obtain ⟨r0, r3, r4, r5, r6, r7, r8, r9, r10, r11, -, -⟩ := Cert.PreReal.real_of_pre _ _ _ _ _ _ _ _ _ _ _ _ _ _ (hpre c)
    rw [e0, e1, e2, e3, e4, e5, e6, e7, e8, e9, e10, e11, e12, e13, Cert.ReferenceIdeal.RefValue.net_ref]
    exact (Cert.Bridge.out_eq (a1 := m ((c.tc : Thread Cert.KernelIdeal.nD Cert.KernelIdeal.τ).loc Cert.KernelIdeal.main_arg1)) r0 r3 r4 r5 r6 r7 r8 r9 r10 r11 _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
